-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64x16 : Shape := ⟨2, ![64, 16]⟩
abbrev S_ : Shape := ⟨0, ![]⟩
abbrev S1x1600000 : Shape := ⟨2, ![1, 1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64x16 : S_.BroadcastsInDim S64x16 (![] : Fin 0 → Fin S64x16.rank)
  reducesTo_S64x16_S_d0_1 : S64x16.ReducesTo [0, 1] S_
  slices_S2x1600000_S1x1600000_0_0 : S2x1600000.Slices ![0, 0] S1x1600000
  shapeCasts_S1x1600000_S1600000 : S1x1600000.ShapeCasts S1600000

variable [Facts]

def fn_part1 {F : FTy → Type} [FloatOps F] (main_arg1 : IVec S2x1600000 32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : IVec S1x1600000 32 := (extractStridedSlice S1x1600000 ![0, 0] · slices_S2x1600000_S1x1600000_0_0) main_arg1
  let main_v20 : IVec S1600000 32 := shapeCast S1600000 main_v19 shapeCasts_S1x1600000_S1600000
  let main_c_6 : IVec S_ 32 := constantI S_ 32 0#32
  let main_v21 : IVec S1600000 32 := broadcastInDim S1600000 ![] bcast_S_S1600000 main_c_6
  let main_v22 : IVec S1600000 1 := cmpi .sge main_v20 main_v21
  let main_v23 : IVec S1x1600000 32 := (extractStridedSlice S1x1600000 ![0, 0] · slices_S2x1600000_S1x1600000_0_0) main_arg1
  let main_v24 : IVec S1600000 32 := shapeCast S1600000 main_v23 shapeCasts_S1x1600000_S1600000
  let main_c_7 : IVec S_ 32 := constantI S_ 32 100000#32
  let main_v25 : IVec S1600000 32 := broadcastInDim S1600000 ![] bcast_S_S1600000 main_c_7
  let main_v26 : IVec S1600000 1 := cmpi .slt main_v24 main_v25
  let main_v27 : IVec S1600000 1 := andi main_v22 main_v26
  let main_c_8 : IVec S_ 1 := constantI S_ 1 1#1
  let main_v28 : IVec S_ 1 := (fun x v => Host.reduce IntOp.andi x v reducesTo_S1600000_S_d0 h_S_) main_v27 main_c_8
  let main_v29 : IVec S_ 1 := andi main_v18 main_v28
  main_v29

def fn {F : FTy → Type} [FloatOps F] (main_arg0 : FVec F S100000x128 .f32) (main_arg1 : IVec S2x1600000 32) (main_arg2 : FVec F S1600000 .f32) (main_arg3 : FVec F S128x64 .f32) (main_arg4 : FVec F S64x16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg1 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64x16 : Shape := ⟨2, ![64, 16]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S3936 : Shape := ⟨1, ![3936]⟩
abbrev S1703936 : Shape := ⟨1, ![1703936]⟩
abbrev S1703936x1 : Shape := ⟨2, ![1703936, 1]⟩
abbrev S1x1703936 : Shape := ⟨2, ![1, 1703936]⟩
abbrev S100000x64 : Shape := ⟨2, ![100000, 64]⟩
abbrev S5000x128 : Shape := ⟨2, ![5000, 128]⟩
abbrev S5000x64 : Shape := ⟨2, ![5000, 64]⟩
abbrev S1703936x64 : Shape := ⟨2, ![1703936, 64]⟩
abbrev S4096x1 : Shape := ⟨2, ![4096, 1]⟩
abbrev S4000x64 : Shape := ⟨2, ![4000, 64]⟩
abbrev S4096x64 : Shape := ⟨2, ![4096, 64]⟩
abbrev S1x4000 : Shape := ⟨2, ![1, 4000]⟩
abbrev S4096x4000 : Shape := ⟨2, ![4096, 4000]⟩
abbrev S1x4096 : Shape := ⟨2, ![1, 4096]⟩
abbrev S4000x1 : Shape := ⟨2, ![4000, 1]⟩
abbrev S4000x4096 : Shape := ⟨2, ![4000, 4096]⟩
abbrev S100000x16 : Shape := ⟨2, ![100000, 16]⟩
abbrev S5000x16 : Shape := ⟨2, ![5000, 16]⟩
abbrev S1703936x16 : Shape := ⟨2, ![1703936, 16]⟩
abbrev S4000x16 : Shape := ⟨2, ![4000, 16]⟩
abbrev S4096x16 : Shape := ⟨2, ![4096, 16]⟩
abbrev S4000 : Shape := ⟨1, ![4000]⟩

abbrev nBuf : Space → Nat
  | .hbm => 65
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64x16, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S100000, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S3936, .i32⟩
  | .hbm, ⟨49, _⟩ => ⟨S1703936, .i32⟩
  | .hbm, ⟨50, _⟩ => ⟨S_, .i32⟩
  | .hbm, ⟨51, _⟩ => ⟨S3936, .i32⟩
  | .hbm, ⟨52, _⟩ => ⟨S1703936, .i32⟩
  | .hbm, ⟨53, _⟩ => ⟨S_, .f32⟩
  | .hbm, ⟨54, _⟩ => ⟨S3936, .f32⟩
  | .hbm, ⟨55, _⟩ => ⟨S1703936, .f32⟩
  | .hbm, ⟨56, _⟩ => ⟨S1703936x1, .i32⟩
  | .hbm, ⟨57, _⟩ => ⟨S1703936x1, .f32⟩
  | .hbm, ⟨58, _⟩ => ⟨S1x1703936, .i32⟩
  | .hbm, ⟨59, _⟩ => ⟨S100000x64, .bf16⟩
  | .hbm, ⟨60, _⟩ => ⟨S1703936x64, .bf16⟩
  | .hbm, ⟨61, _⟩ => ⟨S100000x64, .bf16⟩
  | .hbm, ⟨62, _⟩ => ⟨S100000x16, .bf16⟩
  | .hbm, ⟨63, _⟩ => ⟨S1703936x16, .bf16⟩
  | .hbm, ⟨64, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .bf16⟩
  | .local _ .vmem, ⟨4, _⟩ => ⟨S5000x64, .bf16⟩
  | .local _ .vmem, ⟨5, _⟩ => ⟨S4096x1, .i32⟩
  | .local _ .vmem, ⟨6, _⟩ => ⟨S4096x1, .i32⟩
  | .local _ .vmem, ⟨7, _⟩ => ⟨S4096x1, .f32⟩
  | .local _ .vmem, ⟨8, _⟩ => ⟨S4096x1, .f32⟩
  | .local _ .vmem, ⟨9, _⟩ => ⟨S4000x64, .bf16⟩
  | .local _ .vmem, ⟨10, _⟩ => ⟨S4000x64, .bf16⟩
  | .local _ .vmem, ⟨11, _⟩ => ⟨S4096x64, .bf16⟩
  | .local _ .vmem, ⟨12, _⟩ => ⟨S4096x64, .bf16⟩
  | .local _ .vmem, ⟨13, _⟩ => ⟨S4096x64, .f32⟩
  | .local _ .vmem, ⟨14, _⟩ => ⟨S4096x64, .bf16⟩
  | .local _ .vmem, ⟨15, _⟩ => ⟨S4096x64, .bf16⟩
  | .local _ .vmem, ⟨16, _⟩ => ⟨S1x4096, .i32⟩
  | .local _ .vmem, ⟨17, _⟩ => ⟨S1x4096, .i32⟩
  | .local _ .vmem, ⟨18, _⟩ => ⟨S4000x64, .bf16⟩
  | .local _ .vmem, ⟨19, _⟩ => ⟨S4000x64, .bf16⟩
  | .local _ .vmem, ⟨20, _⟩ => ⟨S4000x64, .f32⟩
  | .local _ .vmem, ⟨21, _⟩ => ⟨S5000x64, .bf16⟩
  | .local _ .vmem, ⟨22, _⟩ => ⟨S5000x64, .bf16⟩
  | .local _ .vmem, ⟨23, _⟩ => ⟨S64x16, .f32⟩
  | .local _ .vmem, ⟨24, _⟩ => ⟨S5000x16, .bf16⟩
  | .local _ .vmem, ⟨25, _⟩ => ⟨S5000x16, .bf16⟩
  | .local _ .vmem, ⟨26, _⟩ => ⟨S4096x1, .i32⟩
  | .local _ .vmem, ⟨27, _⟩ => ⟨S4096x1, .i32⟩
  | .local _ .vmem, ⟨28, _⟩ => ⟨S4096x1, .f32⟩
  | .local _ .vmem, ⟨29, _⟩ => ⟨S4096x1, .f32⟩
  | .local _ .vmem, ⟨30, _⟩ => ⟨S4000x16, .bf16⟩
  | .local _ .vmem, ⟨31, _⟩ => ⟨S4000x16, .bf16⟩
  | .local _ .vmem, ⟨32, _⟩ => ⟨S4096x16, .bf16⟩
  | .local _ .vmem, ⟨33, _⟩ => ⟨S4096x16, .bf16⟩
  | .local _ .vmem, ⟨34, _⟩ => ⟨S4096x16, .f32⟩
  | .local _ .vmem, ⟨35, _⟩ => ⟨S4096x16, .bf16⟩
  | .local _ .vmem, ⟨36, _⟩ => ⟨S4096x16, .bf16⟩
  | .local _ .vmem, ⟨37, _⟩ => ⟨S1x4096, .i32⟩
  | .local _ .vmem, ⟨38, _⟩ => ⟨S1x4096, .i32⟩
  | .local _ .vmem, ⟨39, _⟩ => ⟨S4000x16, .f32⟩
  | .local _ .vmem, ⟨40, _⟩ => ⟨S4000x16, .f32⟩
  | .local _ .vmem, ⟨41, _⟩ => ⟨S4000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc4_scratch0 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc5_scratch0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![416, 25], ![false, false]⟩

def k1_cond2 (i : grid1.Coords) : BitVec 1 :=
  let arg1 : BitVec 32 := BitVec.ofNat 32 (i 1).val
  let c24_i32 : BitVec 32 := 24#32
  let v23 : BitVec 1 := Scalar.cmpi .eq arg1 c24_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4096x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![25, 416], ![false, false]⟩

def k2_cond2 (i : grid2.Coords) : BitVec 1 :=
  let arg1 : BitVec 32 := BitVec.ofNat 32 (i 1).val
  let c415_i32 : BitVec 32 := 415#32
  let v23 : BitVec 1 := Scalar.cmpi .eq arg1 c415_i32
  let v24 : BitVec 32 := Scalar.extui v23
  let c0_i32_8 : BitVec 32 := 0#32
  let v25 : BitVec 1 := Scalar.cmpi .ne v24 c0_i32_8
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S4096x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x4096 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S4000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x16 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![416, 25], ![false, false]⟩

def k4_cond2 (i : grid4.Coords) : BitVec 1 :=
  let arg1 : BitVec 32 := BitVec.ofNat 32 (i 1).val
  let c24_i32 : BitVec 32 := 24#32
  let v23 : BitVec 1 := Scalar.cmpi .eq arg1 c24_i32
  let v24 : BitVec 32 := Scalar.extui v23
  let c0_i32_8 : BitVec 32 := 0#32
  let v25 : BitVec 1 := Scalar.cmpi .ne v24 c0_i32_8
  v25

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S4096x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S4000x16 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S4096x16 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![25, 416], ![false, false]⟩

def k5_cond2 (i : grid5.Coords) : BitVec 1 :=
  let arg1 : BitVec 32 := BitVec.ofNat 32 (i 1).val
  let c415_i32 : BitVec 32 := 415#32
  let v23 : BitVec 1 := Scalar.cmpi .eq arg1 c415_i32
  let v24 : BitVec 32 := Scalar.extui v23
  let c0_i32_8 : BitVec 32 := 0#32
  let v25 : BitVec 1 := Scalar.cmpi .ne v24 c0_i32_8
  v25

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S4096x16 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S1x4096 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S4000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S_S3936 : S_.BroadcastsInDim S3936 (![] : Fin 0 → Fin S3936.rank)
  concatenates_S1700000_S3936_S1703936_d0 : Shape.Concatenates [S1700000, S3936] S1703936 0
  shapeCasts_S1703936_S1703936x1 : S1703936.ShapeCasts S1703936x1
  shapeCasts_S1703936_S1x1703936 : S1703936.ShapeCasts S1x1703936
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  iota_S1x4000_d1_w32 : S1x4000.Iotas .tc 32 [1]
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x4000 : S4096x1.Broadcasts S4096x4000
  broadcasts_S1x4000_S4096x4000 : S1x4000.Broadcasts S4096x4000
  natLt_1_32 : 1 < 32
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S4096x1_S4096x64 : S4096x1.Broadcasts S4096x64
  packedbf16_S4096x64_S4096x64_0_0 : (Rect.unit (s := S4096x64) ![0, 0] S4096x64.size inb_S4096x64_S4096x64_0_0).PackedRows (EltTy.packing .bf16)
  iota_S4000x1_d0_w32 : S4000x1.Iotas .tc 32 [0]
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S4000x1_S4000x4096 : S4000x1.Broadcasts S4000x4096
  broadcasts_S1x4096_S4000x4096 : S1x4096.Broadcasts S4000x4096
  packedbf16_S4000x64_S4000x64_0_0 : (Rect.unit (s := S4000x64) ![0, 0] S4000x64.size inb_S4000x64_S4000x64_0_0).PackedRows (EltTy.packing .bf16)
  shapeCasts_S5000x64_S5000x64 : S5000x64.ShapeCasts S5000x64
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  packedbf16_S5000x16_S5000x16_0_0 : (Rect.unit (s := S5000x16) ![0, 0] S5000x16.size inb_S5000x16_S5000x16_0_0).PackedRows (EltTy.packing .bf16)
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  broadcasts_S4096x1_S4096x16 : S4096x1.Broadcasts S4096x16
  packedbf16_S4096x16_S4096x16_0_0 : (Rect.unit (s := S4096x16) ![0, 0] S4096x16.size inb_S4096x16_S4096x16_0_0).PackedRows (EltTy.packing .bf16)
  reduces_S4000x16_S4000 : S4000x16.Reduces [1] S4000
  shapeCasts_S4000_S4000x1 : S4000.ShapeCasts S4000x1
  broadcasts_S4000x1_S4000x16 : S4000x1.Broadcasts S4000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  dot_S4096x4000_S4000x64_S4096x64_1_0_0_1_n_n_wf : DotDims.WF S4096x4000 S4000x64 S4096x64 [1] [0] [0] [1] [] []
  dot_S4000x4096_S4096x64_S4000x64_1_0_0_1_n_n_wf : DotDims.WF S4000x4096 S4096x64 S4000x64 [1] [0] [0] [1] [] []
  dot_S5000x64_S64x16_S5000x16_1_0_0_1_n_n_wf : DotDims.WF S5000x64 S64x16 S5000x16 [1] [0] [0] [1] [] []
  dot_S4096x4000_S4000x16_S4096x16_1_0_0_1_n_n_wf : DotDims.WF S4096x4000 S4000x16 S4096x16 [1] [0] [0] [1] [] []
  dot_S4000x4096_S4096x16_S4000x16_1_0_0_1_n_n_wf : DotDims.WF S4000x4096 S4096x16 S4000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .bf16 = 32 ∨ (Rect.block (s := S100000x64) S5000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x1.size a ≤ S1703936x1.size a
  hwx1_0 : ∀ i : grid1.Coords, EltTy.bits .i32 = 32 ∨ (Rect.block (s := S1703936x1) S4096x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S1703936x1.size a
  hwx1_1 : ∀ i : grid1.Coords, EltTy.bits .f32 = 32 ∨ (Rect.block (s := S1703936x1) S4096x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .bf16 = 32 ∨ (Rect.block (s := S100000x64) S4000x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x64.size a ≤ S1703936x64.size a
  hwx1_3 : ∀ i : grid1.Coords, EltTy.bits .bf16 = 32 ∨ (Rect.block (s := S1703936x64) S4096x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S1703936x64.size a
  hwx2_0 : ∀ i : grid2.Coords, EltTy.bits .bf16 = 32 ∨ (Rect.block (s := S1703936x64) S4096x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x4096.size a ≤ S1x1703936.size a
  hwx2_1 : ∀ i : grid2.Coords, EltTy.bits .i32 = 32 ∨ (Rect.block (s := S1x1703936) S1x4096.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .bf16 = 32 ∨ (Rect.block (s := S100000x64) S4000x64.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .bf16 = 32 ∨ (Rect.block (s := S100000x64) S5000x64.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x16.size a ≤ S64x16.size a
  hwx3_1 : ∀ i : grid3.Coords, EltTy.bits .f32 = 32 ∨ (Rect.block (s := S64x16) S64x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S100000x16.size a
  hwx3_2 : ∀ i : grid3.Coords, EltTy.bits .bf16 = 32 ∨ (Rect.block (s := S100000x16) S5000x16.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x1.size a ≤ S1703936x1.size a
  hwx4_0 : ∀ i : grid4.Coords, EltTy.bits .i32 = 32 ∨ (Rect.block (s := S1703936x1) S4096x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x1.size a ≤ S1703936x1.size a
  hwx4_1 : ∀ i : grid4.Coords, EltTy.bits .f32 = 32 ∨ (Rect.block (s := S1703936x1) S4096x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x16.size a ≤ S100000x16.size a
  hwx4_2 : ∀ i : grid4.Coords, EltTy.bits .bf16 = 32 ∨ (Rect.block (s := S100000x16) S4000x16.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4096x16.size a ≤ S1703936x16.size a
  hwx4_3 : ∀ i : grid4.Coords, EltTy.bits .bf16 = 32 ∨ (Rect.block (s := S1703936x16) S4096x16.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x16.size a ≤ S1703936x16.size a
  hwx5_0 : ∀ i : grid5.Coords, EltTy.bits .bf16 = 32 ∨ (Rect.block (s := S1703936x16) S4096x16.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x4096.size a ≤ S1x1703936.size a
  hwx5_1 : ∀ i : grid5.Coords, EltTy.bits .i32 = 32 ∨ (Rect.block (s := S1x1703936) S1x4096.size (cc5_transform_1 i) (hinb5_1 i)).WholeWords (EltTy.packing .i32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x16.size a ≤ S100000x16.size a
  hwx5_2 : ∀ i : grid5.Coords, EltTy.bits .f32 = 32 ∨ (Rect.block (s := S100000x16) S4000x16.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S4096x4000_S4000x64_S4096x64_1_0_0_1_n_n : DotDims S4096x4000 S4000x64 S4096x64 where
  lhsContracting := [1]
  rhsContracting := [0]
  lhsNonContracting := [0]
  rhsNonContracting := [1]
  lhsBatch := []
  rhsBatch := []
  wf := dot_S4096x4000_S4000x64_S4096x64_1_0_0_1_n_n_wf
def dot_S4000x4096_S4096x64_S4000x64_1_0_0_1_n_n : DotDims S4000x4096 S4096x64 S4000x64 where
  lhsContracting := [1]
  rhsContracting := [0]
  lhsNonContracting := [0]
  rhsNonContracting := [1]
  lhsBatch := []
  rhsBatch := []
  wf := dot_S4000x4096_S4096x64_S4000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def dot_S4096x4000_S4000x16_S4096x16_1_0_0_1_n_n : DotDims S4096x4000 S4000x16 S4096x16 where
  lhsContracting := [1]
  rhsContracting := [0]
  lhsNonContracting := [0]
  rhsNonContracting := [1]
  lhsBatch := []
  rhsBatch := []
  wf := dot_S4096x4000_S4000x16_S4096x16_1_0_0_1_n_n_wf
def dot_S4000x4096_S4096x16_S4000x16_1_0_0_1_n_n : DotDims S4000x4096 S4096x16 S4000x16 where
  lhsContracting := [1]
  rhsContracting := [0]
  lhsNonContracting := [0]
  rhsNonContracting := [1]
  lhsBatch := []
  rhsBatch := []
  wf := dot_S4000x4096_S4096x16_S4000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S4096x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S4096x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v42) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v43) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v44) S5000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v38) S4096x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v39) S4096x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v44) S4000x16.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v45) S4096x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v45) S4096x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v40) S1x4096.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v46) S4000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64x16 : Shape := ⟨2, ![64, 16]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S100000x16 : Shape := ⟨2, ![100000, 16]⟩
abbrev S1700000x16 : Shape := ⟨2, ![1700000, 16]⟩
abbrev S100000x1 : Shape := ⟨2, ![100000, 1]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64x16, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S100000, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x64, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x1, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | .hbm, ⟨67, _⟩ => ⟨S100000x16, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x16, .f32⟩
  | .hbm, ⟨77, _⟩ => ⟨S1700000x1, .f32⟩
  | .hbm, ⟨78, _⟩ => ⟨S1700000x16, .f32⟩
  | .hbm, ⟨79, _⟩ => ⟨S1700000x16, .f32⟩
  | .hbm, ⟨80, _⟩ => ⟨S_, .f32⟩
  | .hbm, ⟨81, _⟩ => ⟨S100000x16, .f32⟩
  | .hbm, ⟨82, _⟩ => ⟨S1700000x1, .i32⟩
  | .hbm, ⟨83, _⟩ => ⟨S100000x16, .f32⟩
  | .hbm, ⟨84, _⟩ => ⟨S_, .f32⟩
  | .hbm, ⟨85, _⟩ => ⟨S100000, .f32⟩
  | .hbm, ⟨86, _⟩ => ⟨S_, .f32⟩
  | .hbm, ⟨87, _⟩ => ⟨S100000, .f32⟩
  | .hbm, ⟨88, _⟩ => ⟨S100000, .f32⟩
  | .hbm, ⟨89, _⟩ => ⟨S100000x1, .f32⟩
  | .hbm, ⟨90, _⟩ => ⟨S100000x16, .f32⟩
  | .hbm, ⟨91, _⟩ => ⟨S100000x16, .f32⟩
  | .hbm, ⟨92, _⟩ => ⟨S100000x16, .f32⟩
  | .hbm, ⟨93, _⟩ => ⟨S_, .f32⟩
  | .hbm, ⟨94, _⟩ => ⟨S100000, .f32⟩
  | .hbm, ⟨95, _⟩ => ⟨S100000x1, .f32⟩
  | .hbm, ⟨96, _⟩ => ⟨S100000x1, .f32⟩
  | .hbm, ⟨97, _⟩ => ⟨S100000x16, .f32⟩
  | .hbm, ⟨98, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call1_cst : Ref sig .tc := ⟨.hbm, 64, rfl⟩
abbrev main_call1_v0 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call2_cst : Ref sig .tc := ⟨.hbm, 84, rfl⟩
abbrev main_call2_v0 : Ref sig .tc := ⟨.hbm, 85, rfl⟩
abbrev main_call2_cst_0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_v6 : Ref sig .tc := ⟨.hbm, 92, rfl⟩
abbrev main_call2_cst_1 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_v61 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.BitsDense0.lean ====
import proofs.«128423_j81389630259984_1_alg».proof.Proof.Gen.Kernel.Launch
import proofs.«128423_j81389630259984_1_alg».proof.Proof.Gen.Kernel.Skeleton
import proofs.«128423_j81389630259984_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_2 (x0 : Vec F S5000x128 .f32) (x1 : Vec F S128x64 .f32) : Vec F S5000x64 .bf16 := k0_pay1 x0 x1

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem dense0_offsets_zero : (![0, 0] : Fin 2 → Nat) = fun _ => 0 := by
  funext a; match a with | ⟨0, _⟩ => rfl | ⟨1, _⟩ => rfl

set_option maxHeartbeats 1000000 in
theorem sound_kernel0 (c : Dev nD) (E : Set ℕ) (i : grid0.Coords)
    (arg1 : Memref sig .tc .vmem S5000x128 .f32) (harg1 : arg1.IsWhole)
    (arg2 : Memref sig .tc .vmem S128x64 .f32) (harg2 : arg2.IsWhole)
    (arg3 : Memref sig .tc .vmem S5000x64 .bf16) (harg3 : arg3.IsWhole)
    (x0 : Vec F S5000x128 .f32) (x1 : Vec F S128x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero dense0_offsets_zero inb_S5000x64_S5000x64_0_0 y⟩),
    View.canon_unit_zero dense0_offsets_zero]
  unfold out0_2
  congr 1
  · exact View.ld_unit_zero dense0_offsets_zero _ (View.read (Elt F) arg1.view f0)
  · exact View.ld_unit_zero dense0_offsets_zero _ (View.read (Elt F) arg2.view f1)

theorem body_obligation0 (c : Dev nD) : BodyObligation (dat0 (F := F) V c) (defs₀ (F := F)) Variants.none () Set.univ := fun t => by
  rw [bigSep_W0, bigSep_W0]
  show iprop(_ ∗ _ ∗ (∃ d, _) ∗ (∃ d, _) ∗ (∃ d, _)) ⊢ wp _ _ _ (bodyAt0 t) fun _ => iprop((dat0 V c).Φ t.castSucc ∗ (dat0 V c).owesAt () t.castSucc
      ∗ owns (c : Thread nD τ) (st0_0 t) fullShare (iblk0 V c 0 t) ∗ owns (c : Thread nD τ) (st0_1 t) fullShare (iblk0 V c 1 t)
      ∗ owns (c : Thread nD τ) (st0_2 t) fullShare (out0_2 (iblk0 V c 0 t) (iblk0 V c 1 t)))
  simp only [before0_0, before0_1]
  unfold bodyAt0
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe HΦ Ho H0 H1 H2

theorem hin0 (c : Dev nD) : (Pipeline.ΦA spec0 c : sProp 𝕄) ⊢ (dat0 V c).Φ 0 := .rfl
theorem hout0 (c : Dev nD) : (dat0 V c).Φ (Fin.last cfg0.N) ⊢ (Pipeline.ΦA spec0 c : sProp 𝕄) := .rfl

end Cert.Kernel.Hand

end
-- ==== Proof.BitsGather1.lean ====
import proofs.«128423_j81389630259984_1_alg».proof.Proof.Gen.Kernel.Launch
import proofs.«128423_j81389630259984_1_alg».proof.Proof.Gen.Kernel.Skeleton
import proofs.«128423_j81389630259984_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem g1_offs : (![0, 0] : Fin 2 → Nat) = fun _ => 0 := funext fun a => by fin_cases a <;> rfl

-- The last of a list of whole-shape stores decides what the buffer reads: it covers every index.
theorem g1_read_last_store {S : Shape} {e : EltTy} {κ : Kind} {sp : Space} (v : View sig κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

-- The test "word n equals k", as the body's two conditionals spell it.
abbrev g1_isAt (k : BitVec 32) (n : ℕ) : Prop :=
  Scalar.cmpi .ne (Scalar.extui (Scalar.cmpi .eq (BitVec.ofNat 32 n) k)) 0#32 = 1#1

abbrev g1_cond0 (i : grid1.Coords) : Prop := g1_isAt 0#32 (i 1).val

-- The scratch after the body: the product added to what it held, or to zeros at the first node block.
def g1_upd (i : grid1.Coords) (x0 : Vec F S4096x1 .i32) (x2 : Vec F S4000x64 .bf16) (xs : Vec F S4096x64 .f32) : Vec F S4096x64 .f32 :=
  k1_pay2 i x0 x2 (if g1_cond0 i then k1_pay1 else xs)

set_option maxHeartbeats 1000000 in
-- The inputs are only read, the scratch ends at its update, the output is stored exactly when the second test holds.
theorem g1_run (c : Dev nD) (i : grid1.Coords)
    {arg2 : Memref sig .tc .vmem S4096x1 .i32} (harg2 : arg2.IsWhole) {arg3 : Memref sig .tc .vmem S4096x1 .f32} (harg3 : arg3.IsWhole)
    {arg4 : Memref sig .tc .vmem S4000x64 .bf16} (harg4 : arg4.IsWhole) {arg5 : Memref sig .tc .vmem S4096x64 .bf16} (harg5 : arg5.IsWhole)
    {arg6 : Memref sig .tc .vmem S4096x64 .f32} (harg6 : arg6.IsWhole)
    (x0 : Vec F S4096x1 .i32) (x1 : Vec F S4096x1 .f32) (x2 : Vec F S4000x64 .bf16) (x3 : Vec F S4096x64 .bf16) (xs : Vec F S4096x64 .f32)
    (E : Set ℕ) (K : PUnit → sProp 𝕄) :
    iprop(owns c.tc arg2 fullShare x0 ∗ owns c.tc arg3 fullShare x1 ∗ owns c.tc arg4 fullShare x2 ∗ owns c.tc arg5 fullShare x3
        ∗ owns c.tc arg6 fullShare xs
        ∗ (iprop(owns c.tc arg2 fullShare x0 ∗ owns c.tc arg3 fullShare x1 ∗ owns c.tc arg4 fullShare x2
            ∗ owns c.tc arg5 fullShare (if k1_cond2 i = 1#1 then k1_pay3 (g1_upd i x0 x2 xs) x1 else x3)
            ∗ owns c.tc arg6 fullShare (g1_upd i x0 x2 xs)) -∗ K ⟨⟩))
      ⊢ wp frame (wpE (defs₀ (F := F)) Variants.none c none) E (cc1__gather_kernel i arg2 harg2 arg3 harg3 arg4 harg4 arg5 harg5 arg6 harg6) K := by
  simp only [cc1__gather_kernel_eq_skeleton]; unfold cc1__gather_kernel_skel owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  by_cases hc0 : g1_cond0 i <;> by_cases hc2 : k1_cond2 i = 1#1 <;> (
    sl_exec (disch := first | exact hc0 | exact hc2)
    sl_step
    iapply Hk
    isplitl [H0]; swap; isplitl [H1]; swap; isplitl [H2]; swap; isplitl [H3]
    all_goals (
      iexists _; isplitr; swap; iassumption
      ipureintro; sl_unfold_words
      repeat first
        | rw [g1_read_last_store _ _ g1_offs] | rw [View.readCov_cons_toLoadRect] | rw [View.readAt_eq_ld] | rw [View.ld_unit_zero g1_offs]
        | unfold g1_upd | rw [if_pos hc0] | rw [if_neg hc0] | rw [if_pos hc2] | rw [if_neg hc2]
        | rw [Memref.IsWhole.read_unread]))

theorem g1_tests : ∀ e : Fin 25, (g1_isAt 0#32 e.val ↔ e.val = 0) ∧ (g1_isAt 24#32 e.val ↔ e.val = 24) := by
  decide +kernel

-- At point t the two tests read the node-block coordinate t % 25: the first block, the last.
theorem g1_hcond (t : Fin cfg1.N) :
    (g1_cond0 (grid1.coords t) ↔ t.val % 25 = 0) ∧ (k1_cond2 (grid1.coords t) = 1#1 ↔ t.val % 25 = 24) := by
  have h := g1_tests ⟨t.val % 25, Nat.mod_lt _ (by decide)⟩
  show (g1_isAt 0#32 (t.val / grid1.stride 1 % 25) ↔ _) ∧ (g1_isAt 24#32 (t.val / grid1.stride 1 % 25) ↔ _)
  rw [show grid1.stride 1 = 1 from by decide, Nat.div_one]; exact h

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def acc1 (c : Dev nD) : (n : ℕ) → n < cfg1.N → Vec F S4096x64 .f32
  | 0, hn => k1_pay2 (grid1.coords ⟨0, hn⟩) (iblk1 V c 0 ⟨0, hn⟩) (iblk1 V c 2 ⟨0, hn⟩) (k1_pay1 (F := F))
  | n + 1, hn => k1_pay2 (grid1.coords ⟨n + 1, hn⟩) (iblk1 V c 0 ⟨n + 1, hn⟩) (iblk1 V c 2 ⟨n + 1, hn⟩)
      (if (n + 1) % 25 = 0 then k1_pay1 (F := F) else acc1 c n (Nat.lt_of_succ_lt hn))

theorem acc1_reset (c : Dev nD) (t : Fin cfg1.N) (h : t.val % 25 = 0) :
    acc1 V c t.val t.isLt = k1_pay2 (grid1.coords t) (iblk1 V c 0 t) (iblk1 V c 2 t) (k1_pay1 (F := F)) := by
  obtain ⟨n, hn⟩ := t
  cases n with
  | zero => rfl
  | succ n => exact congrArg (k1_pay2 _ _ _) (if_pos h)

theorem acc1_step (c : Dev nD) (t : Fin cfg1.N) (h : ¬t.val % 25 = 0) :
    acc1 V c t.val t.isLt = k1_pay2 (grid1.coords t) (iblk1 V c 0 t) (iblk1 V c 2 t)
      (acc1 V c (t.val - 1) (Nat.lt_of_le_of_lt (Nat.sub_le _ _) t.isLt)) := by
  obtain ⟨n, hn⟩ := t
  cases n with
  | zero => exact absurd (Nat.zero_mod _) h
  | succ n => exact congrArg (k1_pay2 _ _ _) (if_neg h)

-- The body's update at point t of a scratch that, off the first node block, holds what the point before left.
theorem g1_upd_eq (c : Dev nD) (t : Fin cfg1.N) (d : Vec F S4096x64 .f32)
    (hd : ∀ h : ¬t.val % 25 = 0, d = acc1 V c (t.val - 1) (by omega)) :
    g1_upd (grid1.coords t) (iblk1 V c 0 t) (iblk1 V c 2 t) d = acc1 V c t.val t.isLt := by
  unfold g1_upd
  by_cases h : t.val % 25 = 0
  · rw [if_pos ((g1_hcond t).1.mpr h), acc1_reset V c t h]
  · rw [if_neg fun hc => h ((g1_hcond t).1.mp hc), hd h, acc1_step V c t h]

abbrev g1_scM : Memref sig .tc .vmem S4096x64 .f32 := Memref.whole cc1_scratch0

-- What the region holds between points, with P for the scratch.
abbrev g1_held (c : Dev nD) (P : sProp 𝕄) : sProp 𝕄 :=
  iprop(iprop(P ∗ Pipeline.scopedRestBut (Ix := Unit) (Name := ℕ) (U := UR sig nD τ) (Lvl := ℕ) (Val := Elt F) spec1 c [cc1_scratch0])
    ∗ (∃ r, prngReg c r))

-- Before point n the scratch holds something; off the first node block, what point n - 1 left.
def Phi1 (c : Dev nD) (n : ℕ) (h : n ≤ cfg1.N) : sProp 𝕄 :=
  iprop(∃ d, ⌜∀ hn : ¬n % 25 = 0, d = acc1 V c (n - 1) (by omega)⌝ ∗ g1_held c (owns c.tc g1_scM fullShare d))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 1 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) :
    (dat1 V c).after 3 t = k1_pay3 (acc1 V c t.val t.isLt) (iblk1 V c 1 t) := by
  dsimp only [dat1]

-- On entry the region holds the same, the scratch at contents nothing names.
theorem g1_PhiA (c : Dev nD) :
    (Pipeline.ΦA spec1 c : sProp 𝕄) = g1_held c iprop(∃ d, owns c.tc g1_scM fullShare d) := by
  unfold Pipeline.ΦA; rw [scopedRest1_split]; simp only [owns_whole]; rfl

theorem g1_before (c : Dev nD) (t : Fin cfg1.N) :
    (∀ d, (dat1 V c).before 0 t d = iblk1 V c 0 t) ∧ (∀ d, (dat1 V c).before 1 t d = iblk1 V c 1 t)
      ∧ ∀ d, (dat1 V c).before 2 t d = iblk1 V c 2 t := by
  refine ⟨?_, ?_, ?_⟩ <;> intro d <;>
  exact ((dat1 V c).before_in_eq_fetched _ rfl (fun _ => rfl) (fun _ _ _ => rfl) (fun _ => rfl) t d).trans rfl

theorem g1_leaves_live (c : Dev nD) (t : Fin cfg1.N) (w : Fin cfg1.W) (h : cfg1.idle w (grid1.coords t) = false) :
    (dat1 V c).leavesExact w t = owns c.tc ((cfg1.win w).stage (cfg1.slots t w)) fullShare ((dat1 V c).after w t) := by
  unfold Dat.leavesExact; rw [h]

-- The output's buffer after the body: stored with the scaled sum at the last node block, else handed back as found.
theorem g1_leaves3 (c : Dev nD) (t : Fin cfg1.N) (d) :
    owns c.tc (st1_3 t) fullShare
        (if k1_cond2 (grid1.coords t) = 1#1 then k1_pay3 (acc1 V c t.val t.isLt) (iblk1 V c 1 t) else (dat1 V c).before 3 t d)
      ⊢ (dat1 V c).leavesExact 3 t := by
  by_cases h : k1_cond2 (grid1.coords t) = 1#1
  · rw [if_pos h, ← after1_3, g1_leaves_live V c t 3 (by show (!(_ == _)) = false; rw [h]; rfl)]
  · rw [if_neg h, Dat.leavesExact_idle (dat1 V c) 3 t
      (by show (!(_ == _)) = true; rw [beq_eq_false_iff_ne.mpr h]; rfl)
      (Bool.eq_false_iff.mpr fun hf => h ((g1_hcond t).2.mpr ((flush1_3 t).mp hf)))]
    iintro H; iexists d; iexact H

-- The body at any point: the invariant lends the scratch and takes it back at this point's accumulator.
theorem body_obligation1 (c : Dev nD) : BodyObligation (dat1 (F := F) V c) (defs₀ (F := F)) Variants.none () Set.univ := fun t => by
  rw [bigSep_W1, bigSep_W1]
  show iprop(Phi1 V c t.val (Nat.le_of_lt t.isLt) ∗ _ ∗ (∃ d, _) ∗ (∃ d, _) ∗ (∃ d, _) ∗ (∃ d, _))
    ⊢ wp _ _ _ (bodyAt1 t) fun _ => iprop(Phi1 V c (t.val + 1) t.isLt ∗ _ ∗ (dat1 V c).leavesExact 0 t
      ∗ (dat1 V c).leavesExact 1 t ∗ (dat1 V c).leavesExact 2 t ∗ (dat1 V c).leavesExact 3 t)
  simp only [(g1_before V c t).1, (g1_before V c t).2.1, (g1_before V c t).2.2]
  rw [g1_leaves_live V c t 0 rfl, g1_leaves_live V c t 1 rfl, g1_leaves_live V c t 2 rfl]
  unfold Phi1 g1_held
  iintro ⟨⟨%d, %hd, ⟨HS, HR⟩, Hg⟩, Ho, ⟨%d0, H0⟩, ⟨%d1, H1⟩, ⟨%d2, H2⟩, ⟨%d3, H3⟩⟩
  iapply (g1_run c (grid1.coords t) _ _ _ _ (Memref.isWhole_whole _)
    (iblk1 V c 0 t) (iblk1 V c 1 t) (iblk1 V c 2 t) ((dat1 V c).before 3 t d3) d Set.univ _)
  rw [g1_upd_eq V c t d hd]
  iframe H0 H1 H2 H3 HS
  iintro ⟨H0, H1, H2, H3, HS⟩
  isplitl [HS HR Hg]
  · iexists (acc1 V c t.val t.isLt); isplitr; · ipureintro; exact fun _ => rfl
    iframe HS HR Hg
  isplitl [Ho]; · iexact Ho
  isplitl [H0]; · iexact H0
  isplitl [H1]; · iexact H1
  isplitl [H2]; · iexact H2
  iapply (g1_leaves3 V c t d3); iexact H3

-- The entry state is the invariant before the first point, where it says nothing of the scratch's contents,
theorem hin1 (c : Dev nD) : (Pipeline.ΦA spec1 c : sProp 𝕄) ⊢ (dat1 V c).Φ 0 := by
  rw [g1_PhiA, show (dat1 V c).Φ 0 = Phi1 V c 0 (Nat.zero_le _) from rfl]; unfold Phi1 g1_held
  iintro ⟨⟨⟨%d, HS⟩, HR⟩, Hg⟩
  iexists d; isplitr; · ipureintro; exact fun hn => absurd (Nat.zero_mod _) hn
  iframe HS HR Hg

-- and the invariant after the last point gives the entry state back by forgetting them.
theorem hout1 (c : Dev nD) : (dat1 V c).Φ (Fin.last cfg1.N) ⊢ (Pipeline.ΦA spec1 c : sProp 𝕄) := by
  rw [g1_PhiA, show (dat1 V c).Φ (Fin.last cfg1.N) = Phi1 V c (Fin.last cfg1.N).val (Nat.le_of_lt_succ (Fin.last cfg1.N).isLt) from rfl]
  unfold Phi1 g1_held
  iintro ⟨%d, -, ⟨HS, HR⟩, Hg⟩
  iframe HR Hg
  iexists d; iexact HS

end Cert.Kernel.Hand

end
-- ==== Proof.BitsScatter2.lean ====
import proofs.«128423_j81389630259984_1_alg».proof.Proof.Gen.Kernel.Launch
import proofs.«128423_j81389630259984_1_alg».proof.Proof.Gen.Kernel.Skeleton
import proofs.«128423_j81389630259984_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem zeroOff2 : (![0, 0] : Fin 2 → Nat) = fun _ => 0 := funext fun a => by fin_cases a <;> rfl

-- After writes of which the last covers the whole shape, the buffer reads that last payload.
theorem read_writes_whole2 {S : Shape} {e : EltTy} {κ : Kind} {sp : Space} (v : View sig κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

-- The test "word n equals k", as the body's two conditionals spell it.
abbrev isAt2 (k : BitVec 32) (n : ℕ) : Prop :=
  Scalar.cmpi .ne (Scalar.extui (Scalar.cmpi .eq (BitVec.ofNat 32 n) k)) 0#32 = 1#1

abbrev cond2_0 (i : grid2.Coords) : Prop := isAt2 0#32 (i 1).val

-- The accumulator after the body: the update of what it held, or of zeros at the first edge block.
def upd2 (i : grid2.Coords) (x1 : Vec F S1x4096 .i32) (x0 : Vec F S4096x64 .bf16) (xs : Vec F S4000x64 .f32) : Vec F S4000x64 .f32 :=
  k2_pay2 i x1 x0 (if cond2_0 i then k2_pay1 else xs)

-- The inputs are only read, the accumulator ends at its update, the output is stored exactly when the second test holds.
theorem run2 (c : Dev nD) (i : grid2.Coords)
    {arg2 : Memref sig .tc .vmem S4096x64 .bf16} (harg2 : arg2.IsWhole) {arg3 : Memref sig .tc .vmem S1x4096 .i32} (harg3 : arg3.IsWhole)
    {arg4 : Memref sig .tc .vmem S4000x64 .bf16} (harg4 : arg4.IsWhole) {arg5 : Memref sig .tc .vmem S4000x64 .f32} (harg5 : arg5.IsWhole)
    (x0 : Vec F S4096x64 .bf16) (x1 : Vec F S1x4096 .i32) (xi : Vec F S4000x64 .bf16) (xs : Vec F S4000x64 .f32)
    (E : Set ℕ) (K : PUnit → sProp 𝕄) :
    iprop(owns c.tc arg2 fullShare x0 ∗ owns c.tc arg3 fullShare x1 ∗ owns c.tc arg4 fullShare xi
        ∗ owns c.tc arg5 fullShare xs
        ∗ (iprop(owns c.tc arg2 fullShare x0 ∗ owns c.tc arg3 fullShare x1
            ∗ owns c.tc arg4 fullShare (if k2_cond2 i = 1#1 then k2_pay3 (upd2 i x1 x0 xs) else xi)
            ∗ owns c.tc arg5 fullShare (upd2 i x1 x0 xs)) -∗ K ⟨⟩))
      ⊢ wp frame (wpE (defs₀ (F := F)) Variants.none c none) E (cc2__scatter_kernel i arg2 harg2 arg3 harg3 arg4 harg4 arg5 harg5) K := by
  simp only [cc2__scatter_kernel_eq_skeleton]; unfold cc2__scatter_kernel_skel owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  by_cases hc0 : cond2_0 i <;> by_cases hc2 : k2_cond2 i = 1#1 <;> (
    sl_exec (disch := first | exact hc0 | exact hc2)
    sl_step
    iapply Hk
    isplitl [H0]; swap; isplitl [H1]; swap; isplitl [H2]
    all_goals (
      iexists _; isplitr; swap; iassumption
      ipureintro; sl_unfold_words
      repeat first
        | rw [read_writes_whole2 _ _ zeroOff2] | rw [View.readCov_cons_toLoadRect] | rw [View.readAt_eq_ld] | rw [View.ld_unit_zero zeroOff2]
        | unfold upd2 | rw [if_pos hc0] | rw [if_neg hc0] | rw [if_pos hc2] | rw [if_neg hc2]
        | rw [Memref.IsWhole.read_unread]))

theorem tests2 : ∀ e : Fin 416, (isAt2 0#32 e.val ↔ e.val = 0) ∧ (isAt2 415#32 e.val ↔ e.val = 415) := by
  decide +kernel

-- At point t the two tests read the edge-block coordinate t % 416: the first block, the last.
theorem hcond2 (t : Fin cfg2.N) :
    (cond2_0 (grid2.coords t) ↔ t.val % 416 = 0) ∧ (k2_cond2 (grid2.coords t) = 1#1 ↔ t.val % 416 = 415) := by
  have h := tests2 ⟨t.val % 416, Nat.mod_lt _ (by decide)⟩
  show (isAt2 0#32 (t.val / grid2.stride 1 % 416) ↔ _) ∧ (isAt2 415#32 (t.val / grid2.stride 1 % 416) ↔ _)
  rw [show grid2.stride 1 = 1 from by decide, Nat.div_one]; exact h

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 (c : Dev nD) : (n : ℕ) → n < cfg2.N → Vec F S4000x64 .f32
  | 0, hn => k2_pay2 (grid2.coords ⟨0, hn⟩) (iblk2 V c 1 ⟨0, hn⟩) (iblk2 V c 0 ⟨0, hn⟩) (k2_pay1 (F := F))
  | n + 1, hn => k2_pay2 (grid2.coords ⟨n + 1, hn⟩) (iblk2 V c 1 ⟨n + 1, hn⟩) (iblk2 V c 0 ⟨n + 1, hn⟩)
      (if (n + 1) % 416 = 0 then k2_pay1 (F := F) else acc2 c n (Nat.lt_of_succ_lt hn))

theorem acc2_reset (c : Dev nD) (t : Fin cfg2.N) (h : t.val % 416 = 0) :
    acc2 V c t.val t.isLt = k2_pay2 (grid2.coords t) (iblk2 V c 1 t) (iblk2 V c 0 t) (k2_pay1 (F := F)) := by
  obtain ⟨_ | n, hn⟩ := t
  · rfl
  · exact congrArg (k2_pay2 _ _ _) (if_pos h)

theorem acc2_step (c : Dev nD) (t : Fin cfg2.N) (h : ¬t.val % 416 = 0) :
    acc2 V c t.val t.isLt = k2_pay2 (grid2.coords t) (iblk2 V c 1 t) (iblk2 V c 0 t)
      (acc2 V c (t.val - 1) (Nat.lt_of_le_of_lt (Nat.sub_le _ _) t.isLt)) := by
  obtain ⟨_ | n, hn⟩ := t
  · exact absurd (Nat.zero_mod _) h
  · exact congrArg (k2_pay2 _ _ _) (if_neg h)

-- The body's update at point t of an accumulator that, off the first edge block, holds what the point before left.
theorem upd2_eq (c : Dev nD) (t : Fin cfg2.N) (d : Vec F S4000x64 .f32)
    (hd : ∀ h : ¬t.val % 416 = 0, d = acc2 V c (t.val - 1) (by omega)) :
    upd2 (grid2.coords t) (iblk2 V c 1 t) (iblk2 V c 0 t) d = acc2 V c t.val t.isLt := by
  unfold upd2
  by_cases h : t.val % 416 = 0
  · rw [if_pos ((hcond2 t).1.mpr h), acc2_reset V c t h]
  · rw [if_neg fun hc => h ((hcond2 t).1.mp hc), hd h, acc2_step V c t h]

abbrev scM2 : Memref sig .tc .vmem S4000x64 .f32 := Memref.whole cc2_scratch0

-- What the region holds between points, with P for the accumulator's buffer.
abbrev held2 (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0])
    ∗ (∃ r, prngReg c r))

-- Before point n the accumulator holds something; off the first edge block, what point n - 1 left.
def Phi2 (c : Dev nD) (n : ℕ) (h : n ≤ cfg2.N) : sProp 𝕄 :=
  iprop(∃ d, ⌜∀ hn : ¬n % 416 = 0, d = acc2 V c (n - 1) (by omega)⌝ ∗ held2 c (owns c.tc scM2 fullShare d))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (acc2 V c t.val t.isLt)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_2 (c : Dev nD) (t : Fin cfg2.N) : (dat2 V c).after 2 t = k2_pay3 (acc2 V c t.val t.isLt) := by
  dsimp only [dat2]

-- On entry the region holds the same, the accumulator's buffer at contents nothing names.
theorem PhiA2_eq (c : Dev nD) :
    (Pipeline.ΦA spec2 c : sProp 𝕄) = held2 c iprop(∃ d, owns c.tc scM2 fullShare d) := by
  unfold Pipeline.ΦA; rw [scopedRest2_split]; simp only [owns_whole]; rfl

theorem before2 (c : Dev nD) (t : Fin cfg2.N) :
    (∀ d, (dat2 V c).before 0 t d = iblk2 V c 0 t) ∧ ∀ d, (dat2 V c).before 1 t d = iblk2 V c 1 t := by
  constructor <;> intro d <;>
  exact ((dat2 V c).before_in_eq_fetched _ rfl (fun _ => rfl) (fun _ _ _ => rfl)
    (fun t => by dsimp only [dat2]; unfold Dat.blockOf iblk2; try rfl) t d).trans
    (by unfold Dat.fetched Dat.blockOf iblk2; rw [A_eq2]; try rfl)

theorem leaves2_live (c : Dev nD) (t : Fin cfg2.N) (w : Fin cfg2.W) (h : cfg2.idle w (grid2.coords t) = false) :
    (dat2 V c).leavesExact w t = owns c.tc ((cfg2.win w).stage (cfg2.slots t w)) fullShare ((dat2 V c).after w t) := by
  unfold Dat.leavesExact; rw [h]

-- The output's buffer after the body: stored with the epilogue at the last edge block, else handed back as found.
theorem leaves2_2 (c : Dev nD) (t : Fin cfg2.N) (d) :
    owns c.tc (st2_2 t) fullShare
        (if k2_cond2 (grid2.coords t) = 1#1 then k2_pay3 (acc2 V c t.val t.isLt) else (dat2 V c).before 2 t d)
      ⊢ (dat2 V c).leavesExact 2 t := by
  by_cases h : k2_cond2 (grid2.coords t) = 1#1
  · rw [if_pos h, ← after2_2, leaves2_live V c t 2 (by show (!(_ == _)) = false; rw [h]; rfl)]
  · rw [if_neg h, Dat.leavesExact_idle (dat2 V c) 2 t
      (by show (!(_ == _)) = true; rw [beq_eq_false_iff_ne.mpr h]; rfl)
      (Bool.eq_false_iff.mpr fun hf => h ((hcond2 t).2.mpr ((flush2_2 t).mp hf)))]
    iintro H; iexists d; iexact H

-- The body at any point: the invariant lends the accumulator and takes it back at this point's contents.
theorem body_obligation2 (c : Dev nD) : BodyObligation (dat2 (F := F) V c) (defs₀ (F := F)) Variants.none () Set.univ := fun t => by
  rw [bigSep_W2, bigSep_W2]
  show iprop(Phi2 V c t.val (Nat.le_of_lt t.isLt) ∗ _ ∗ (∃ d, _) ∗ (∃ d, _) ∗ (∃ d, _))
    ⊢ wp _ _ _ (bodyAt2 t) fun _ => iprop(Phi2 V c (t.val + 1) t.isLt ∗ _
      ∗ (dat2 V c).leavesExact 0 t ∗ (dat2 V c).leavesExact 1 t ∗ (dat2 V c).leavesExact 2 t)
  simp only [(before2 V c t).1, (before2 V c t).2]
  rw [leaves2_live V c t 0 rfl, leaves2_live V c t 1 rfl]
  unfold Phi2 held2
  iintro ⟨⟨%d, %hd, ⟨HS, HR⟩, Hg⟩, Ho, ⟨%d0, H0⟩, ⟨%d1, H1⟩, ⟨%d2, H2⟩⟩
  iapply (run2 c (grid2.coords t) (hstage2_0 _) (hstage2_1 _) (hstage2_2 _) (Memref.isWhole_whole _)
    (iblk2 V c 0 t) (iblk2 V c 1 t) ((dat2 V c).before 2 t d2) d Set.univ _)
  rw [upd2_eq V c t d hd]
  iframe H0 H1 H2 HS
  iintro ⟨H0, H1, H2, HS⟩
  isplitl [HS HR Hg]
  · iexists (acc2 V c t.val t.isLt); isplitr; · ipureintro; exact fun _ => rfl
    iframe HS HR Hg
  isplitl [Ho]; · iexact Ho
  isplitl [H0]; · iexact H0
  isplitl [H1]; · iexact H1
  iapply (leaves2_2 V c t d2); iexact H2

-- The entry state is the invariant before the first point, where it says nothing of the accumulator's contents,
theorem hin2 (c : Dev nD) : (Pipeline.ΦA spec2 c : sProp 𝕄) ⊢ (dat2 V c).Φ 0 := by
  rw [PhiA2_eq, show (dat2 V c).Φ 0 = Phi2 V c 0 (Nat.zero_le _) from rfl]; unfold Phi2 held2
  iintro ⟨⟨⟨%d, HS⟩, HR⟩, Hg⟩
  iexists d; isplitr; · ipureintro; exact fun hn => absurd (Nat.zero_mod _) hn
  iframe HS HR Hg

-- and the invariant after the last point gives the entry state back by forgetting them.
theorem hout2 (c : Dev nD) : (dat2 V c).Φ (Fin.last cfg2.N) ⊢ (Pipeline.ΦA spec2 c : sProp 𝕄) := by
  rw [PhiA2_eq, show (dat2 V c).Φ (Fin.last cfg2.N) = Phi2 V c (Fin.last cfg2.N).val (Nat.le_of_lt_succ (Fin.last cfg2.N).isLt) from rfl]
  unfold Phi2 held2
  iintro ⟨%d, -, ⟨HS, HR⟩, Hg⟩
  iframe HR Hg
  iexists d; iexact HS

end Cert.Kernel.Hand

end
-- ==== Proof.BitsDense3.lean ====
import proofs.«128423_j81389630259984_1_alg».proof.Proof.Gen.Kernel.Launch
import proofs.«128423_j81389630259984_1_alg».proof.Proof.Gen.Kernel.Skeleton
import proofs.«128423_j81389630259984_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_2 (x0 : Vec F S5000x64 .bf16) (x1 : Vec F S64x16 .f32) : Vec F S5000x16 .bf16 := k3_pay1 x0 x1

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = out3_2 (iblk3 V c 0 t) (iblk3 V c 1 t) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

theorem dense3_offsets_zero : (![0, 0] : Fin 2 → Nat) = fun _ => 0 := by
  funext a; match a with | ⟨0, _⟩ => rfl | ⟨1, _⟩ => rfl

set_option maxHeartbeats 1000000 in
theorem sound_kernel3 (c : Dev nD) (E : Set ℕ) (i : grid3.Coords)
    (arg1 : Memref sig .tc .vmem S5000x64 .bf16) (harg1 : arg1.IsWhole)
    (arg2 : Memref sig .tc .vmem S64x16 .f32) (harg2 : arg2.IsWhole)
    (arg3 : Memref sig .tc .vmem S5000x16 .bf16) (harg3 : arg3.IsWhole)
    (x0 : Vec F S5000x64 .bf16) (x1 : Vec F S64x16 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero dense3_offsets_zero inb_S5000x16_S5000x16_0_0 y⟩),
    View.canon_unit_zero dense3_offsets_zero]
  unfold out3_2
  congr 1
  · exact View.ld_unit_zero dense3_offsets_zero _ (View.read (Elt F) arg1.view f0)
  · exact View.ld_unit_zero dense3_offsets_zero _ (View.read (Elt F) arg2.view f1)

theorem body_obligation3 (c : Dev nD) : BodyObligation (dat3 (F := F) V c) (defs₀ (F := F)) Variants.none () Set.univ := fun t => by
  rw [bigSep_W3, bigSep_W3]
  show iprop(_ ∗ _ ∗ (∃ d, _) ∗ (∃ d, _) ∗ (∃ d, _)) ⊢ wp _ _ _ (bodyAt3 t) fun _ => iprop((dat3 V c).Φ t.castSucc ∗ (dat3 V c).owesAt () t.castSucc
      ∗ owns (c : Thread nD τ) (st3_0 t) fullShare (iblk3 V c 0 t) ∗ owns (c : Thread nD τ) (st3_1 t) fullShare (iblk3 V c 1 t)
      ∗ owns (c : Thread nD τ) (st3_2 t) fullShare (out3_2 (iblk3 V c 0 t) (iblk3 V c 1 t)))
  simp only [before3_0, before3_1]
  unfold bodyAt3
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  iframe H0 H1
  isplitl [H2]; · iexists _; iexact H2
  iintro ⟨H0, H1, H2⟩
  iframe HΦ Ho H0 H1 H2

theorem hin3 (c : Dev nD) : (Pipeline.ΦA spec3 c : sProp 𝕄) ⊢ (dat3 V c).Φ 0 := .rfl
theorem hout3 (c : Dev nD) : (dat3 V c).Φ (Fin.last cfg3.N) ⊢ (Pipeline.ΦA spec3 c : sProp 𝕄) := .rfl

end Cert.Kernel.Hand

end
-- ==== Proof.BitsGather4.lean ====
import proofs.«128423_j81389630259984_1_alg».proof.Proof.Gen.Kernel.Launch
import proofs.«128423_j81389630259984_1_alg».proof.Proof.Gen.Kernel.Skeleton
import proofs.«128423_j81389630259984_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem g4_offs : (![0, 0] : Fin 2 → Nat) = fun _ => 0 := funext fun a => by fin_cases a <;> rfl

-- The last of a list of whole-shape stores decides what the buffer reads: it covers every index.
theorem g4_read_last_store {S : Shape} {e : EltTy} {κ : Kind} {sp : Space} (v : View sig κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

-- The test "word n equals k", as the body's two conditionals spell it.
abbrev g4_isAt (k : BitVec 32) (n : ℕ) : Prop :=
  Scalar.cmpi .ne (Scalar.extui (Scalar.cmpi .eq (BitVec.ofNat 32 n) k)) 0#32 = 1#1

abbrev g4_cond0 (i : grid4.Coords) : Prop := g4_isAt 0#32 (i 1).val

-- The scratch after the body: the product added to what it held, or to zeros at the first node block.
def g4_upd (i : grid4.Coords) (x0 : Vec F S4096x1 .i32) (x2 : Vec F S4000x16 .bf16) (xs : Vec F S4096x16 .f32) : Vec F S4096x16 .f32 :=
  k4_pay2 i x0 x2 (if g4_cond0 i then k4_pay1 else xs)

set_option maxHeartbeats 1000000 in
-- The inputs are only read, the scratch ends at its update, the output is stored exactly when the second test holds.
theorem g4_run (c : Dev nD) (i : grid4.Coords)
    {arg2 : Memref sig .tc .vmem S4096x1 .i32} (harg2 : arg2.IsWhole) {arg3 : Memref sig .tc .vmem S4096x1 .f32} (harg3 : arg3.IsWhole)
    {arg4 : Memref sig .tc .vmem S4000x16 .bf16} (harg4 : arg4.IsWhole) {arg5 : Memref sig .tc .vmem S4096x16 .bf16} (harg5 : arg5.IsWhole)
    {arg6 : Memref sig .tc .vmem S4096x16 .f32} (harg6 : arg6.IsWhole)
    (x0 : Vec F S4096x1 .i32) (x1 : Vec F S4096x1 .f32) (x2 : Vec F S4000x16 .bf16) (x3 : Vec F S4096x16 .bf16) (xs : Vec F S4096x16 .f32)
    (E : Set ℕ) (K : PUnit → sProp 𝕄) :
    iprop(owns c.tc arg2 fullShare x0 ∗ owns c.tc arg3 fullShare x1 ∗ owns c.tc arg4 fullShare x2 ∗ owns c.tc arg5 fullShare x3
        ∗ owns c.tc arg6 fullShare xs
        ∗ (iprop(owns c.tc arg2 fullShare x0 ∗ owns c.tc arg3 fullShare x1 ∗ owns c.tc arg4 fullShare x2
            ∗ owns c.tc arg5 fullShare (if k4_cond2 i = 1#1 then k4_pay3 (g4_upd i x0 x2 xs) x1 else x3)
            ∗ owns c.tc arg6 fullShare (g4_upd i x0 x2 xs)) -∗ K ⟨⟩))
      ⊢ wp frame (wpE (defs₀ (F := F)) Variants.none c none) E (cc4__gather_kernel i arg2 harg2 arg3 harg3 arg4 harg4 arg5 harg5 arg6 harg6) K := by
  simp only [cc4__gather_kernel_eq_skeleton]; unfold cc4__gather_kernel_skel owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  by_cases hc0 : g4_cond0 i <;> by_cases hc2 : k4_cond2 i = 1#1 <;> (
    sl_exec (disch := first | exact hc0 | exact hc2)
    sl_step
    iapply Hk
    isplitl [H0]; swap; isplitl [H1]; swap; isplitl [H2]; swap; isplitl [H3]
    all_goals (
      iexists _; isplitr; swap; iassumption
      ipureintro; sl_unfold_words
      repeat first
        | rw [g4_read_last_store _ _ g4_offs] | rw [View.readCov_cons_toLoadRect] | rw [View.readAt_eq_ld] | rw [View.ld_unit_zero g4_offs]
        | unfold g4_upd | rw [if_pos hc0] | rw [if_neg hc0] | rw [if_pos hc2] | rw [if_neg hc2]
        | rw [Memref.IsWhole.read_unread]))

theorem g4_tests : ∀ e : Fin 25, (g4_isAt 0#32 e.val ↔ e.val = 0) ∧ (g4_isAt 24#32 e.val ↔ e.val = 24) := by
  decide +kernel

-- At point t the two tests read the node-block coordinate t % 25: the first block, the last.
theorem g4_hcond (t : Fin cfg4.N) :
    (g4_cond0 (grid4.coords t) ↔ t.val % 25 = 0) ∧ (k4_cond2 (grid4.coords t) = 1#1 ↔ t.val % 25 = 24) := by
  have h := g4_tests ⟨t.val % 25, Nat.mod_lt _ (by decide)⟩
  show (g4_isAt 0#32 (t.val / grid4.stride 1 % 25) ↔ _) ∧ (g4_isAt 24#32 (t.val / grid4.stride 1 % 25) ↔ _)
  rw [show grid4.stride 1 = 1 from by decide, Nat.div_one]; exact h

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (c : Dev nD) : (n : ℕ) → n < cfg4.N → Vec F S4096x16 .f32
  | 0, hn => k4_pay2 (grid4.coords ⟨0, hn⟩) (iblk4 V c 0 ⟨0, hn⟩) (iblk4 V c 2 ⟨0, hn⟩) (k4_pay1 (F := F))
  | n + 1, hn => k4_pay2 (grid4.coords ⟨n + 1, hn⟩) (iblk4 V c 0 ⟨n + 1, hn⟩) (iblk4 V c 2 ⟨n + 1, hn⟩)
      (if (n + 1) % 25 = 0 then k4_pay1 (F := F) else acc4 c n (Nat.lt_of_succ_lt hn))

theorem acc4_reset (c : Dev nD) (t : Fin cfg4.N) (h : t.val % 25 = 0) :
    acc4 V c t.val t.isLt = k4_pay2 (grid4.coords t) (iblk4 V c 0 t) (iblk4 V c 2 t) (k4_pay1 (F := F)) := by
  obtain ⟨n, hn⟩ := t
  cases n with
  | zero => rfl
  | succ n => exact congrArg (k4_pay2 _ _ _) (if_pos h)

theorem acc4_step (c : Dev nD) (t : Fin cfg4.N) (h : ¬t.val % 25 = 0) :
    acc4 V c t.val t.isLt = k4_pay2 (grid4.coords t) (iblk4 V c 0 t) (iblk4 V c 2 t)
      (acc4 V c (t.val - 1) (Nat.lt_of_le_of_lt (Nat.sub_le _ _) t.isLt)) := by
  obtain ⟨n, hn⟩ := t
  cases n with
  | zero => exact absurd (Nat.zero_mod _) h
  | succ n => exact congrArg (k4_pay2 _ _ _) (if_neg h)

-- The body's update at point t of a scratch that, off the first node block, holds what the point before left.
theorem g4_upd_eq (c : Dev nD) (t : Fin cfg4.N) (d : Vec F S4096x16 .f32)
    (hd : ∀ h : ¬t.val % 25 = 0, d = acc4 V c (t.val - 1) (by omega)) :
    g4_upd (grid4.coords t) (iblk4 V c 0 t) (iblk4 V c 2 t) d = acc4 V c t.val t.isLt := by
  unfold g4_upd
  by_cases h : t.val % 25 = 0
  · rw [if_pos ((g4_hcond t).1.mpr h), acc4_reset V c t h]
  · rw [if_neg fun hc => h ((g4_hcond t).1.mp hc), hd h, acc4_step V c t h]

abbrev g4_scM : Memref sig .tc .vmem S4096x16 .f32 := Memref.whole cc4_scratch0

-- What the region holds between points, with P for the scratch.
abbrev g4_held (c : Dev nD) (P : sProp 𝕄) : sProp 𝕄 :=
  iprop(iprop(P ∗ Pipeline.scopedRestBut (Ix := Unit) (Name := ℕ) (U := UR sig nD τ) (Lvl := ℕ) (Val := Elt F) spec4 c [cc4_scratch0])
    ∗ (∃ r, prngReg c r))

-- Before point n the scratch holds something; off the first node block, what point n - 1 left.
def Phi4 (c : Dev nD) (n : ℕ) (h : n ≤ cfg4.N) : sProp 𝕄 :=
  iprop(∃ d, ⌜∀ hn : ¬n % 25 = 0, d = acc4 V c (n - 1) (by omega)⌝ ∗ g4_held c (owns c.tc g4_scM fullShare d))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (acc4 V c t.val t.isLt) (iblk4 V c 1 t)
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) :
    (dat4 V c).after 3 t = k4_pay3 (acc4 V c t.val t.isLt) (iblk4 V c 1 t) := by
  dsimp only [dat4]

-- On entry the region holds the same, the scratch at contents nothing names.
theorem g4_PhiA (c : Dev nD) :
    (Pipeline.ΦA spec4 c : sProp 𝕄) = g4_held c iprop(∃ d, owns c.tc g4_scM fullShare d) := by
  unfold Pipeline.ΦA; rw [scopedRest4_split]; simp only [owns_whole]; rfl

theorem g4_before (c : Dev nD) (t : Fin cfg4.N) :
    (∀ d, (dat4 V c).before 0 t d = iblk4 V c 0 t) ∧ (∀ d, (dat4 V c).before 1 t d = iblk4 V c 1 t)
      ∧ ∀ d, (dat4 V c).before 2 t d = iblk4 V c 2 t := by
  refine ⟨?_, ?_, ?_⟩ <;> intro d <;>
  exact ((dat4 V c).before_in_eq_fetched _ rfl (fun _ => rfl) (fun _ _ _ => rfl) (fun _ => rfl) t d).trans rfl

theorem g4_leaves_live (c : Dev nD) (t : Fin cfg4.N) (w : Fin cfg4.W) (h : cfg4.idle w (grid4.coords t) = false) :
    (dat4 V c).leavesExact w t = owns c.tc ((cfg4.win w).stage (cfg4.slots t w)) fullShare ((dat4 V c).after w t) := by
  unfold Dat.leavesExact; rw [h]

-- The output's buffer after the body: stored with the scaled sum at the last node block, else handed back as found.
theorem g4_leaves3 (c : Dev nD) (t : Fin cfg4.N) (d) :
    owns c.tc (st4_3 t) fullShare
        (if k4_cond2 (grid4.coords t) = 1#1 then k4_pay3 (acc4 V c t.val t.isLt) (iblk4 V c 1 t) else (dat4 V c).before 3 t d)
      ⊢ (dat4 V c).leavesExact 3 t := by
  by_cases h : k4_cond2 (grid4.coords t) = 1#1
  · rw [if_pos h, ← after4_3, g4_leaves_live V c t 3 (by show (!(_ == _)) = false; rw [h]; rfl)]
  · rw [if_neg h, Dat.leavesExact_idle (dat4 V c) 3 t
      (by show (!(_ == _)) = true; rw [beq_eq_false_iff_ne.mpr h]; rfl)
      (Bool.eq_false_iff.mpr fun hf => h ((g4_hcond t).2.mpr ((flush4_3 t).mp hf)))]
    iintro H; iexists d; iexact H

-- The body at any point: the invariant lends the scratch and takes it back at this point's accumulator.
theorem body_obligation4 (c : Dev nD) : BodyObligation (dat4 (F := F) V c) (defs₀ (F := F)) Variants.none () Set.univ := fun t => by
  rw [bigSep_W4, bigSep_W4]
  show iprop(Phi4 V c t.val (Nat.le_of_lt t.isLt) ∗ _ ∗ (∃ d, _) ∗ (∃ d, _) ∗ (∃ d, _) ∗ (∃ d, _))
    ⊢ wp _ _ _ (bodyAt4 t) fun _ => iprop(Phi4 V c (t.val + 1) t.isLt ∗ _ ∗ (dat4 V c).leavesExact 0 t
      ∗ (dat4 V c).leavesExact 1 t ∗ (dat4 V c).leavesExact 2 t ∗ (dat4 V c).leavesExact 3 t)
  simp only [(g4_before V c t).1, (g4_before V c t).2.1, (g4_before V c t).2.2]
  rw [g4_leaves_live V c t 0 rfl, g4_leaves_live V c t 1 rfl, g4_leaves_live V c t 2 rfl]
  unfold Phi4 g4_held
  iintro ⟨⟨%d, %hd, ⟨HS, HR⟩, Hg⟩, Ho, ⟨%d0, H0⟩, ⟨%d1, H1⟩, ⟨%d2, H2⟩, ⟨%d3, H3⟩⟩
  iapply (g4_run c (grid4.coords t) _ _ _ _ (Memref.isWhole_whole _)
    (iblk4 V c 0 t) (iblk4 V c 1 t) (iblk4 V c 2 t) ((dat4 V c).before 3 t d3) d Set.univ _)
  rw [g4_upd_eq V c t d hd]
  iframe H0 H1 H2 H3 HS
  iintro ⟨H0, H1, H2, H3, HS⟩
  isplitl [HS HR Hg]
  · iexists (acc4 V c t.val t.isLt); isplitr; · ipureintro; exact fun _ => rfl
    iframe HS HR Hg
  isplitl [Ho]; · iexact Ho
  isplitl [H0]; · iexact H0
  isplitl [H1]; · iexact H1
  isplitl [H2]; · iexact H2
  iapply (g4_leaves3 V c t d3); iexact H3

-- The entry state is the invariant before the first point, where it says nothing of the scratch's contents,
theorem hin4 (c : Dev nD) : (Pipeline.ΦA spec4 c : sProp 𝕄) ⊢ (dat4 V c).Φ 0 := by
  rw [g4_PhiA, show (dat4 V c).Φ 0 = Phi4 V c 0 (Nat.zero_le _) from rfl]; unfold Phi4 g4_held
  iintro ⟨⟨⟨%d, HS⟩, HR⟩, Hg⟩
  iexists d; isplitr; · ipureintro; exact fun hn => absurd (Nat.zero_mod _) hn
  iframe HS HR Hg

-- and the invariant after the last point gives the entry state back by forgetting them.
theorem hout4 (c : Dev nD) : (dat4 V c).Φ (Fin.last cfg4.N) ⊢ (Pipeline.ΦA spec4 c : sProp 𝕄) := by
  rw [g4_PhiA, show (dat4 V c).Φ (Fin.last cfg4.N) = Phi4 V c (Fin.last cfg4.N).val (Nat.le_of_lt_succ (Fin.last cfg4.N).isLt) from rfl]
  unfold Phi4 g4_held
  iintro ⟨%d, -, ⟨HS, HR⟩, Hg⟩
  iframe HR Hg
  iexists d; iexact HS

end Cert.Kernel.Hand

end
-- ==== Proof.BitsScatter5.lean ====
import proofs.«128423_j81389630259984_1_alg».proof.Proof.Gen.Kernel.Launch
import proofs.«128423_j81389630259984_1_alg».proof.Proof.Gen.Kernel.Skeleton
import proofs.«128423_j81389630259984_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem zeroOff5 : (![0, 0] : Fin 2 → Nat) = fun _ => 0 := funext fun a => by fin_cases a <;> rfl

-- After writes of which the last covers the whole shape, the buffer reads that last payload.
theorem read_writes_whole5 {S : Shape} {e : EltTy} {κ : Kind} {sp : Space} (v : View sig κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

-- The test "word n equals k", as the body's two conditionals spell it.
abbrev isAt5 (k : BitVec 32) (n : ℕ) : Prop :=
  Scalar.cmpi .ne (Scalar.extui (Scalar.cmpi .eq (BitVec.ofNat 32 n) k)) 0#32 = 1#1

abbrev cond5_0 (i : grid5.Coords) : Prop := isAt5 0#32 (i 1).val

-- The accumulator after the body: the update of what it held, or of zeros at the first edge block.
def upd5 (i : grid5.Coords) (x1 : Vec F S1x4096 .i32) (x0 : Vec F S4096x16 .bf16) (xs : Vec F S4000x16 .f32) : Vec F S4000x16 .f32 :=
  k5_pay2 i x1 x0 (if cond5_0 i then k5_pay1 else xs)

-- The inputs are only read, the accumulator ends at its update, the output is stored exactly when the second test holds.
theorem run5 (c : Dev nD) (i : grid5.Coords)
    {arg2 : Memref sig .tc .vmem S4096x16 .bf16} (harg2 : arg2.IsWhole) {arg3 : Memref sig .tc .vmem S1x4096 .i32} (harg3 : arg3.IsWhole)
    {arg4 : Memref sig .tc .vmem S4000x16 .f32} (harg4 : arg4.IsWhole) {arg5 : Memref sig .tc .vmem S4000x16 .f32} (harg5 : arg5.IsWhole)
    (x0 : Vec F S4096x16 .bf16) (x1 : Vec F S1x4096 .i32) (xi : Vec F S4000x16 .f32) (xs : Vec F S4000x16 .f32)
    (E : Set ℕ) (K : PUnit → sProp 𝕄) :
    iprop(owns c.tc arg2 fullShare x0 ∗ owns c.tc arg3 fullShare x1 ∗ owns c.tc arg4 fullShare xi
        ∗ owns c.tc arg5 fullShare xs
        ∗ (iprop(owns c.tc arg2 fullShare x0 ∗ owns c.tc arg3 fullShare x1
            ∗ owns c.tc arg4 fullShare (if k5_cond2 i = 1#1 then k5_pay3 (upd5 i x1 x0 xs) else xi)
            ∗ owns c.tc arg5 fullShare (upd5 i x1 x0 xs)) -∗ K ⟨⟩))
      ⊢ wp frame (wpE (defs₀ (F := F)) Variants.none c none) E (cc5__scatter_kernel i arg2 harg2 arg3 harg3 arg4 harg4 arg5 harg5) K := by
  simp only [cc5__scatter_kernel_eq_skeleton]; unfold cc5__scatter_kernel_skel owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  by_cases hc0 : cond5_0 i <;> by_cases hc2 : k5_cond2 i = 1#1 <;> (
    sl_exec (disch := first | exact hc0 | exact hc2)
    sl_step
    iapply Hk
    isplitl [H0]; swap; isplitl [H1]; swap; isplitl [H2]
    all_goals (
      iexists _; isplitr; swap; iassumption
      ipureintro; sl_unfold_words
      repeat first
        | rw [read_writes_whole5 _ _ zeroOff5] | rw [View.readCov_cons_toLoadRect] | rw [View.readAt_eq_ld] | rw [View.ld_unit_zero zeroOff5]
        | unfold upd5 | rw [if_pos hc0] | rw [if_neg hc0] | rw [if_pos hc2] | rw [if_neg hc2]
        | rw [Memref.IsWhole.read_unread]))

theorem tests5 : ∀ e : Fin 416, (isAt5 0#32 e.val ↔ e.val = 0) ∧ (isAt5 415#32 e.val ↔ e.val = 415) := by
  decide +kernel

-- At point t the two tests read the edge-block coordinate t % 416: the first block, the last.
theorem hcond5 (t : Fin cfg5.N) :
    (cond5_0 (grid5.coords t) ↔ t.val % 416 = 0) ∧ (k5_cond2 (grid5.coords t) = 1#1 ↔ t.val % 416 = 415) := by
  have h := tests5 ⟨t.val % 416, Nat.mod_lt _ (by decide)⟩
  show (isAt5 0#32 (t.val / grid5.stride 1 % 416) ↔ _) ∧ (isAt5 415#32 (t.val / grid5.stride 1 % 416) ↔ _)
  rw [show grid5.stride 1 = 1 from by decide, Nat.div_one]; exact h

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def acc5 (c : Dev nD) : (n : ℕ) → n < cfg5.N → Vec F S4000x16 .f32
  | 0, hn => k5_pay2 (grid5.coords ⟨0, hn⟩) (iblk5 V c 1 ⟨0, hn⟩) (iblk5 V c 0 ⟨0, hn⟩) (k5_pay1 (F := F))
  | n + 1, hn => k5_pay2 (grid5.coords ⟨n + 1, hn⟩) (iblk5 V c 1 ⟨n + 1, hn⟩) (iblk5 V c 0 ⟨n + 1, hn⟩)
      (if (n + 1) % 416 = 0 then k5_pay1 (F := F) else acc5 c n (Nat.lt_of_succ_lt hn))

theorem acc5_reset (c : Dev nD) (t : Fin cfg5.N) (h : t.val % 416 = 0) :
    acc5 V c t.val t.isLt = k5_pay2 (grid5.coords t) (iblk5 V c 1 t) (iblk5 V c 0 t) (k5_pay1 (F := F)) := by
  obtain ⟨_ | n, hn⟩ := t
  · rfl
  · exact congrArg (k5_pay2 _ _ _) (if_pos h)

theorem acc5_step (c : Dev nD) (t : Fin cfg5.N) (h : ¬t.val % 416 = 0) :
    acc5 V c t.val t.isLt = k5_pay2 (grid5.coords t) (iblk5 V c 1 t) (iblk5 V c 0 t)
      (acc5 V c (t.val - 1) (Nat.lt_of_le_of_lt (Nat.sub_le _ _) t.isLt)) := by
  obtain ⟨_ | n, hn⟩ := t
  · exact absurd (Nat.zero_mod _) h
  · exact congrArg (k5_pay2 _ _ _) (if_neg h)

-- The body's update at point t of an accumulator that, off the first edge block, holds what the point before left.
theorem upd5_eq (c : Dev nD) (t : Fin cfg5.N) (d : Vec F S4000x16 .f32)
    (hd : ∀ h : ¬t.val % 416 = 0, d = acc5 V c (t.val - 1) (by omega)) :
    upd5 (grid5.coords t) (iblk5 V c 1 t) (iblk5 V c 0 t) d = acc5 V c t.val t.isLt := by
  unfold upd5
  by_cases h : t.val % 416 = 0
  · rw [if_pos ((hcond5 t).1.mpr h), acc5_reset V c t h]
  · rw [if_neg fun hc => h ((hcond5 t).1.mp hc), hd h, acc5_step V c t h]

abbrev scM5 : Memref sig .tc .vmem S4000x16 .f32 := Memref.whole cc5_scratch0

-- What the region holds between points, with P for the accumulator's buffer.
abbrev held5 (c : Dev nD) (P : sProp 𝕄) : sProp 𝕄 :=
  iprop(iprop(P ∗ Pipeline.scopedRestBut (Ix := Unit) (Name := ℕ) (U := UR sig nD τ) (Lvl := ℕ) (Val := Elt F) spec5 c [cc5_scratch0])
    ∗ (∃ r, prngReg c r))

-- Before point n the accumulator holds something; off the first edge block, what point n - 1 left.
def Phi5 (c : Dev nD) (n : ℕ) (h : n ≤ cfg5.N) : sProp 𝕄 :=
  iprop(∃ d, ⌜∀ hn : ¬n % 416 = 0, d = acc5 V c (n - 1) (by omega)⌝ ∗ held5 c (owns c.tc scM5 fullShare d))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => k5_pay3 (acc5 V c t.val t.isLt)
  Φ t := Phi5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_2 (c : Dev nD) (t : Fin cfg5.N) : (dat5 V c).after 2 t = k5_pay3 (acc5 V c t.val t.isLt) := by
  dsimp only [dat5]

-- On entry the region holds the same, the accumulator's buffer at contents nothing names.
theorem PhiA5_eq (c : Dev nD) :
    (Pipeline.ΦA spec5 c : sProp 𝕄) = held5 c iprop(∃ d, owns c.tc scM5 fullShare d) := by
  unfold Pipeline.ΦA; rw [scopedRest5_split]; simp only [owns_whole]; rfl

theorem before5 (c : Dev nD) (t : Fin cfg5.N) :
    (∀ d, (dat5 V c).before 0 t d = iblk5 V c 0 t) ∧ ∀ d, (dat5 V c).before 1 t d = iblk5 V c 1 t := by
  constructor <;> intro d <;>
  exact ((dat5 V c).before_in_eq_fetched _ rfl (fun _ => rfl) (fun _ _ _ => rfl)
    (fun t => by dsimp only [dat5]; unfold Dat.blockOf iblk5; try rfl) t d).trans
    (by unfold Dat.fetched Dat.blockOf iblk5; rw [A_eq5]; try rfl)

theorem leaves5_live (c : Dev nD) (t : Fin cfg5.N) (w : Fin cfg5.W) (h : cfg5.idle w (grid5.coords t) = false) :
    (dat5 V c).leavesExact w t = owns c.tc ((cfg5.win w).stage (cfg5.slots t w)) fullShare ((dat5 V c).after w t) := by
  unfold Dat.leavesExact; rw [h]

-- The output's buffer after the body: stored with the epilogue at the last edge block, else handed back as found.
theorem leaves5_2 (c : Dev nD) (t : Fin cfg5.N) (d) :
    owns c.tc (st5_2 t) fullShare
        (if k5_cond2 (grid5.coords t) = 1#1 then k5_pay3 (acc5 V c t.val t.isLt) else (dat5 V c).before 2 t d)
      ⊢ (dat5 V c).leavesExact 2 t := by
  by_cases h : k5_cond2 (grid5.coords t) = 1#1
  · rw [if_pos h, ← after5_2, leaves5_live V c t 2 (by show (!(_ == _)) = false; rw [h]; rfl)]
  · rw [if_neg h, Dat.leavesExact_idle (dat5 V c) 2 t
      (by show (!(_ == _)) = true; rw [beq_eq_false_iff_ne.mpr h]; rfl)
      (Bool.eq_false_iff.mpr fun hf => h ((hcond5 t).2.mpr ((flush5_2 t).mp hf)))]
    iintro H; iexists d; iexact H

-- The body at any point: the invariant lends the accumulator and takes it back at this point's contents.
theorem body_obligation5 (c : Dev nD) : BodyObligation (dat5 (F := F) V c) (defs₀ (F := F)) Variants.none () Set.univ := fun t => by
  rw [bigSep_W5, bigSep_W5]
  show iprop(Phi5 V c t.val (Nat.le_of_lt t.isLt) ∗ _ ∗ (∃ d, _) ∗ (∃ d, _) ∗ (∃ d, _))
    ⊢ wp _ _ _ (bodyAt5 t) fun _ => iprop(Phi5 V c (t.val + 1) t.isLt ∗ _
      ∗ (dat5 V c).leavesExact 0 t ∗ (dat5 V c).leavesExact 1 t ∗ (dat5 V c).leavesExact 2 t)
  simp only [(before5 V c t).1, (before5 V c t).2]
  rw [leaves5_live V c t 0 rfl, leaves5_live V c t 1 rfl]
  unfold Phi5 held5
  iintro ⟨⟨%d, %hd, ⟨HS, HR⟩, Hg⟩, Ho, ⟨%d0, H0⟩, ⟨%d1, H1⟩, ⟨%d2, H2⟩⟩
  iapply (run5 c (grid5.coords t) (hstage5_0 _) (hstage5_1 _) (hstage5_2 _) (Memref.isWhole_whole _)
    (iblk5 V c 0 t) (iblk5 V c 1 t) ((dat5 V c).before 2 t d2) d Set.univ _)
  rw [upd5_eq V c t d hd]
  iframe H0 H1 H2 HS
  iintro ⟨H0, H1, H2, HS⟩
  isplitl [HS HR Hg]
  · iexists (acc5 V c t.val t.isLt); isplitr; · ipureintro; exact fun _ => rfl
    iframe HS HR Hg
  isplitl [Ho]; · iexact Ho
  isplitl [H0]; · iexact H0
  isplitl [H1]; · iexact H1
  iapply (leaves5_2 V c t d2); iexact H2

-- The entry state is the invariant before the first point, where it says nothing of the accumulator's contents,
theorem hin5 (c : Dev nD) : (Pipeline.ΦA spec5 c : sProp 𝕄) ⊢ (dat5 V c).Φ 0 := by
  rw [PhiA5_eq, show (dat5 V c).Φ 0 = Phi5 V c 0 (Nat.zero_le _) from rfl]; unfold Phi5 held5
  iintro ⟨⟨⟨%d, HS⟩, HR⟩, Hg⟩
  iexists d; isplitr; · ipureintro; exact fun hn => absurd (Nat.zero_mod _) hn
  iframe HS HR Hg

-- and the invariant after the last point gives the entry state back by forgetting them.
theorem hout5 (c : Dev nD) : (dat5 V c).Φ (Fin.last cfg5.N) ⊢ (Pipeline.ΦA spec5 c : sProp 𝕄) := by
  rw [PhiA5_eq, show (dat5 V c).Φ (Fin.last cfg5.N) = Phi5 V c (Fin.last cfg5.N).val (Nat.le_of_lt_succ (Fin.last cfg5.N).isLt) from rfl]
  unfold Phi5 held5
  iintro ⟨%d, -, ⟨HS, HR⟩, Hg⟩
  iframe HR Hg
  iexists d; iexact HS

end Cert.Kernel.Hand

end
-- ==== Proof.BitsRun.lean ====
import proofs.«128423_j81389630259984_1_alg».proof.Proof.BitsDense0
import proofs.«128423_j81389630259984_1_alg».proof.Proof.BitsGather1
import proofs.«128423_j81389630259984_1_alg».proof.Proof.BitsScatter2
import proofs.«128423_j81389630259984_1_alg».proof.Proof.BitsDense3
import proofs.«128423_j81389630259984_1_alg».proof.Proof.BitsGather4
import proofs.«128423_j81389630259984_1_alg».proof.Proof.BitsScatter5
import proofs.«128423_j81389630259984_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rd (W : Dev nD → Valuation τ sig (Elt F)) (c : Dev nD) (b : Ref sig .tc) : Buf (Elt F) ((c : Thread nD τ).loc b) := W c b

abbrev W3 : Dev nD → Valuation τ sig (Elt F) := fun c => Gen.V3 m c
abbrev U3 := rd (W3 m)

def W4 (c : Dev nD) : Valuation τ sig (Elt F) :=
  Pipeline.withArrays spec0 c (W3 m c) fun w => (dat0 (U3 m) c).arrAt w cfg0.N
theorem W4_arr (c : Dev nD) (w : Fin cfg0.W) :
    W4 m c (Proc.devRef .tc (Pipeline.arrRef spec0 w)) = (dat0 (U3 m) c).arrAt w cfg0.N :=
  Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) :=
  Pipeline.withArrays_of_ne spec0 c _ _ b hb
abbrev U4 := rd (W4 m)

def W5 (c : Dev nD) : Valuation τ sig (Elt F) :=
  Pipeline.withArrays spec1 c (W4 m c) fun w => (dat1 (U4 m) c).arrAt w cfg1.N
theorem W5_arr (c : Dev nD) (w : Fin cfg1.W) :
    W5 m c (Proc.devRef .tc (Pipeline.arrRef spec1 w)) = (dat1 (U4 m) c).arrAt w cfg1.N :=
  Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) :=
  Pipeline.withArrays_of_ne spec1 c _ _ b hb
abbrev U5 := rd (W5 m)

def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N :=
  Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) :=
  Pipeline.withArrays_of_ne spec2 c _ _ b hb
abbrev U6 := rd (W6 m)

def W7 (c : Dev nD) : Valuation τ sig (Elt F) :=
  Pipeline.withArrays spec3 c (W6 m c) fun w => (dat3 (U6 m) c).arrAt w cfg3.N
theorem W7_arr (c : Dev nD) (w : Fin cfg3.W) :
    W7 m c (Proc.devRef .tc (Pipeline.arrRef spec3 w)) = (dat3 (U6 m) c).arrAt w cfg3.N :=
  Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) :=
  Pipeline.withArrays_of_ne spec3 c _ _ b hb
abbrev U7 := rd (W7 m)

def W8 (c : Dev nD) : Valuation τ sig (Elt F) :=
  Pipeline.withArrays spec4 c (W7 m c) fun w => (dat4 (U7 m) c).arrAt w cfg4.N
theorem W8_arr (c : Dev nD) (w : Fin cfg4.W) :
    W8 m c (Proc.devRef .tc (Pipeline.arrRef spec4 w)) = (dat4 (U7 m) c).arrAt w cfg4.N :=
  Pipeline.withArrays_arr spec4 launch4.win.arr_inj c _ _ w
theorem W8_of_ne (c : Dev nD) (b : Ref sig .tc) (hb : ∀ w, Pipeline.arrRef spec4 w ≠ b) :
    W8 m c (Proc.devRef .tc b) = W7 m c (Proc.devRef .tc b) :=
  Pipeline.withArrays_of_ne spec4 c _ _ b hb
abbrev U8 := rd (W8 m)

def W9 (c : Dev nD) : Valuation τ sig (Elt F) :=
  Pipeline.withArrays spec5 c (W8 m c) fun w => (dat5 (U8 m) c).arrAt w cfg5.N
theorem W9_arr (c : Dev nD) (w : Fin cfg5.W) :
    W9 m c (Proc.devRef .tc (Pipeline.arrRef spec5 w)) = (dat5 (U8 m) c).arrAt w cfg5.N :=
  Pipeline.withArrays_arr spec5 launch5.win.arr_inj c _ _ w
theorem W9_of_ne (c : Dev nD) (b : Ref sig .tc) (hb : ∀ w, Pipeline.arrRef spec5 w ≠ b) :
    W9 m c (Proc.devRef .tc b) = W8 m c (Proc.devRef .tc b) :=
  Pipeline.withArrays_of_ne spec5 c _ _ b hb

abbrev adm : (p : Fin 6) → (pcfgs (F := F) p).Adm := fun p => (cfgs p).toPCfg_adm
def pdats : (p : Fin 6) → (c : Dev nD) → Dat τ (Elt F) Unit ℕ (UR sig nD τ) ℕ (Pipeline.pin (pcfgs (F := F)) adm p) c
  | ⟨0, _⟩ => fun c => dat0 (U3 m) c
  | ⟨1, _⟩ => fun c => dat1 (U4 m) c
  | ⟨2, _⟩ => fun c => dat2 (U5 m) c
  | ⟨3, _⟩ => fun c => dat3 (U6 m) c
  | ⟨4, _⟩ => fun c => dat4 (U7 m) c
  | ⟨5, _⟩ => fun c => dat5 (U8 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m c) ∗ ∃ r, prngReg c r)

set_option backward.isDefEq.respectTransparency.types false in
/-- One region's record, generic in the region: only the contents before (`Wi`) and after (`Wo`) change from region to region. -/
def reg (p : Fin 6) (lf : Pipeline.LaunchFacts (nD := nD) (τ := τ) cfgs p) (Wi Wo : Dev nD → Valuation τ sig (Elt F))
    (hb : ∀ c, BodyObligation (pdats m p c) (defs₀ (F := F)) 𝒱₀ () Set.univ)
    (hq : ∀ c w, (pdats m p c).q w = fullShare) (howed : ∀ c t, (pdats m p c).owed t = 0)
    (hrec : ∀ c, (pdats m p c).recorded 0 = Set.univ)
    (hA : ∀ c w, (pdats m p c).A w = rd Wi c (Pipeline.arrRef (cfgs p).spec w))
    (harr : ∀ c w, Wo c (Proc.devRef .tc (Pipeline.arrRef (cfgs p).spec w)) = (pdats m p c).arrAt w (cfgs p).N)
    (hne : ∀ c (b : Ref sig .tc), (∀ w, Pipeline.arrRef (cfgs p).spec w ≠ b) → Wo c (Proc.devRef .tc b) = Wi c (Proc.devRef .tc b))
    (hi : ∀ c, (Pipeline.ΦA (cfgs p).spec c : sProp 𝕄) ⊢ (pdats m p c).Φ 0)
    (ho : ∀ c, (pdats m p c).Φ (Fin.last (cfgs p).N) ⊢ (Pipeline.ΦA (cfgs p).spec c : sProp 𝕄)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (rd Wi c)
  hentry c := by
    rw [Pipeline.ownSems0_none]
    have hsplit := Pipeline.arrays_of_unscopedBufs (p := p) (pcfgs (F := F)) adm (pdats m) lf.win lf.arr_whole c
      ((pdats m p c).share_full (hq c)) (rd Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c]; trivial)
      iexact HO
    isplitl [Hp]; · iexact Hp
    iexact Hrest
  hin c := by
    refine BI.Entails.trans ?_ (hi c)
    show _ ⊢ (Pipeline.ΦA (cfgs p).spec c : sProp 𝕄)
    unfold Pipeline.ΦA
    iintro ⟨Hp, -, Hr⟩
    isplitl [Hr]; · iexact Hr
    iexact Hp
  hout c := by
    rw [Pipeline.ownSems0_none]
    refine BI.Entails.trans (ho c) ?_
    show (Pipeline.ΦA (cfgs p).spec c : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (rd Wi c) (rd Wo c) ((pdats m p c).arrAt · (cfgs p).N) (fun w => (harr c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .region (reg m 0 launch0 (W3 m) (W4 m) (body_obligation0 (U3 m)) (fun _ _ => rfl) (fun _ _ => rfl) (fun _ => rfl) (fun _ _ => rfl) (W4_arr m) (W4_of_ne m) (hin0 (U3 m)) (hout0 (U3 m))),
    .region (reg m 1 launch1 (W4 m) (W5 m) (body_obligation1 (U4 m)) (fun _ _ => rfl) (fun _ _ => rfl) (fun _ => rfl) (fun _ _ => rfl) (W5_arr m) (W5_of_ne m) (hin1 (U4 m)) (hout1 (U4 m))),
    .region (reg m 2 launch2 (W5 m) (W6 m) (body_obligation2 (U5 m)) (fun _ _ => rfl) (fun _ _ => rfl) (fun _ => rfl) (fun _ _ => rfl) (W6_arr m) (W6_of_ne m) (hin2 (U5 m)) (hout2 (U5 m))),
    .region (reg m 3 launch3 (W6 m) (W7 m) (body_obligation3 (U6 m)) (fun _ _ => rfl) (fun _ _ => rfl) (fun _ => rfl) (fun _ _ => rfl) (W7_arr m) (W7_of_ne m) (hin3 (U6 m)) (hout3 (U6 m))),
    .region (reg m 4 launch4 (W7 m) (W8 m) (body_obligation4 (U7 m)) (fun _ _ => rfl) (fun _ _ => rfl) (fun _ => rfl) (fun _ _ => rfl) (W8_arr m) (W8_of_ne m) (hin4 (U7 m)) (hout4 (U7 m))),
    .region (reg m 5 launch5 (W8 m) (W9 m) (body_obligation5 (U8 m)) (fun _ _ => rfl) (fun _ _ => rfl) (fun _ => rfl) (fun _ _ => rfl) (W9_arr m) (W9_of_ne m) (hin5 (U8 m)) (hout5 (U8 m))) ]
theorem main_run (c : Dev nD) : main (F := F) c = Pipeline.Seg.run (segs m) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

theorem V3_main_arg (b : Ref sig .tc) (h1 : b ∉ hostOps0_W) (h2 : b ∉ hostOps0_1_W) (h3 : b ∉ hostOps0_2_W) (c : Dev nD) :
    W3 m c (Proc.devRef .tc b) = m ((c : Thread nD τ).loc b) :=
  (V3_of m c b h3).trans <| (V2_of m c b h2).trans <| (V1_of m c b h1).trans rfl

/-- An argument array that no operation and no region writes ends as launched; the two dense products read some of them. -/
theorem kept (b : Ref sig .tc) (c : Dev nD) (e0 : W4 m c (Proc.devRef .tc b) = W3 m c (Proc.devRef .tc b))
    (e3 : W7 m c (Proc.devRef .tc b) = W6 m c (Proc.devRef .tc b))
    (h1 : ∀ w, Pipeline.arrRef spec1 w ≠ b) (h2 : ∀ w, Pipeline.arrRef spec2 w ≠ b)
    (h4 : ∀ w, Pipeline.arrRef spec4 w ≠ b) (h5 : ∀ w, Pipeline.arrRef spec5 w ≠ b)
    (g0 : b ∉ hostOps0_W) (g1 : b ∉ hostOps0_1_W) (g2 : b ∉ hostOps0_2_W) :
    W9 m c (Proc.devRef .tc b) = m ((c : Thread nD τ).loc b) :=
  (W9_of_ne m c b h5).trans <| (W8_of_ne m c b h4).trans <| e3.trans <| (W6_of_ne m c b h2).trans <|
    (W5_of_ne m c b h1).trans <| e0.trans (V3_main_arg m b g0 g1 g2 c)

theorem run_result : θ_run defs (onTc (τ := τ) (main (F := F))) ⟨m, fun _ => 0, ρ⟩ (fun r => ∀ c : Dev nD,
      r.2.mem ((c.tc : Thread nD τ).loc main_v46) = W9 m c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v46 (by decide)),
     (h c _ (mem_uc main_arg0 (by decide))).trans (kept m main_arg0 c
       ((W4_arr m c 0).trans (((dat0 (U3 m) c).arrAt_in 0 rfl _).trans (A_eq0 (U3 m) c 0))) (W7_of_ne m c _ (by decide))
       (by decide) (by decide) (by decide) (by decide) (by decide) (by decide) (by decide)),
     (h c _ (mem_uc main_arg1 (by decide))).trans (kept m main_arg1 c (W4_of_ne m c _ (by decide)) (W7_of_ne m c _ (by decide))
       (by decide) (by decide) (by decide) (by decide) (by decide) (by decide) (by decide)),
     (h c _ (mem_uc main_arg2 (by decide))).trans (kept m main_arg2 c (W4_of_ne m c _ (by decide)) (W7_of_ne m c _ (by decide))
       (by decide) (by decide) (by decide) (by decide) (by decide) (by decide) (by decide)),
     (h c _ (mem_uc main_arg3 (by decide))).trans (kept m main_arg3 c
       ((W4_arr m c 1).trans (((dat0 (U3 m) c).arrAt_in 1 rfl _).trans (A_eq0 (U3 m) c 1))) (W7_of_ne m c _ (by decide))
       (by decide) (by decide) (by decide) (by decide) (by decide) (by decide) (by decide)),
     (h c _ (mem_uc main_arg4 (by decide))).trans (kept m main_arg4 c (W4_of_ne m c _ (by decide))
       ((W7_arr m c 1).trans (((dat3 (U6 m) c).arrAt_in 1 rfl _).trans (A_eq3 (U6 m) c 1)))
       (by decide) (by decide) (by decide) (by decide) (by decide) (by decide) (by decide))⟩) (run_all m ρ)

end Cert.Kernel.Hand

end
-- ==== Proof.IdealDense0.lean ====
import proofs.«128423_j81389630259984_1_alg».proof.Proof.Gen.KernelIdeal.Launch
import proofs.«128423_j81389630259984_1_alg».proof.Proof.Gen.KernelIdeal.Skeleton
import proofs.«128423_j81389630259984_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_2 (x0 : Vec F S5000x128 .f32) (x1 : Vec F S128x64 .f32) : Vec F S5000x64 .bf16 := k0_pay1 x0 x1

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem dense0_offsets_zero : (![0, 0] : Fin 2 → Nat) = fun _ => 0 := by
  funext a; match a with | ⟨0, _⟩ => rfl | ⟨1, _⟩ => rfl

set_option maxHeartbeats 1000000 in
theorem sound_kernel0 (c : Dev nD) (E : Set ℕ) (i : grid0.Coords)
    (arg1 : Memref sig .tc .vmem S5000x128 .f32) (harg1 : arg1.IsWhole)
    (arg2 : Memref sig .tc .vmem S128x64 .f32) (harg2 : arg2.IsWhole)
    (arg3 : Memref sig .tc .vmem S5000x64 .bf16) (harg3 : arg3.IsWhole)
    (x0 : Vec F S5000x128 .f32) (x1 : Vec F S128x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero dense0_offsets_zero inb_S5000x64_S5000x64_0_0 y⟩),
    View.canon_unit_zero dense0_offsets_zero]
  unfold out0_2
  congr 1
  · exact View.ld_unit_zero dense0_offsets_zero _ (View.read (Elt F) arg1.view f0)
  · exact View.ld_unit_zero dense0_offsets_zero _ (View.read (Elt F) arg2.view f1)

theorem body_obligation0 (c : Dev nD) : BodyObligation (dat0 (F := F) V c) (defs₀ (F := F)) Variants.none () Set.univ := fun t => by
  rw [bigSep_W0, bigSep_W0]
  show iprop(_ ∗ _ ∗ (∃ d, _) ∗ (∃ d, _) ∗ (∃ d, _)) ⊢ wp _ _ _ (bodyAt0 t) fun _ => iprop((dat0 V c).Φ t.castSucc ∗ (dat0 V c).owesAt () t.castSucc
      ∗ owns (c : Thread nD τ) (st0_0 t) fullShare (iblk0 V c 0 t) ∗ owns (c : Thread nD τ) (st0_1 t) fullShare (iblk0 V c 1 t)
      ∗ owns (c : Thread nD τ) (st0_2 t) fullShare (out0_2 (iblk0 V c 0 t) (iblk0 V c 1 t)))
  simp only [before0_0, before0_1]
  unfold bodyAt0
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe HΦ Ho H0 H1 H2

theorem hin0 (c : Dev nD) : (Pipeline.ΦA spec0 c : sProp 𝕄) ⊢ (dat0 V c).Φ 0 := .rfl
theorem hout0 (c : Dev nD) : (dat0 V c).Φ (Fin.last cfg0.N) ⊢ (Pipeline.ΦA spec0 c : sProp 𝕄) := .rfl

end Cert.KernelIdeal.Hand

end
-- ==== Proof.IdealGather1.lean ====
import proofs.«128423_j81389630259984_1_alg».proof.Proof.Gen.KernelIdeal.Launch
import proofs.«128423_j81389630259984_1_alg».proof.Proof.Gen.KernelIdeal.Skeleton
import proofs.«128423_j81389630259984_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem g1_offs : (![0, 0] : Fin 2 → Nat) = fun _ => 0 := funext fun a => by fin_cases a <;> rfl

-- The last of a list of whole-shape stores decides what the buffer reads: it covers every index.
theorem g1_read_last_store {S : Shape} {e : EltTy} {κ : Kind} {sp : Space} (v : View sig κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

-- The test "word n equals k", as the body's two conditionals spell it.
abbrev g1_isAt (k : BitVec 32) (n : ℕ) : Prop :=
  Scalar.cmpi .ne (Scalar.extui (Scalar.cmpi .eq (BitVec.ofNat 32 n) k)) 0#32 = 1#1

abbrev g1_cond0 (i : grid1.Coords) : Prop := g1_isAt 0#32 (i 1).val

-- The scratch after the body: the product added to what it held, or to zeros at the first node block.
def g1_upd (i : grid1.Coords) (x0 : Vec F S4096x1 .i32) (x2 : Vec F S4000x64 .bf16) (xs : Vec F S4096x64 .f32) : Vec F S4096x64 .f32 :=
  k1_pay2 i x0 x2 (if g1_cond0 i then k1_pay1 else xs)

set_option maxHeartbeats 1000000 in
-- The inputs are only read, the scratch ends at its update, the output is stored exactly when the second test holds.
theorem g1_run (c : Dev nD) (i : grid1.Coords)
    {arg2 : Memref sig .tc .vmem S4096x1 .i32} (harg2 : arg2.IsWhole) {arg3 : Memref sig .tc .vmem S4096x1 .f32} (harg3 : arg3.IsWhole)
    {arg4 : Memref sig .tc .vmem S4000x64 .bf16} (harg4 : arg4.IsWhole) {arg5 : Memref sig .tc .vmem S4096x64 .bf16} (harg5 : arg5.IsWhole)
    {arg6 : Memref sig .tc .vmem S4096x64 .f32} (harg6 : arg6.IsWhole)
    (x0 : Vec F S4096x1 .i32) (x1 : Vec F S4096x1 .f32) (x2 : Vec F S4000x64 .bf16) (x3 : Vec F S4096x64 .bf16) (xs : Vec F S4096x64 .f32)
    (E : Set ℕ) (K : PUnit → sProp 𝕄) :
    iprop(owns c.tc arg2 fullShare x0 ∗ owns c.tc arg3 fullShare x1 ∗ owns c.tc arg4 fullShare x2 ∗ owns c.tc arg5 fullShare x3
        ∗ owns c.tc arg6 fullShare xs
        ∗ (iprop(owns c.tc arg2 fullShare x0 ∗ owns c.tc arg3 fullShare x1 ∗ owns c.tc arg4 fullShare x2
            ∗ owns c.tc arg5 fullShare (if k1_cond2 i = 1#1 then k1_pay3 (g1_upd i x0 x2 xs) x1 else x3)
            ∗ owns c.tc arg6 fullShare (g1_upd i x0 x2 xs)) -∗ K ⟨⟩))
      ⊢ wp frame (wpE (defs₀ (F := F)) Variants.none c none) E (cc1__gather_kernel i arg2 harg2 arg3 harg3 arg4 harg4 arg5 harg5 arg6 harg6) K := by
  simp only [cc1__gather_kernel_eq_skeleton]; unfold cc1__gather_kernel_skel owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  by_cases hc0 : g1_cond0 i <;> by_cases hc2 : k1_cond2 i = 1#1 <;> (
    sl_exec (disch := first | exact hc0 | exact hc2)
    sl_step
    iapply Hk
    isplitl [H0]; swap; isplitl [H1]; swap; isplitl [H2]; swap; isplitl [H3]
    all_goals (
      iexists _; isplitr; swap; iassumption
      ipureintro; sl_unfold_words
      repeat first
        | rw [g1_read_last_store _ _ g1_offs] | rw [View.readCov_cons_toLoadRect] | rw [View.readAt_eq_ld] | rw [View.ld_unit_zero g1_offs]
        | unfold g1_upd | rw [if_pos hc0] | rw [if_neg hc0] | rw [if_pos hc2] | rw [if_neg hc2]
        | rw [Memref.IsWhole.read_unread]))

theorem g1_tests : ∀ e : Fin 25, (g1_isAt 0#32 e.val ↔ e.val = 0) ∧ (g1_isAt 24#32 e.val ↔ e.val = 24) := by
  decide +kernel

-- At point t the two tests read the node-block coordinate t % 25: the first block, the last.
theorem g1_hcond (t : Fin cfg1.N) :
    (g1_cond0 (grid1.coords t) ↔ t.val % 25 = 0) ∧ (k1_cond2 (grid1.coords t) = 1#1 ↔ t.val % 25 = 24) := by
  have h := g1_tests ⟨t.val % 25, Nat.mod_lt _ (by decide)⟩
  show (g1_isAt 0#32 (t.val / grid1.stride 1 % 25) ↔ _) ∧ (g1_isAt 24#32 (t.val / grid1.stride 1 % 25) ↔ _)
  rw [show grid1.stride 1 = 1 from by decide, Nat.div_one]; exact h

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def acc1 (c : Dev nD) : (n : ℕ) → n < cfg1.N → Vec F S4096x64 .f32
  | 0, hn => k1_pay2 (grid1.coords ⟨0, hn⟩) (iblk1 V c 0 ⟨0, hn⟩) (iblk1 V c 2 ⟨0, hn⟩) (k1_pay1 (F := F))
  | n + 1, hn => k1_pay2 (grid1.coords ⟨n + 1, hn⟩) (iblk1 V c 0 ⟨n + 1, hn⟩) (iblk1 V c 2 ⟨n + 1, hn⟩)
      (if (n + 1) % 25 = 0 then k1_pay1 (F := F) else acc1 c n (Nat.lt_of_succ_lt hn))

theorem acc1_reset (c : Dev nD) (t : Fin cfg1.N) (h : t.val % 25 = 0) :
    acc1 V c t.val t.isLt = k1_pay2 (grid1.coords t) (iblk1 V c 0 t) (iblk1 V c 2 t) (k1_pay1 (F := F)) := by
  obtain ⟨n, hn⟩ := t
  cases n with
  | zero => rfl
  | succ n => exact congrArg (k1_pay2 _ _ _) (if_pos h)

theorem acc1_step (c : Dev nD) (t : Fin cfg1.N) (h : ¬t.val % 25 = 0) :
    acc1 V c t.val t.isLt = k1_pay2 (grid1.coords t) (iblk1 V c 0 t) (iblk1 V c 2 t)
      (acc1 V c (t.val - 1) (Nat.lt_of_le_of_lt (Nat.sub_le _ _) t.isLt)) := by
  obtain ⟨n, hn⟩ := t
  cases n with
  | zero => exact absurd (Nat.zero_mod _) h
  | succ n => exact congrArg (k1_pay2 _ _ _) (if_neg h)

-- The body's update at point t of a scratch that, off the first node block, holds what the point before left.
theorem g1_upd_eq (c : Dev nD) (t : Fin cfg1.N) (d : Vec F S4096x64 .f32)
    (hd : ∀ h : ¬t.val % 25 = 0, d = acc1 V c (t.val - 1) (by omega)) :
    g1_upd (grid1.coords t) (iblk1 V c 0 t) (iblk1 V c 2 t) d = acc1 V c t.val t.isLt := by
  unfold g1_upd
  by_cases h : t.val % 25 = 0
  · rw [if_pos ((g1_hcond t).1.mpr h), acc1_reset V c t h]
  · rw [if_neg fun hc => h ((g1_hcond t).1.mp hc), hd h, acc1_step V c t h]

abbrev g1_scM : Memref sig .tc .vmem S4096x64 .f32 := Memref.whole cc1_scratch0

-- What the region holds between points, with P for the scratch.
abbrev g1_held (c : Dev nD) (P : sProp 𝕄) : sProp 𝕄 :=
  iprop(iprop(P ∗ Pipeline.scopedRestBut (Ix := Unit) (Name := ℕ) (U := UR sig nD τ) (Lvl := ℕ) (Val := Elt F) spec1 c [cc1_scratch0])
    ∗ (∃ r, prngReg c r))

-- Before point n the scratch holds something; off the first node block, what point n - 1 left.
def Phi1 (c : Dev nD) (n : ℕ) (h : n ≤ cfg1.N) : sProp 𝕄 :=
  iprop(∃ d, ⌜∀ hn : ¬n % 25 = 0, d = acc1 V c (n - 1) (by omega)⌝ ∗ g1_held c (owns c.tc g1_scM fullShare d))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 1 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) :
    (dat1 V c).after 3 t = k1_pay3 (acc1 V c t.val t.isLt) (iblk1 V c 1 t) := by
  dsimp only [dat1]

-- On entry the region holds the same, the scratch at contents nothing names.
theorem g1_PhiA (c : Dev nD) :
    (Pipeline.ΦA spec1 c : sProp 𝕄) = g1_held c iprop(∃ d, owns c.tc g1_scM fullShare d) := by
  unfold Pipeline.ΦA; rw [scopedRest1_split]; simp only [owns_whole]; rfl

theorem g1_before (c : Dev nD) (t : Fin cfg1.N) :
    (∀ d, (dat1 V c).before 0 t d = iblk1 V c 0 t) ∧ (∀ d, (dat1 V c).before 1 t d = iblk1 V c 1 t)
      ∧ ∀ d, (dat1 V c).before 2 t d = iblk1 V c 2 t := by
  refine ⟨?_, ?_, ?_⟩ <;> intro d <;>
  exact ((dat1 V c).before_in_eq_fetched _ rfl (fun _ => rfl) (fun _ _ _ => rfl) (fun _ => rfl) t d).trans rfl

theorem g1_leaves_live (c : Dev nD) (t : Fin cfg1.N) (w : Fin cfg1.W) (h : cfg1.idle w (grid1.coords t) = false) :
    (dat1 V c).leavesExact w t = owns c.tc ((cfg1.win w).stage (cfg1.slots t w)) fullShare ((dat1 V c).after w t) := by
  unfold Dat.leavesExact; rw [h]

-- The output's buffer after the body: stored with the scaled sum at the last node block, else handed back as found.
theorem g1_leaves3 (c : Dev nD) (t : Fin cfg1.N) (d) :
    owns c.tc (st1_3 t) fullShare
        (if k1_cond2 (grid1.coords t) = 1#1 then k1_pay3 (acc1 V c t.val t.isLt) (iblk1 V c 1 t) else (dat1 V c).before 3 t d)
      ⊢ (dat1 V c).leavesExact 3 t := by
  by_cases h : k1_cond2 (grid1.coords t) = 1#1
  · rw [if_pos h, ← after1_3, g1_leaves_live V c t 3 (by show (!(_ == _)) = false; rw [h]; rfl)]
  · rw [if_neg h, Dat.leavesExact_idle (dat1 V c) 3 t
      (by show (!(_ == _)) = true; rw [beq_eq_false_iff_ne.mpr h]; rfl)
      (Bool.eq_false_iff.mpr fun hf => h ((g1_hcond t).2.mpr ((flush1_3 t).mp hf)))]
    iintro H; iexists d; iexact H

-- The body at any point: the invariant lends the scratch and takes it back at this point's accumulator.
theorem body_obligation1 (c : Dev nD) : BodyObligation (dat1 (F := F) V c) (defs₀ (F := F)) Variants.none () Set.univ := fun t => by
  rw [bigSep_W1, bigSep_W1]
  show iprop(Phi1 V c t.val (Nat.le_of_lt t.isLt) ∗ _ ∗ (∃ d, _) ∗ (∃ d, _) ∗ (∃ d, _) ∗ (∃ d, _))
    ⊢ wp _ _ _ (bodyAt1 t) fun _ => iprop(Phi1 V c (t.val + 1) t.isLt ∗ _ ∗ (dat1 V c).leavesExact 0 t
      ∗ (dat1 V c).leavesExact 1 t ∗ (dat1 V c).leavesExact 2 t ∗ (dat1 V c).leavesExact 3 t)
  simp only [(g1_before V c t).1, (g1_before V c t).2.1, (g1_before V c t).2.2]
  rw [g1_leaves_live V c t 0 rfl, g1_leaves_live V c t 1 rfl, g1_leaves_live V c t 2 rfl]
  unfold Phi1 g1_held
  iintro ⟨⟨%d, %hd, ⟨HS, HR⟩, Hg⟩, Ho, ⟨%d0, H0⟩, ⟨%d1, H1⟩, ⟨%d2, H2⟩, ⟨%d3, H3⟩⟩
  iapply (g1_run c (grid1.coords t) _ _ _ _ (Memref.isWhole_whole _)
    (iblk1 V c 0 t) (iblk1 V c 1 t) (iblk1 V c 2 t) ((dat1 V c).before 3 t d3) d Set.univ _)
  rw [g1_upd_eq V c t d hd]
  iframe H0 H1 H2 H3 HS
  iintro ⟨H0, H1, H2, H3, HS⟩
  isplitl [HS HR Hg]
  · iexists (acc1 V c t.val t.isLt); isplitr; · ipureintro; exact fun _ => rfl
    iframe HS HR Hg
  isplitl [Ho]; · iexact Ho
  isplitl [H0]; · iexact H0
  isplitl [H1]; · iexact H1
  isplitl [H2]; · iexact H2
  iapply (g1_leaves3 V c t d3); iexact H3

-- The entry state is the invariant before the first point, where it says nothing of the scratch's contents,
theorem hin1 (c : Dev nD) : (Pipeline.ΦA spec1 c : sProp 𝕄) ⊢ (dat1 V c).Φ 0 := by
  rw [g1_PhiA, show (dat1 V c).Φ 0 = Phi1 V c 0 (Nat.zero_le _) from rfl]; unfold Phi1 g1_held
  iintro ⟨⟨⟨%d, HS⟩, HR⟩, Hg⟩
  iexists d; isplitr; · ipureintro; exact fun hn => absurd (Nat.zero_mod _) hn
  iframe HS HR Hg

-- and the invariant after the last point gives the entry state back by forgetting them.
theorem hout1 (c : Dev nD) : (dat1 V c).Φ (Fin.last cfg1.N) ⊢ (Pipeline.ΦA spec1 c : sProp 𝕄) := by
  rw [g1_PhiA, show (dat1 V c).Φ (Fin.last cfg1.N) = Phi1 V c (Fin.last cfg1.N).val (Nat.le_of_lt_succ (Fin.last cfg1.N).isLt) from rfl]
  unfold Phi1 g1_held
  iintro ⟨%d, -, ⟨HS, HR⟩, Hg⟩
  iframe HR Hg
  iexists d; iexact HS

end Cert.KernelIdeal.Hand

end
-- ==== Proof.IdealScatter2.lean ====
import proofs.«128423_j81389630259984_1_alg».proof.Proof.Gen.KernelIdeal.Launch
import proofs.«128423_j81389630259984_1_alg».proof.Proof.Gen.KernelIdeal.Skeleton
import proofs.«128423_j81389630259984_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zeroOff2 : (![0, 0] : Fin 2 → Nat) = fun _ => 0 := funext fun a => by fin_cases a <;> rfl

-- After writes of which the last covers the whole shape, the buffer reads that last payload.
theorem read_writes_whole2 {S : Shape} {e : EltTy} {κ : Kind} {sp : Space} (v : View sig κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

-- The test "word n equals k", as the body's two conditionals spell it.
abbrev isAt2 (k : BitVec 32) (n : ℕ) : Prop :=
  Scalar.cmpi .ne (Scalar.extui (Scalar.cmpi .eq (BitVec.ofNat 32 n) k)) 0#32 = 1#1

abbrev cond2_0 (i : grid2.Coords) : Prop := isAt2 0#32 (i 1).val

-- The accumulator after the body: the update of what it held, or of zeros at the first edge block.
def upd2 (i : grid2.Coords) (x1 : Vec F S1x4096 .i32) (x0 : Vec F S4096x64 .bf16) (xs : Vec F S4000x64 .f32) : Vec F S4000x64 .f32 :=
  k2_pay2 i x1 x0 (if cond2_0 i then k2_pay1 else xs)

-- The inputs are only read, the accumulator ends at its update, the output is stored exactly when the second test holds.
theorem run2 (c : Dev nD) (i : grid2.Coords)
    {arg2 : Memref sig .tc .vmem S4096x64 .bf16} (harg2 : arg2.IsWhole) {arg3 : Memref sig .tc .vmem S1x4096 .i32} (harg3 : arg3.IsWhole)
    {arg4 : Memref sig .tc .vmem S4000x64 .bf16} (harg4 : arg4.IsWhole) {arg5 : Memref sig .tc .vmem S4000x64 .f32} (harg5 : arg5.IsWhole)
    (x0 : Vec F S4096x64 .bf16) (x1 : Vec F S1x4096 .i32) (xi : Vec F S4000x64 .bf16) (xs : Vec F S4000x64 .f32)
    (E : Set ℕ) (K : PUnit → sProp 𝕄) :
    iprop(owns c.tc arg2 fullShare x0 ∗ owns c.tc arg3 fullShare x1 ∗ owns c.tc arg4 fullShare xi
        ∗ owns c.tc arg5 fullShare xs
        ∗ (iprop(owns c.tc arg2 fullShare x0 ∗ owns c.tc arg3 fullShare x1
            ∗ owns c.tc arg4 fullShare (if k2_cond2 i = 1#1 then k2_pay3 (upd2 i x1 x0 xs) else xi)
            ∗ owns c.tc arg5 fullShare (upd2 i x1 x0 xs)) -∗ K ⟨⟩))
      ⊢ wp frame (wpE (defs₀ (F := F)) Variants.none c none) E (cc2__scatter_kernel i arg2 harg2 arg3 harg3 arg4 harg4 arg5 harg5) K := by
  simp only [cc2__scatter_kernel_eq_skeleton]; unfold cc2__scatter_kernel_skel owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  by_cases hc0 : cond2_0 i <;> by_cases hc2 : k2_cond2 i = 1#1 <;> (
    sl_exec (disch := first | exact hc0 | exact hc2)
    sl_step
    iapply Hk
    isplitl [H0]; swap; isplitl [H1]; swap; isplitl [H2]
    all_goals (
      iexists _; isplitr; swap; iassumption
      ipureintro; sl_unfold_words
      repeat first
        | rw [read_writes_whole2 _ _ zeroOff2] | rw [View.readCov_cons_toLoadRect] | rw [View.readAt_eq_ld] | rw [View.ld_unit_zero zeroOff2]
        | unfold upd2 | rw [if_pos hc0] | rw [if_neg hc0] | rw [if_pos hc2] | rw [if_neg hc2]
        | rw [Memref.IsWhole.read_unread]))

theorem tests2 : ∀ e : Fin 416, (isAt2 0#32 e.val ↔ e.val = 0) ∧ (isAt2 415#32 e.val ↔ e.val = 415) := by
  decide +kernel

-- At point t the two tests read the edge-block coordinate t % 416: the first block, the last.
theorem hcond2 (t : Fin cfg2.N) :
    (cond2_0 (grid2.coords t) ↔ t.val % 416 = 0) ∧ (k2_cond2 (grid2.coords t) = 1#1 ↔ t.val % 416 = 415) := by
  have h := tests2 ⟨t.val % 416, Nat.mod_lt _ (by decide)⟩
  show (isAt2 0#32 (t.val / grid2.stride 1 % 416) ↔ _) ∧ (isAt2 415#32 (t.val / grid2.stride 1 % 416) ↔ _)
  rw [show grid2.stride 1 = 1 from by decide, Nat.div_one]; exact h

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 (c : Dev nD) : (n : ℕ) → n < cfg2.N → Vec F S4000x64 .f32
  | 0, hn => k2_pay2 (grid2.coords ⟨0, hn⟩) (iblk2 V c 1 ⟨0, hn⟩) (iblk2 V c 0 ⟨0, hn⟩) (k2_pay1 (F := F))
  | n + 1, hn => k2_pay2 (grid2.coords ⟨n + 1, hn⟩) (iblk2 V c 1 ⟨n + 1, hn⟩) (iblk2 V c 0 ⟨n + 1, hn⟩)
      (if (n + 1) % 416 = 0 then k2_pay1 (F := F) else acc2 c n (Nat.lt_of_succ_lt hn))

theorem acc2_reset (c : Dev nD) (t : Fin cfg2.N) (h : t.val % 416 = 0) :
    acc2 V c t.val t.isLt = k2_pay2 (grid2.coords t) (iblk2 V c 1 t) (iblk2 V c 0 t) (k2_pay1 (F := F)) := by
  obtain ⟨_ | n, hn⟩ := t
  · rfl
  · exact congrArg (k2_pay2 _ _ _) (if_pos h)

theorem acc2_step (c : Dev nD) (t : Fin cfg2.N) (h : ¬t.val % 416 = 0) :
    acc2 V c t.val t.isLt = k2_pay2 (grid2.coords t) (iblk2 V c 1 t) (iblk2 V c 0 t)
      (acc2 V c (t.val - 1) (Nat.lt_of_le_of_lt (Nat.sub_le _ _) t.isLt)) := by
  obtain ⟨_ | n, hn⟩ := t
  · exact absurd (Nat.zero_mod _) h
  · exact congrArg (k2_pay2 _ _ _) (if_neg h)

-- The body's update at point t of an accumulator that, off the first edge block, holds what the point before left.
theorem upd2_eq (c : Dev nD) (t : Fin cfg2.N) (d : Vec F S4000x64 .f32)
    (hd : ∀ h : ¬t.val % 416 = 0, d = acc2 V c (t.val - 1) (by omega)) :
    upd2 (grid2.coords t) (iblk2 V c 1 t) (iblk2 V c 0 t) d = acc2 V c t.val t.isLt := by
  unfold upd2
  by_cases h : t.val % 416 = 0
  · rw [if_pos ((hcond2 t).1.mpr h), acc2_reset V c t h]
  · rw [if_neg fun hc => h ((hcond2 t).1.mp hc), hd h, acc2_step V c t h]

abbrev scM2 : Memref sig .tc .vmem S4000x64 .f32 := Memref.whole cc2_scratch0

-- What the region holds between points, with P for the accumulator's buffer.
abbrev held2 (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0])
    ∗ (∃ r, prngReg c r))

-- Before point n the accumulator holds something; off the first edge block, what point n - 1 left.
def Phi2 (c : Dev nD) (n : ℕ) (h : n ≤ cfg2.N) : sProp 𝕄 :=
  iprop(∃ d, ⌜∀ hn : ¬n % 416 = 0, d = acc2 V c (n - 1) (by omega)⌝ ∗ held2 c (owns c.tc scM2 fullShare d))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (acc2 V c t.val t.isLt)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_2 (c : Dev nD) (t : Fin cfg2.N) : (dat2 V c).after 2 t = k2_pay3 (acc2 V c t.val t.isLt) := by
  dsimp only [dat2]

-- On entry the region holds the same, the accumulator's buffer at contents nothing names.
theorem PhiA2_eq (c : Dev nD) :
    (Pipeline.ΦA spec2 c : sProp 𝕄) = held2 c iprop(∃ d, owns c.tc scM2 fullShare d) := by
  unfold Pipeline.ΦA; rw [scopedRest2_split]; simp only [owns_whole]; rfl

theorem before2 (c : Dev nD) (t : Fin cfg2.N) :
    (∀ d, (dat2 V c).before 0 t d = iblk2 V c 0 t) ∧ ∀ d, (dat2 V c).before 1 t d = iblk2 V c 1 t := by
  constructor <;> intro d <;>
  exact ((dat2 V c).before_in_eq_fetched _ rfl (fun _ => rfl) (fun _ _ _ => rfl)
    (fun t => by dsimp only [dat2]; unfold Dat.blockOf iblk2; try rfl) t d).trans
    (by unfold Dat.fetched Dat.blockOf iblk2; rw [A_eq2]; try rfl)

theorem leaves2_live (c : Dev nD) (t : Fin cfg2.N) (w : Fin cfg2.W) (h : cfg2.idle w (grid2.coords t) = false) :
    (dat2 V c).leavesExact w t = owns c.tc ((cfg2.win w).stage (cfg2.slots t w)) fullShare ((dat2 V c).after w t) := by
  unfold Dat.leavesExact; rw [h]

-- The output's buffer after the body: stored with the epilogue at the last edge block, else handed back as found.
theorem leaves2_2 (c : Dev nD) (t : Fin cfg2.N) (d) :
    owns c.tc (st2_2 t) fullShare
        (if k2_cond2 (grid2.coords t) = 1#1 then k2_pay3 (acc2 V c t.val t.isLt) else (dat2 V c).before 2 t d)
      ⊢ (dat2 V c).leavesExact 2 t := by
  by_cases h : k2_cond2 (grid2.coords t) = 1#1
  · rw [if_pos h, ← after2_2, leaves2_live V c t 2 (by show (!(_ == _)) = false; rw [h]; rfl)]
  · rw [if_neg h, Dat.leavesExact_idle (dat2 V c) 2 t
      (by show (!(_ == _)) = true; rw [beq_eq_false_iff_ne.mpr h]; rfl)
      (Bool.eq_false_iff.mpr fun hf => h ((hcond2 t).2.mpr ((flush2_2 t).mp hf)))]
    iintro H; iexists d; iexact H

-- The body at any point: the invariant lends the accumulator and takes it back at this point's contents.
theorem body_obligation2 (c : Dev nD) : BodyObligation (dat2 (F := F) V c) (defs₀ (F := F)) Variants.none () Set.univ := fun t => by
  rw [bigSep_W2, bigSep_W2]
  show iprop(Phi2 V c t.val (Nat.le_of_lt t.isLt) ∗ _ ∗ (∃ d, _) ∗ (∃ d, _) ∗ (∃ d, _))
    ⊢ wp _ _ _ (bodyAt2 t) fun _ => iprop(Phi2 V c (t.val + 1) t.isLt ∗ _
      ∗ (dat2 V c).leavesExact 0 t ∗ (dat2 V c).leavesExact 1 t ∗ (dat2 V c).leavesExact 2 t)
  simp only [(before2 V c t).1, (before2 V c t).2]
  rw [leaves2_live V c t 0 rfl, leaves2_live V c t 1 rfl]
  unfold Phi2 held2
  iintro ⟨⟨%d, %hd, ⟨HS, HR⟩, Hg⟩, Ho, ⟨%d0, H0⟩, ⟨%d1, H1⟩, ⟨%d2, H2⟩⟩
  iapply (run2 c (grid2.coords t) (hstage2_0 _) (hstage2_1 _) (hstage2_2 _) (Memref.isWhole_whole _)
    (iblk2 V c 0 t) (iblk2 V c 1 t) ((dat2 V c).before 2 t d2) d Set.univ _)
  rw [upd2_eq V c t d hd]
  iframe H0 H1 H2 HS
  iintro ⟨H0, H1, H2, HS⟩
  isplitl [HS HR Hg]
  · iexists (acc2 V c t.val t.isLt); isplitr; · ipureintro; exact fun _ => rfl
    iframe HS HR Hg
  isplitl [Ho]; · iexact Ho
  isplitl [H0]; · iexact H0
  isplitl [H1]; · iexact H1
  iapply (leaves2_2 V c t d2); iexact H2

-- The entry state is the invariant before the first point, where it says nothing of the accumulator's contents,
theorem hin2 (c : Dev nD) : (Pipeline.ΦA spec2 c : sProp 𝕄) ⊢ (dat2 V c).Φ 0 := by
  rw [PhiA2_eq, show (dat2 V c).Φ 0 = Phi2 V c 0 (Nat.zero_le _) from rfl]; unfold Phi2 held2
  iintro ⟨⟨⟨%d, HS⟩, HR⟩, Hg⟩
  iexists d; isplitr; · ipureintro; exact fun hn => absurd (Nat.zero_mod _) hn
  iframe HS HR Hg

-- and the invariant after the last point gives the entry state back by forgetting them.
theorem hout2 (c : Dev nD) : (dat2 V c).Φ (Fin.last cfg2.N) ⊢ (Pipeline.ΦA spec2 c : sProp 𝕄) := by
  rw [PhiA2_eq, show (dat2 V c).Φ (Fin.last cfg2.N) = Phi2 V c (Fin.last cfg2.N).val (Nat.le_of_lt_succ (Fin.last cfg2.N).isLt) from rfl]
  unfold Phi2 held2
  iintro ⟨%d, -, ⟨HS, HR⟩, Hg⟩
  iframe HR Hg
  iexists d; iexact HS

end Cert.KernelIdeal.Hand

end
-- ==== Proof.IdealDense3.lean ====
import proofs.«128423_j81389630259984_1_alg».proof.Proof.Gen.KernelIdeal.Launch
import proofs.«128423_j81389630259984_1_alg».proof.Proof.Gen.KernelIdeal.Skeleton
import proofs.«128423_j81389630259984_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_2 (x0 : Vec F S5000x64 .bf16) (x1 : Vec F S64x16 .f32) : Vec F S5000x16 .bf16 := k3_pay1 x0 x1

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = out3_2 (iblk3 V c 0 t) (iblk3 V c 1 t) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

theorem dense3_offsets_zero : (![0, 0] : Fin 2 → Nat) = fun _ => 0 := by
  funext a; match a with | ⟨0, _⟩ => rfl | ⟨1, _⟩ => rfl

set_option maxHeartbeats 1000000 in
theorem sound_kernel3 (c : Dev nD) (E : Set ℕ) (i : grid3.Coords)
    (arg1 : Memref sig .tc .vmem S5000x64 .bf16) (harg1 : arg1.IsWhole)
    (arg2 : Memref sig .tc .vmem S64x16 .f32) (harg2 : arg2.IsWhole)
    (arg3 : Memref sig .tc .vmem S5000x16 .bf16) (harg3 : arg3.IsWhole)
    (x0 : Vec F S5000x64 .bf16) (x1 : Vec F S64x16 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero dense3_offsets_zero inb_S5000x16_S5000x16_0_0 y⟩),
    View.canon_unit_zero dense3_offsets_zero]
  unfold out3_2
  congr 1
  · exact View.ld_unit_zero dense3_offsets_zero _ (View.read (Elt F) arg1.view f0)
  · exact View.ld_unit_zero dense3_offsets_zero _ (View.read (Elt F) arg2.view f1)

theorem body_obligation3 (c : Dev nD) : BodyObligation (dat3 (F := F) V c) (defs₀ (F := F)) Variants.none () Set.univ := fun t => by
  rw [bigSep_W3, bigSep_W3]
  show iprop(_ ∗ _ ∗ (∃ d, _) ∗ (∃ d, _) ∗ (∃ d, _)) ⊢ wp _ _ _ (bodyAt3 t) fun _ => iprop((dat3 V c).Φ t.castSucc ∗ (dat3 V c).owesAt () t.castSucc
      ∗ owns (c : Thread nD τ) (st3_0 t) fullShare (iblk3 V c 0 t) ∗ owns (c : Thread nD τ) (st3_1 t) fullShare (iblk3 V c 1 t)
      ∗ owns (c : Thread nD τ) (st3_2 t) fullShare (out3_2 (iblk3 V c 0 t) (iblk3 V c 1 t)))
  simp only [before3_0, before3_1]
  unfold bodyAt3
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  iframe H0 H1
  isplitl [H2]; · iexists _; iexact H2
  iintro ⟨H0, H1, H2⟩
  iframe HΦ Ho H0 H1 H2

theorem hin3 (c : Dev nD) : (Pipeline.ΦA spec3 c : sProp 𝕄) ⊢ (dat3 V c).Φ 0 := .rfl
theorem hout3 (c : Dev nD) : (dat3 V c).Φ (Fin.last cfg3.N) ⊢ (Pipeline.ΦA spec3 c : sProp 𝕄) := .rfl

end Cert.KernelIdeal.Hand

end
-- ==== Proof.IdealGather4.lean ====
import proofs.«128423_j81389630259984_1_alg».proof.Proof.Gen.KernelIdeal.Launch
import proofs.«128423_j81389630259984_1_alg».proof.Proof.Gen.KernelIdeal.Skeleton
import proofs.«128423_j81389630259984_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem g4_offs : (![0, 0] : Fin 2 → Nat) = fun _ => 0 := funext fun a => by fin_cases a <;> rfl

-- The last of a list of whole-shape stores decides what the buffer reads: it covers every index.
theorem g4_read_last_store {S : Shape} {e : EltTy} {κ : Kind} {sp : Space} (v : View sig κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

-- The test "word n equals k", as the body's two conditionals spell it.
abbrev g4_isAt (k : BitVec 32) (n : ℕ) : Prop :=
  Scalar.cmpi .ne (Scalar.extui (Scalar.cmpi .eq (BitVec.ofNat 32 n) k)) 0#32 = 1#1

abbrev g4_cond0 (i : grid4.Coords) : Prop := g4_isAt 0#32 (i 1).val

-- The scratch after the body: the product added to what it held, or to zeros at the first node block.
def g4_upd (i : grid4.Coords) (x0 : Vec F S4096x1 .i32) (x2 : Vec F S4000x16 .bf16) (xs : Vec F S4096x16 .f32) : Vec F S4096x16 .f32 :=
  k4_pay2 i x0 x2 (if g4_cond0 i then k4_pay1 else xs)

set_option maxHeartbeats 1000000 in
-- The inputs are only read, the scratch ends at its update, the output is stored exactly when the second test holds.
theorem g4_run (c : Dev nD) (i : grid4.Coords)
    {arg2 : Memref sig .tc .vmem S4096x1 .i32} (harg2 : arg2.IsWhole) {arg3 : Memref sig .tc .vmem S4096x1 .f32} (harg3 : arg3.IsWhole)
    {arg4 : Memref sig .tc .vmem S4000x16 .bf16} (harg4 : arg4.IsWhole) {arg5 : Memref sig .tc .vmem S4096x16 .bf16} (harg5 : arg5.IsWhole)
    {arg6 : Memref sig .tc .vmem S4096x16 .f32} (harg6 : arg6.IsWhole)
    (x0 : Vec F S4096x1 .i32) (x1 : Vec F S4096x1 .f32) (x2 : Vec F S4000x16 .bf16) (x3 : Vec F S4096x16 .bf16) (xs : Vec F S4096x16 .f32)
    (E : Set ℕ) (K : PUnit → sProp 𝕄) :
    iprop(owns c.tc arg2 fullShare x0 ∗ owns c.tc arg3 fullShare x1 ∗ owns c.tc arg4 fullShare x2 ∗ owns c.tc arg5 fullShare x3
        ∗ owns c.tc arg6 fullShare xs
        ∗ (iprop(owns c.tc arg2 fullShare x0 ∗ owns c.tc arg3 fullShare x1 ∗ owns c.tc arg4 fullShare x2
            ∗ owns c.tc arg5 fullShare (if k4_cond2 i = 1#1 then k4_pay3 (g4_upd i x0 x2 xs) x1 else x3)
            ∗ owns c.tc arg6 fullShare (g4_upd i x0 x2 xs)) -∗ K ⟨⟩))
      ⊢ wp frame (wpE (defs₀ (F := F)) Variants.none c none) E (cc4__gather_kernel i arg2 harg2 arg3 harg3 arg4 harg4 arg5 harg5 arg6 harg6) K := by
  simp only [cc4__gather_kernel_eq_skeleton]; unfold cc4__gather_kernel_skel owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  by_cases hc0 : g4_cond0 i <;> by_cases hc2 : k4_cond2 i = 1#1 <;> (
    sl_exec (disch := first | exact hc0 | exact hc2)
    sl_step
    iapply Hk
    isplitl [H0]; swap; isplitl [H1]; swap; isplitl [H2]; swap; isplitl [H3]
    all_goals (
      iexists _; isplitr; swap; iassumption
      ipureintro; sl_unfold_words
      repeat first
        | rw [g4_read_last_store _ _ g4_offs] | rw [View.readCov_cons_toLoadRect] | rw [View.readAt_eq_ld] | rw [View.ld_unit_zero g4_offs]
        | unfold g4_upd | rw [if_pos hc0] | rw [if_neg hc0] | rw [if_pos hc2] | rw [if_neg hc2]
        | rw [Memref.IsWhole.read_unread]))

theorem g4_tests : ∀ e : Fin 25, (g4_isAt 0#32 e.val ↔ e.val = 0) ∧ (g4_isAt 24#32 e.val ↔ e.val = 24) := by
  decide +kernel

-- At point t the two tests read the node-block coordinate t % 25: the first block, the last.
theorem g4_hcond (t : Fin cfg4.N) :
    (g4_cond0 (grid4.coords t) ↔ t.val % 25 = 0) ∧ (k4_cond2 (grid4.coords t) = 1#1 ↔ t.val % 25 = 24) := by
  have h := g4_tests ⟨t.val % 25, Nat.mod_lt _ (by decide)⟩
  show (g4_isAt 0#32 (t.val / grid4.stride 1 % 25) ↔ _) ∧ (g4_isAt 24#32 (t.val / grid4.stride 1 % 25) ↔ _)
  rw [show grid4.stride 1 = 1 from by decide, Nat.div_one]; exact h

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (c : Dev nD) : (n : ℕ) → n < cfg4.N → Vec F S4096x16 .f32
  | 0, hn => k4_pay2 (grid4.coords ⟨0, hn⟩) (iblk4 V c 0 ⟨0, hn⟩) (iblk4 V c 2 ⟨0, hn⟩) (k4_pay1 (F := F))
  | n + 1, hn => k4_pay2 (grid4.coords ⟨n + 1, hn⟩) (iblk4 V c 0 ⟨n + 1, hn⟩) (iblk4 V c 2 ⟨n + 1, hn⟩)
      (if (n + 1) % 25 = 0 then k4_pay1 (F := F) else acc4 c n (Nat.lt_of_succ_lt hn))

theorem acc4_reset (c : Dev nD) (t : Fin cfg4.N) (h : t.val % 25 = 0) :
    acc4 V c t.val t.isLt = k4_pay2 (grid4.coords t) (iblk4 V c 0 t) (iblk4 V c 2 t) (k4_pay1 (F := F)) := by
  obtain ⟨n, hn⟩ := t
  cases n with
  | zero => rfl
  | succ n => exact congrArg (k4_pay2 _ _ _) (if_pos h)

theorem acc4_step (c : Dev nD) (t : Fin cfg4.N) (h : ¬t.val % 25 = 0) :
    acc4 V c t.val t.isLt = k4_pay2 (grid4.coords t) (iblk4 V c 0 t) (iblk4 V c 2 t)
      (acc4 V c (t.val - 1) (Nat.lt_of_le_of_lt (Nat.sub_le _ _) t.isLt)) := by
  obtain ⟨n, hn⟩ := t
  cases n with
  | zero => exact absurd (Nat.zero_mod _) h
  | succ n => exact congrArg (k4_pay2 _ _ _) (if_neg h)

-- The body's update at point t of a scratch that, off the first node block, holds what the point before left.
theorem g4_upd_eq (c : Dev nD) (t : Fin cfg4.N) (d : Vec F S4096x16 .f32)
    (hd : ∀ h : ¬t.val % 25 = 0, d = acc4 V c (t.val - 1) (by omega)) :
    g4_upd (grid4.coords t) (iblk4 V c 0 t) (iblk4 V c 2 t) d = acc4 V c t.val t.isLt := by
  unfold g4_upd
  by_cases h : t.val % 25 = 0
  · rw [if_pos ((g4_hcond t).1.mpr h), acc4_reset V c t h]
  · rw [if_neg fun hc => h ((g4_hcond t).1.mp hc), hd h, acc4_step V c t h]

abbrev g4_scM : Memref sig .tc .vmem S4096x16 .f32 := Memref.whole cc4_scratch0

-- What the region holds between points, with P for the scratch.
abbrev g4_held (c : Dev nD) (P : sProp 𝕄) : sProp 𝕄 :=
  iprop(iprop(P ∗ Pipeline.scopedRestBut (Ix := Unit) (Name := ℕ) (U := UR sig nD τ) (Lvl := ℕ) (Val := Elt F) spec4 c [cc4_scratch0])
    ∗ (∃ r, prngReg c r))

-- Before point n the scratch holds something; off the first node block, what point n - 1 left.
def Phi4 (c : Dev nD) (n : ℕ) (h : n ≤ cfg4.N) : sProp 𝕄 :=
  iprop(∃ d, ⌜∀ hn : ¬n % 25 = 0, d = acc4 V c (n - 1) (by omega)⌝ ∗ g4_held c (owns c.tc g4_scM fullShare d))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (acc4 V c t.val t.isLt) (iblk4 V c 1 t)
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) :
    (dat4 V c).after 3 t = k4_pay3 (acc4 V c t.val t.isLt) (iblk4 V c 1 t) := by
  dsimp only [dat4]

-- On entry the region holds the same, the scratch at contents nothing names.
theorem g4_PhiA (c : Dev nD) :
    (Pipeline.ΦA spec4 c : sProp 𝕄) = g4_held c iprop(∃ d, owns c.tc g4_scM fullShare d) := by
  unfold Pipeline.ΦA; rw [scopedRest4_split]; simp only [owns_whole]; rfl

theorem g4_before (c : Dev nD) (t : Fin cfg4.N) :
    (∀ d, (dat4 V c).before 0 t d = iblk4 V c 0 t) ∧ (∀ d, (dat4 V c).before 1 t d = iblk4 V c 1 t)
      ∧ ∀ d, (dat4 V c).before 2 t d = iblk4 V c 2 t := by
  refine ⟨?_, ?_, ?_⟩ <;> intro d <;>
  exact ((dat4 V c).before_in_eq_fetched _ rfl (fun _ => rfl) (fun _ _ _ => rfl) (fun _ => rfl) t d).trans rfl

theorem g4_leaves_live (c : Dev nD) (t : Fin cfg4.N) (w : Fin cfg4.W) (h : cfg4.idle w (grid4.coords t) = false) :
    (dat4 V c).leavesExact w t = owns c.tc ((cfg4.win w).stage (cfg4.slots t w)) fullShare ((dat4 V c).after w t) := by
  unfold Dat.leavesExact; rw [h]

-- The output's buffer after the body: stored with the scaled sum at the last node block, else handed back as found.
theorem g4_leaves3 (c : Dev nD) (t : Fin cfg4.N) (d) :
    owns c.tc (st4_3 t) fullShare
        (if k4_cond2 (grid4.coords t) = 1#1 then k4_pay3 (acc4 V c t.val t.isLt) (iblk4 V c 1 t) else (dat4 V c).before 3 t d)
      ⊢ (dat4 V c).leavesExact 3 t := by
  by_cases h : k4_cond2 (grid4.coords t) = 1#1
  · rw [if_pos h, ← after4_3, g4_leaves_live V c t 3 (by show (!(_ == _)) = false; rw [h]; rfl)]
  · rw [if_neg h, Dat.leavesExact_idle (dat4 V c) 3 t
      (by show (!(_ == _)) = true; rw [beq_eq_false_iff_ne.mpr h]; rfl)
      (Bool.eq_false_iff.mpr fun hf => h ((g4_hcond t).2.mpr ((flush4_3 t).mp hf)))]
    iintro H; iexists d; iexact H

-- The body at any point: the invariant lends the scratch and takes it back at this point's accumulator.
theorem body_obligation4 (c : Dev nD) : BodyObligation (dat4 (F := F) V c) (defs₀ (F := F)) Variants.none () Set.univ := fun t => by
  rw [bigSep_W4, bigSep_W4]
  show iprop(Phi4 V c t.val (Nat.le_of_lt t.isLt) ∗ _ ∗ (∃ d, _) ∗ (∃ d, _) ∗ (∃ d, _) ∗ (∃ d, _))
    ⊢ wp _ _ _ (bodyAt4 t) fun _ => iprop(Phi4 V c (t.val + 1) t.isLt ∗ _ ∗ (dat4 V c).leavesExact 0 t
      ∗ (dat4 V c).leavesExact 1 t ∗ (dat4 V c).leavesExact 2 t ∗ (dat4 V c).leavesExact 3 t)
  simp only [(g4_before V c t).1, (g4_before V c t).2.1, (g4_before V c t).2.2]
  rw [g4_leaves_live V c t 0 rfl, g4_leaves_live V c t 1 rfl, g4_leaves_live V c t 2 rfl]
  unfold Phi4 g4_held
  iintro ⟨⟨%d, %hd, ⟨HS, HR⟩, Hg⟩, Ho, ⟨%d0, H0⟩, ⟨%d1, H1⟩, ⟨%d2, H2⟩, ⟨%d3, H3⟩⟩
  iapply (g4_run c (grid4.coords t) _ _ _ _ (Memref.isWhole_whole _)
    (iblk4 V c 0 t) (iblk4 V c 1 t) (iblk4 V c 2 t) ((dat4 V c).before 3 t d3) d Set.univ _)
  rw [g4_upd_eq V c t d hd]
  iframe H0 H1 H2 H3 HS
  iintro ⟨H0, H1, H2, H3, HS⟩
  isplitl [HS HR Hg]
  · iexists (acc4 V c t.val t.isLt); isplitr; · ipureintro; exact fun _ => rfl
    iframe HS HR Hg
  isplitl [Ho]; · iexact Ho
  isplitl [H0]; · iexact H0
  isplitl [H1]; · iexact H1
  isplitl [H2]; · iexact H2
  iapply (g4_leaves3 V c t d3); iexact H3

-- The entry state is the invariant before the first point, where it says nothing of the scratch's contents,
theorem hin4 (c : Dev nD) : (Pipeline.ΦA spec4 c : sProp 𝕄) ⊢ (dat4 V c).Φ 0 := by
  rw [g4_PhiA, show (dat4 V c).Φ 0 = Phi4 V c 0 (Nat.zero_le _) from rfl]; unfold Phi4 g4_held
  iintro ⟨⟨⟨%d, HS⟩, HR⟩, Hg⟩
  iexists d; isplitr; · ipureintro; exact fun hn => absurd (Nat.zero_mod _) hn
  iframe HS HR Hg

-- and the invariant after the last point gives the entry state back by forgetting them.
theorem hout4 (c : Dev nD) : (dat4 V c).Φ (Fin.last cfg4.N) ⊢ (Pipeline.ΦA spec4 c : sProp 𝕄) := by
  rw [g4_PhiA, show (dat4 V c).Φ (Fin.last cfg4.N) = Phi4 V c (Fin.last cfg4.N).val (Nat.le_of_lt_succ (Fin.last cfg4.N).isLt) from rfl]
  unfold Phi4 g4_held
  iintro ⟨%d, -, ⟨HS, HR⟩, Hg⟩
  iframe HR Hg
  iexists d; iexact HS

end Cert.KernelIdeal.Hand

end
-- ==== Proof.IdealScatter5.lean ====
import proofs.«128423_j81389630259984_1_alg».proof.Proof.Gen.KernelIdeal.Launch
import proofs.«128423_j81389630259984_1_alg».proof.Proof.Gen.KernelIdeal.Skeleton
import proofs.«128423_j81389630259984_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zeroOff5 : (![0, 0] : Fin 2 → Nat) = fun _ => 0 := funext fun a => by fin_cases a <;> rfl

-- After writes of which the last covers the whole shape, the buffer reads that last payload.
theorem read_writes_whole5 {S : Shape} {e : EltTy} {κ : Kind} {sp : Space} (v : View sig κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

-- The test "word n equals k", as the body's two conditionals spell it.
abbrev isAt5 (k : BitVec 32) (n : ℕ) : Prop :=
  Scalar.cmpi .ne (Scalar.extui (Scalar.cmpi .eq (BitVec.ofNat 32 n) k)) 0#32 = 1#1

abbrev cond5_0 (i : grid5.Coords) : Prop := isAt5 0#32 (i 1).val

-- The accumulator after the body: the update of what it held, or of zeros at the first edge block.
def upd5 (i : grid5.Coords) (x1 : Vec F S1x4096 .i32) (x0 : Vec F S4096x16 .bf16) (xs : Vec F S4000x16 .f32) : Vec F S4000x16 .f32 :=
  k5_pay2 i x1 x0 (if cond5_0 i then k5_pay1 else xs)

-- The inputs are only read, the accumulator ends at its update, the output is stored exactly when the second test holds.
theorem run5 (c : Dev nD) (i : grid5.Coords)
    {arg2 : Memref sig .tc .vmem S4096x16 .bf16} (harg2 : arg2.IsWhole) {arg3 : Memref sig .tc .vmem S1x4096 .i32} (harg3 : arg3.IsWhole)
    {arg4 : Memref sig .tc .vmem S4000x16 .f32} (harg4 : arg4.IsWhole) {arg5 : Memref sig .tc .vmem S4000x16 .f32} (harg5 : arg5.IsWhole)
    (x0 : Vec F S4096x16 .bf16) (x1 : Vec F S1x4096 .i32) (xi : Vec F S4000x16 .f32) (xs : Vec F S4000x16 .f32)
    (E : Set ℕ) (K : PUnit → sProp 𝕄) :
    iprop(owns c.tc arg2 fullShare x0 ∗ owns c.tc arg3 fullShare x1 ∗ owns c.tc arg4 fullShare xi
        ∗ owns c.tc arg5 fullShare xs
        ∗ (iprop(owns c.tc arg2 fullShare x0 ∗ owns c.tc arg3 fullShare x1
            ∗ owns c.tc arg4 fullShare (if k5_cond2 i = 1#1 then k5_pay3 (upd5 i x1 x0 xs) else xi)
            ∗ owns c.tc arg5 fullShare (upd5 i x1 x0 xs)) -∗ K ⟨⟩))
      ⊢ wp frame (wpE (defs₀ (F := F)) Variants.none c none) E (cc5__scatter_kernel i arg2 harg2 arg3 harg3 arg4 harg4 arg5 harg5) K := by
  simp only [cc5__scatter_kernel_eq_skeleton]; unfold cc5__scatter_kernel_skel owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  by_cases hc0 : cond5_0 i <;> by_cases hc2 : k5_cond2 i = 1#1 <;> (
    sl_exec (disch := first | exact hc0 | exact hc2)
    sl_step
    iapply Hk
    isplitl [H0]; swap; isplitl [H1]; swap; isplitl [H2]
    all_goals (
      iexists _; isplitr; swap; iassumption
      ipureintro; sl_unfold_words
      repeat first
        | rw [read_writes_whole5 _ _ zeroOff5] | rw [View.readCov_cons_toLoadRect] | rw [View.readAt_eq_ld] | rw [View.ld_unit_zero zeroOff5]
        | unfold upd5 | rw [if_pos hc0] | rw [if_neg hc0] | rw [if_pos hc2] | rw [if_neg hc2]
        | rw [Memref.IsWhole.read_unread]))

theorem tests5 : ∀ e : Fin 416, (isAt5 0#32 e.val ↔ e.val = 0) ∧ (isAt5 415#32 e.val ↔ e.val = 415) := by
  decide +kernel

-- At point t the two tests read the edge-block coordinate t % 416: the first block, the last.
theorem hcond5 (t : Fin cfg5.N) :
    (cond5_0 (grid5.coords t) ↔ t.val % 416 = 0) ∧ (k5_cond2 (grid5.coords t) = 1#1 ↔ t.val % 416 = 415) := by
  have h := tests5 ⟨t.val % 416, Nat.mod_lt _ (by decide)⟩
  show (isAt5 0#32 (t.val / grid5.stride 1 % 416) ↔ _) ∧ (isAt5 415#32 (t.val / grid5.stride 1 % 416) ↔ _)
  rw [show grid5.stride 1 = 1 from by decide, Nat.div_one]; exact h

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def acc5 (c : Dev nD) : (n : ℕ) → n < cfg5.N → Vec F S4000x16 .f32
  | 0, hn => k5_pay2 (grid5.coords ⟨0, hn⟩) (iblk5 V c 1 ⟨0, hn⟩) (iblk5 V c 0 ⟨0, hn⟩) (k5_pay1 (F := F))
  | n + 1, hn => k5_pay2 (grid5.coords ⟨n + 1, hn⟩) (iblk5 V c 1 ⟨n + 1, hn⟩) (iblk5 V c 0 ⟨n + 1, hn⟩)
      (if (n + 1) % 416 = 0 then k5_pay1 (F := F) else acc5 c n (Nat.lt_of_succ_lt hn))

theorem acc5_reset (c : Dev nD) (t : Fin cfg5.N) (h : t.val % 416 = 0) :
    acc5 V c t.val t.isLt = k5_pay2 (grid5.coords t) (iblk5 V c 1 t) (iblk5 V c 0 t) (k5_pay1 (F := F)) := by
  obtain ⟨_ | n, hn⟩ := t
  · rfl
  · exact congrArg (k5_pay2 _ _ _) (if_pos h)

theorem acc5_step (c : Dev nD) (t : Fin cfg5.N) (h : ¬t.val % 416 = 0) :
    acc5 V c t.val t.isLt = k5_pay2 (grid5.coords t) (iblk5 V c 1 t) (iblk5 V c 0 t)
      (acc5 V c (t.val - 1) (Nat.lt_of_le_of_lt (Nat.sub_le _ _) t.isLt)) := by
  obtain ⟨_ | n, hn⟩ := t
  · exact absurd (Nat.zero_mod _) h
  · exact congrArg (k5_pay2 _ _ _) (if_neg h)

-- The body's update at point t of an accumulator that, off the first edge block, holds what the point before left.
theorem upd5_eq (c : Dev nD) (t : Fin cfg5.N) (d : Vec F S4000x16 .f32)
    (hd : ∀ h : ¬t.val % 416 = 0, d = acc5 V c (t.val - 1) (by omega)) :
    upd5 (grid5.coords t) (iblk5 V c 1 t) (iblk5 V c 0 t) d = acc5 V c t.val t.isLt := by
  unfold upd5
  by_cases h : t.val % 416 = 0
  · rw [if_pos ((hcond5 t).1.mpr h), acc5_reset V c t h]
  · rw [if_neg fun hc => h ((hcond5 t).1.mp hc), hd h, acc5_step V c t h]

abbrev scM5 : Memref sig .tc .vmem S4000x16 .f32 := Memref.whole cc5_scratch0

-- What the region holds between points, with P for the accumulator's buffer.
abbrev held5 (c : Dev nD) (P : sProp 𝕄) : sProp 𝕄 :=
  iprop(iprop(P ∗ Pipeline.scopedRestBut (Ix := Unit) (Name := ℕ) (U := UR sig nD τ) (Lvl := ℕ) (Val := Elt F) spec5 c [cc5_scratch0])
    ∗ (∃ r, prngReg c r))

-- Before point n the accumulator holds something; off the first edge block, what point n - 1 left.
def Phi5 (c : Dev nD) (n : ℕ) (h : n ≤ cfg5.N) : sProp 𝕄 :=
  iprop(∃ d, ⌜∀ hn : ¬n % 416 = 0, d = acc5 V c (n - 1) (by omega)⌝ ∗ held5 c (owns c.tc scM5 fullShare d))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => k5_pay3 (acc5 V c t.val t.isLt)
  Φ t := Phi5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_2 (c : Dev nD) (t : Fin cfg5.N) : (dat5 V c).after 2 t = k5_pay3 (acc5 V c t.val t.isLt) := by
  dsimp only [dat5]

-- On entry the region holds the same, the accumulator's buffer at contents nothing names.
theorem PhiA5_eq (c : Dev nD) :
    (Pipeline.ΦA spec5 c : sProp 𝕄) = held5 c iprop(∃ d, owns c.tc scM5 fullShare d) := by
  unfold Pipeline.ΦA; rw [scopedRest5_split]; simp only [owns_whole]; rfl

theorem before5 (c : Dev nD) (t : Fin cfg5.N) :
    (∀ d, (dat5 V c).before 0 t d = iblk5 V c 0 t) ∧ ∀ d, (dat5 V c).before 1 t d = iblk5 V c 1 t := by
  constructor <;> intro d <;>
  exact ((dat5 V c).before_in_eq_fetched _ rfl (fun _ => rfl) (fun _ _ _ => rfl)
    (fun t => by dsimp only [dat5]; unfold Dat.blockOf iblk5; try rfl) t d).trans
    (by unfold Dat.fetched Dat.blockOf iblk5; rw [A_eq5]; try rfl)

theorem leaves5_live (c : Dev nD) (t : Fin cfg5.N) (w : Fin cfg5.W) (h : cfg5.idle w (grid5.coords t) = false) :
    (dat5 V c).leavesExact w t = owns c.tc ((cfg5.win w).stage (cfg5.slots t w)) fullShare ((dat5 V c).after w t) := by
  unfold Dat.leavesExact; rw [h]

-- The output's buffer after the body: stored with the epilogue at the last edge block, else handed back as found.
theorem leaves5_2 (c : Dev nD) (t : Fin cfg5.N) (d) :
    owns c.tc (st5_2 t) fullShare
        (if k5_cond2 (grid5.coords t) = 1#1 then k5_pay3 (acc5 V c t.val t.isLt) else (dat5 V c).before 2 t d)
      ⊢ (dat5 V c).leavesExact 2 t := by
  by_cases h : k5_cond2 (grid5.coords t) = 1#1
  · rw [if_pos h, ← after5_2, leaves5_live V c t 2 (by show (!(_ == _)) = false; rw [h]; rfl)]
  · rw [if_neg h, Dat.leavesExact_idle (dat5 V c) 2 t
      (by show (!(_ == _)) = true; rw [beq_eq_false_iff_ne.mpr h]; rfl)
      (Bool.eq_false_iff.mpr fun hf => h ((hcond5 t).2.mpr ((flush5_2 t).mp hf)))]
    iintro H; iexists d; iexact H

-- The body at any point: the invariant lends the accumulator and takes it back at this point's contents.
theorem body_obligation5 (c : Dev nD) : BodyObligation (dat5 (F := F) V c) (defs₀ (F := F)) Variants.none () Set.univ := fun t => by
  rw [bigSep_W5, bigSep_W5]
  show iprop(Phi5 V c t.val (Nat.le_of_lt t.isLt) ∗ _ ∗ (∃ d, _) ∗ (∃ d, _) ∗ (∃ d, _))
    ⊢ wp _ _ _ (bodyAt5 t) fun _ => iprop(Phi5 V c (t.val + 1) t.isLt ∗ _
      ∗ (dat5 V c).leavesExact 0 t ∗ (dat5 V c).leavesExact 1 t ∗ (dat5 V c).leavesExact 2 t)
  simp only [(before5 V c t).1, (before5 V c t).2]
  rw [leaves5_live V c t 0 rfl, leaves5_live V c t 1 rfl]
  unfold Phi5 held5
  iintro ⟨⟨%d, %hd, ⟨HS, HR⟩, Hg⟩, Ho, ⟨%d0, H0⟩, ⟨%d1, H1⟩, ⟨%d2, H2⟩⟩
  iapply (run5 c (grid5.coords t) (hstage5_0 _) (hstage5_1 _) (hstage5_2 _) (Memref.isWhole_whole _)
    (iblk5 V c 0 t) (iblk5 V c 1 t) ((dat5 V c).before 2 t d2) d Set.univ _)
  rw [upd5_eq V c t d hd]
  iframe H0 H1 H2 HS
  iintro ⟨H0, H1, H2, HS⟩
  isplitl [HS HR Hg]
  · iexists (acc5 V c t.val t.isLt); isplitr; · ipureintro; exact fun _ => rfl
    iframe HS HR Hg
  isplitl [Ho]; · iexact Ho
  isplitl [H0]; · iexact H0
  isplitl [H1]; · iexact H1
  iapply (leaves5_2 V c t d2); iexact H2

-- The entry state is the invariant before the first point, where it says nothing of the accumulator's contents,
theorem hin5 (c : Dev nD) : (Pipeline.ΦA spec5 c : sProp 𝕄) ⊢ (dat5 V c).Φ 0 := by
  rw [PhiA5_eq, show (dat5 V c).Φ 0 = Phi5 V c 0 (Nat.zero_le _) from rfl]; unfold Phi5 held5
  iintro ⟨⟨⟨%d, HS⟩, HR⟩, Hg⟩
  iexists d; isplitr; · ipureintro; exact fun hn => absurd (Nat.zero_mod _) hn
  iframe HS HR Hg

-- and the invariant after the last point gives the entry state back by forgetting them.
theorem hout5 (c : Dev nD) : (dat5 V c).Φ (Fin.last cfg5.N) ⊢ (Pipeline.ΦA spec5 c : sProp 𝕄) := by
  rw [PhiA5_eq, show (dat5 V c).Φ (Fin.last cfg5.N) = Phi5 V c (Fin.last cfg5.N).val (Nat.le_of_lt_succ (Fin.last cfg5.N).isLt) from rfl]
  unfold Phi5 held5
  iintro ⟨%d, -, ⟨HS, HR⟩, Hg⟩
  iframe HR Hg
  iexists d; iexact HS

end Cert.KernelIdeal.Hand

end
-- ==== Proof.IdealRun.lean ====
import proofs.«128423_j81389630259984_1_alg».proof.Proof.IdealDense0
import proofs.«128423_j81389630259984_1_alg».proof.Proof.IdealGather1
import proofs.«128423_j81389630259984_1_alg».proof.Proof.IdealScatter2
import proofs.«128423_j81389630259984_1_alg».proof.Proof.IdealDense3
import proofs.«128423_j81389630259984_1_alg».proof.Proof.IdealGather4
import proofs.«128423_j81389630259984_1_alg».proof.Proof.IdealScatter5
import proofs.«128423_j81389630259984_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rd (W : Dev nD → Valuation τ sig (Elt F)) (c : Dev nD) (b : Ref sig .tc) : Buf (Elt F) ((c : Thread nD τ).loc b) := W c b

abbrev W3 : Dev nD → Valuation τ sig (Elt F) := fun c => Gen.V3 m c
abbrev U3 := rd (W3 m)

def W4 (c : Dev nD) : Valuation τ sig (Elt F) :=
  Pipeline.withArrays spec0 c (W3 m c) fun w => (dat0 (U3 m) c).arrAt w cfg0.N
theorem W4_arr (c : Dev nD) (w : Fin cfg0.W) :
    W4 m c (Proc.devRef .tc (Pipeline.arrRef spec0 w)) = (dat0 (U3 m) c).arrAt w cfg0.N :=
  Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) :=
  Pipeline.withArrays_of_ne spec0 c _ _ b hb
abbrev U4 := rd (W4 m)

def W5 (c : Dev nD) : Valuation τ sig (Elt F) :=
  Pipeline.withArrays spec1 c (W4 m c) fun w => (dat1 (U4 m) c).arrAt w cfg1.N
theorem W5_arr (c : Dev nD) (w : Fin cfg1.W) :
    W5 m c (Proc.devRef .tc (Pipeline.arrRef spec1 w)) = (dat1 (U4 m) c).arrAt w cfg1.N :=
  Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) :=
  Pipeline.withArrays_of_ne spec1 c _ _ b hb
abbrev U5 := rd (W5 m)

def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N :=
  Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) :=
  Pipeline.withArrays_of_ne spec2 c _ _ b hb
abbrev U6 := rd (W6 m)

def W7 (c : Dev nD) : Valuation τ sig (Elt F) :=
  Pipeline.withArrays spec3 c (W6 m c) fun w => (dat3 (U6 m) c).arrAt w cfg3.N
theorem W7_arr (c : Dev nD) (w : Fin cfg3.W) :
    W7 m c (Proc.devRef .tc (Pipeline.arrRef spec3 w)) = (dat3 (U6 m) c).arrAt w cfg3.N :=
  Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) :=
  Pipeline.withArrays_of_ne spec3 c _ _ b hb
abbrev U7 := rd (W7 m)

def W8 (c : Dev nD) : Valuation τ sig (Elt F) :=
  Pipeline.withArrays spec4 c (W7 m c) fun w => (dat4 (U7 m) c).arrAt w cfg4.N
theorem W8_arr (c : Dev nD) (w : Fin cfg4.W) :
    W8 m c (Proc.devRef .tc (Pipeline.arrRef spec4 w)) = (dat4 (U7 m) c).arrAt w cfg4.N :=
  Pipeline.withArrays_arr spec4 launch4.win.arr_inj c _ _ w
theorem W8_of_ne (c : Dev nD) (b : Ref sig .tc) (hb : ∀ w, Pipeline.arrRef spec4 w ≠ b) :
    W8 m c (Proc.devRef .tc b) = W7 m c (Proc.devRef .tc b) :=
  Pipeline.withArrays_of_ne spec4 c _ _ b hb
abbrev U8 := rd (W8 m)

def W9 (c : Dev nD) : Valuation τ sig (Elt F) :=
  Pipeline.withArrays spec5 c (W8 m c) fun w => (dat5 (U8 m) c).arrAt w cfg5.N
theorem W9_arr (c : Dev nD) (w : Fin cfg5.W) :
    W9 m c (Proc.devRef .tc (Pipeline.arrRef spec5 w)) = (dat5 (U8 m) c).arrAt w cfg5.N :=
  Pipeline.withArrays_arr spec5 launch5.win.arr_inj c _ _ w
theorem W9_of_ne (c : Dev nD) (b : Ref sig .tc) (hb : ∀ w, Pipeline.arrRef spec5 w ≠ b) :
    W9 m c (Proc.devRef .tc b) = W8 m c (Proc.devRef .tc b) :=
  Pipeline.withArrays_of_ne spec5 c _ _ b hb

abbrev adm : (p : Fin 6) → (pcfgs (F := F) p).Adm := fun p => (cfgs p).toPCfg_adm
def pdats : (p : Fin 6) → (c : Dev nD) → Dat τ (Elt F) Unit ℕ (UR sig nD τ) ℕ (Pipeline.pin (pcfgs (F := F)) adm p) c
  | ⟨0, _⟩ => fun c => dat0 (U3 m) c
  | ⟨1, _⟩ => fun c => dat1 (U4 m) c
  | ⟨2, _⟩ => fun c => dat2 (U5 m) c
  | ⟨3, _⟩ => fun c => dat3 (U6 m) c
  | ⟨4, _⟩ => fun c => dat4 (U7 m) c
  | ⟨5, _⟩ => fun c => dat5 (U8 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m c) ∗ ∃ r, prngReg c r)

set_option backward.isDefEq.respectTransparency.types false in
/-- One region's record, generic in the region: only the contents before (`Wi`) and after (`Wo`) change from region to region. -/
def reg (p : Fin 6) (lf : Pipeline.LaunchFacts (nD := nD) (τ := τ) cfgs p) (Wi Wo : Dev nD → Valuation τ sig (Elt F))
    (hb : ∀ c, BodyObligation (pdats m p c) (defs₀ (F := F)) 𝒱₀ () Set.univ)
    (hq : ∀ c w, (pdats m p c).q w = fullShare) (howed : ∀ c t, (pdats m p c).owed t = 0)
    (hrec : ∀ c, (pdats m p c).recorded 0 = Set.univ)
    (hA : ∀ c w, (pdats m p c).A w = rd Wi c (Pipeline.arrRef (cfgs p).spec w))
    (harr : ∀ c w, Wo c (Proc.devRef .tc (Pipeline.arrRef (cfgs p).spec w)) = (pdats m p c).arrAt w (cfgs p).N)
    (hne : ∀ c (b : Ref sig .tc), (∀ w, Pipeline.arrRef (cfgs p).spec w ≠ b) → Wo c (Proc.devRef .tc b) = Wi c (Proc.devRef .tc b))
    (hi : ∀ c, (Pipeline.ΦA (cfgs p).spec c : sProp 𝕄) ⊢ (pdats m p c).Φ 0)
    (ho : ∀ c, (pdats m p c).Φ (Fin.last (cfgs p).N) ⊢ (Pipeline.ΦA (cfgs p).spec c : sProp 𝕄)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (rd Wi c)
  hentry c := by
    rw [Pipeline.ownSems0_none]
    have hsplit := Pipeline.arrays_of_unscopedBufs (p := p) (pcfgs (F := F)) adm (pdats m) lf.win lf.arr_whole c
      ((pdats m p c).share_full (hq c)) (rd Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c]; trivial)
      iexact HO
    isplitl [Hp]; · iexact Hp
    iexact Hrest
  hin c := by
    refine BI.Entails.trans ?_ (hi c)
    show _ ⊢ (Pipeline.ΦA (cfgs p).spec c : sProp 𝕄)
    unfold Pipeline.ΦA
    iintro ⟨Hp, -, Hr⟩
    isplitl [Hr]; · iexact Hr
    iexact Hp
  hout c := by
    rw [Pipeline.ownSems0_none]
    refine BI.Entails.trans (ho c) ?_
    show (Pipeline.ΦA (cfgs p).spec c : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (rd Wi c) (rd Wo c) ((pdats m p c).arrAt · (cfgs p).N) (fun w => (harr c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .region (reg m 0 launch0 (W3 m) (W4 m) (body_obligation0 (U3 m)) (fun _ _ => rfl) (fun _ _ => rfl) (fun _ => rfl) (fun _ _ => rfl) (W4_arr m) (W4_of_ne m) (hin0 (U3 m)) (hout0 (U3 m))),
    .region (reg m 1 launch1 (W4 m) (W5 m) (body_obligation1 (U4 m)) (fun _ _ => rfl) (fun _ _ => rfl) (fun _ => rfl) (fun _ _ => rfl) (W5_arr m) (W5_of_ne m) (hin1 (U4 m)) (hout1 (U4 m))),
    .region (reg m 2 launch2 (W5 m) (W6 m) (body_obligation2 (U5 m)) (fun _ _ => rfl) (fun _ _ => rfl) (fun _ => rfl) (fun _ _ => rfl) (W6_arr m) (W6_of_ne m) (hin2 (U5 m)) (hout2 (U5 m))),
    .region (reg m 3 launch3 (W6 m) (W7 m) (body_obligation3 (U6 m)) (fun _ _ => rfl) (fun _ _ => rfl) (fun _ => rfl) (fun _ _ => rfl) (W7_arr m) (W7_of_ne m) (hin3 (U6 m)) (hout3 (U6 m))),
    .region (reg m 4 launch4 (W7 m) (W8 m) (body_obligation4 (U7 m)) (fun _ _ => rfl) (fun _ _ => rfl) (fun _ => rfl) (fun _ _ => rfl) (W8_arr m) (W8_of_ne m) (hin4 (U7 m)) (hout4 (U7 m))),
    .region (reg m 5 launch5 (W8 m) (W9 m) (body_obligation5 (U8 m)) (fun _ _ => rfl) (fun _ _ => rfl) (fun _ => rfl) (fun _ _ => rfl) (W9_arr m) (W9_of_ne m) (hin5 (U8 m)) (hout5 (U8 m))) ]
theorem main_run (c : Dev nD) : main (F := F) c = Pipeline.Seg.run (segs m) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

theorem V3_main_arg (b : Ref sig .tc) (h1 : b ∉ hostOps0_W) (h2 : b ∉ hostOps0_1_W) (h3 : b ∉ hostOps0_2_W) (c : Dev nD) :
    W3 m c (Proc.devRef .tc b) = m ((c : Thread nD τ).loc b) :=
  (V3_of m c b h3).trans <| (V2_of m c b h2).trans <| (V1_of m c b h1).trans rfl

/-- An argument array that no operation and no region writes ends as launched; the two dense products read some of them. -/
theorem kept (b : Ref sig .tc) (c : Dev nD) (e0 : W4 m c (Proc.devRef .tc b) = W3 m c (Proc.devRef .tc b))
    (e3 : W7 m c (Proc.devRef .tc b) = W6 m c (Proc.devRef .tc b))
    (h1 : ∀ w, Pipeline.arrRef spec1 w ≠ b) (h2 : ∀ w, Pipeline.arrRef spec2 w ≠ b)
    (h4 : ∀ w, Pipeline.arrRef spec4 w ≠ b) (h5 : ∀ w, Pipeline.arrRef spec5 w ≠ b)
    (g0 : b ∉ hostOps0_W) (g1 : b ∉ hostOps0_1_W) (g2 : b ∉ hostOps0_2_W) :
    W9 m c (Proc.devRef .tc b) = m ((c : Thread nD τ).loc b) :=
  (W9_of_ne m c b h5).trans <| (W8_of_ne m c b h4).trans <| e3.trans <| (W6_of_ne m c b h2).trans <|
    (W5_of_ne m c b h1).trans <| e0.trans (V3_main_arg m b g0 g1 g2 c)

theorem run_result : θ_run defs (onTc (τ := τ) (main (F := F))) ⟨m, fun _ => 0, ρ⟩ (fun r => ∀ c : Dev nD,
      r.2.mem ((c.tc : Thread nD τ).loc main_v46) = W9 m c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v46 (by decide)),
     (h c _ (mem_uc main_arg0 (by decide))).trans (kept m main_arg0 c
       ((W4_arr m c 0).trans (((dat0 (U3 m) c).arrAt_in 0 rfl _).trans (A_eq0 (U3 m) c 0))) (W7_of_ne m c _ (by decide))
       (by decide) (by decide) (by decide) (by decide) (by decide) (by decide) (by decide)),
     (h c _ (mem_uc main_arg1 (by decide))).trans (kept m main_arg1 c (W4_of_ne m c _ (by decide)) (W7_of_ne m c _ (by decide))
       (by decide) (by decide) (by decide) (by decide) (by decide) (by decide) (by decide)),
     (h c _ (mem_uc main_arg2 (by decide))).trans (kept m main_arg2 c (W4_of_ne m c _ (by decide)) (W7_of_ne m c _ (by decide))
       (by decide) (by decide) (by decide) (by decide) (by decide) (by decide) (by decide)),
     (h c _ (mem_uc main_arg3 (by decide))).trans (kept m main_arg3 c
       ((W4_arr m c 1).trans (((dat0 (U3 m) c).arrAt_in 1 rfl _).trans (A_eq0 (U3 m) c 1))) (W7_of_ne m c _ (by decide))
       (by decide) (by decide) (by decide) (by decide) (by decide) (by decide) (by decide)),
     (h c _ (mem_uc main_arg4 (by decide))).trans (kept m main_arg4 c (W4_of_ne m c _ (by decide))
       ((W7_arr m c 1).trans (((dat3 (U6 m) c).arrAt_in 1 rfl _).trans (A_eq3 (U6 m) c 1)))
       (by decide) (by decide) (by decide) (by decide) (by decide) (by decide) (by decide))⟩) (run_all m ρ)

end Cert.KernelIdeal.Hand

end
-- ==== Proof.LibColumnLayout.lean ====
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnLayout
-- ==== Proof.LibDenseLayer.lean ====
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«128423_j81389630259984_1_alg».proof.Proof.LibColumnLayout

noncomputable section

namespace Cert.DenseLayer

open Idealize.ShloMosaic Idealize.ShloMosaic.ValueIdx

abbrev Mat (p q : ℕ) : Type := (⟨2, ![p, q]⟩ : Shape).Idx → EReal

variable {a K N : ℕ}

def prodRow (x : Mat a K) (w : Mat K N) (r : Fin a) : Fin N → EReal :=
  fun q => ∑ k : Fin K, x (ix2 r k) * w (ix2 k q)

theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

def rowTop (z : Fin N → EReal) : EReal :=
  max (Ideal.ofBits .f32 0xFF800000#32) (Finset.univ.fold max (Ideal.ofBits .f32 0xFF800000#32) z)

structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

end VectorSoftmax

end Cert.DenseLayer

end
-- ==== Proof.LibPropagationChain.lean ====
import Idealize.ShloMosaic.Lib.Pipeline.Value
import Idealize.ShloMosaic.Lib.ValueIdx
import Idealize.ShloMosaic.Lib.ValueLayout
import Idealize.ShloMosaic.PureOps.Ideal.Laws
import proofs.«128423_j81389630259984_1_alg».proof.Proof.LibDenseLayer

noncomputable section

namespace Cert.PropagationChain

open Idealize.ShloMosaic Idealize.ShloMosaic.ValueIdx Cert.DenseLayer

variable {n J K N : ℕ}

theorem neg_inf_word : Ideal.ofBits .f32 0xFF800000#32 = (⊥ : EReal) := by simp [Ideal.ofBits, Ideal.ieee]

def rowFold (z : Fin N → EReal) : EReal := Finset.univ.fold max (Ideal.ofBits .f32 0xFF800000#32) z

theorem rowTop_eq_rowFold (z : Fin N → EReal) : rowTop z = rowFold z := by
  unfold rowTop rowFold
  rw [neg_inf_word]
  exact max_eq_right bot_le

end Cert.PropagationChain

end
-- ==== Proof.Spec.lean ====
import Idealize.ShloMosaic.PureOps.Ideal
import Idealize.ShloMosaic.Lib.ValueIdx
import proofs.«128423_j81389630259984_1_alg».proof.Proof.LibPropagationChain

noncomputable section

namespace Cert.GcnSpec

open Idealize.ShloMosaic Idealize.ShloMosaic.ValueIdx Cert.DenseLayer Cert.PropagationChain

abbrev NN : ℕ := 100000

abbrev ET : ℕ := 1700000

def InRange (rw : Fin ET → BitVec 32) : Prop := ∀ e, 0 ≤ (rw e).toInt ∧ (rw e).toInt < (NN : ℤ)

def src (rw : Fin ET → BitVec 32) (h : InRange rw) (e : Fin ET) : Fin NN :=
  ⟨(rw e).toInt.toNat, by have := h e; omega⟩

variable {C K : ℕ}

def dense (A : Mat NN K) (W : Mat K C) : Mat NN C := fun i => prodRow A W (i 0) (i 1)

def msg (H : Mat NN C) (rw : Fin ET → BitVec 32) (h : InRange rw) (nrm : Fin ET → EReal) : Mat ET C :=
  fun j => H (ix2 (src rw h (j 0)) (j 1)) * nrm (j 0)

def agg (M : Mat ET C) (cw : Fin ET → BitVec 32) : Mat NN C :=
  fun i => ∑ e ∈ Finset.univ.filter (fun e : Fin ET => (cw e).toInt = ((i 0).val : ℤ)), M (ix2 e (i 1))

def round (H : Mat NN C) (rw cw : Fin ET → BitVec 32) (h : InRange rw) (nrm : Fin ET → EReal) : Mat NN C :=
  agg (msg H rw h nrm) cw

def clamp0 (A : Mat NN C) : Mat NN C := fun i => max (A i) (Ideal.ofBits .f32 0x00000000#32)

def rowLogSoftmax (A : Mat NN C) : Mat NN C := fun i =>
  (A i - rowFold (fun k => A (ix2 (i 0) k)))
    - Ideal.log (∑ j : Fin C, Ideal.exp (A (ix2 (i 0) j) - rowFold (fun k => A (ix2 (i 0) k))))

def net (X : Mat NN 128) (W1 : Mat 128 64) (W2 : Mat 64 16) (rw cw : Fin ET → BitVec 32) (h : InRange rw)
    (nrm : Fin ET → EReal) : Mat NN 16 :=
  rowLogSoftmax (round (dense (clamp0 (round (dense X W1) rw cw h nrm)) W2) rw cw h nrm)

end Cert.GcnSpec

end
-- ==== Proof.ValDense.lean ====
import proofs.«128423_j81389630259984_1_alg».proof.Proof.IdealDense0
import proofs.«128423_j81389630259984_1_alg».proof.Proof.IdealDense3
import proofs.«128423_j81389630259984_1_alg».proof.Proof.Spec
import proofs.«128423_j81389630259984_1_alg».proof.Proof.LibDenseLayer
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.DenseLayer

theorem lhs_dense0_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_dense0_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_dense0_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_dense0_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

theorem plainDot0 : PlainDot (a := 5000) (K := 128) (N := 64) dot_S5000x128_S128x64_S5000x64_1_0_0_1_n_n where
  rank := rfl
  size := rfl
  lhs0 := lhs_dense0_0
  lhs1 := lhs_dense0_1
  rhs0 := rhs_dense0_0
  rhs1 := rhs_dense0_1

theorem pay0_apply (x0 : Vec Ideal S5000x128 .f32) (x1 : Vec Ideal S128x64 .f32) (i : S5000x64.Idx) :
    k0_pay1 (F := Ideal) x0 x1 i = prodRow (a := 5000) (K := 128) (N := 64) x0 x1 (i 0) (i 1) := by
  unfold k0_pay1
  exact matmul_zero_apply plainDot0 none _ _ i

variable (V : (c : Dev nD) → (b : Ref sig .tc) → Buf (Elt Ideal) ((c : Thread nD τ).loc b))

theorem dense0_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem dense0_weights (c : Dev nD) (t : Fin cfg0.N) : iblk0 V c 1 t = V c main_arg3 := by
  obtain ⟨-, -, e2, e3, -, -⟩ := dense0_index t
  funext j
  show V c main_arg3 (((cfg0.win 1).blk t).view.emb j) = V c main_arg3 j
  refine congrArg _ (funext fun a => Fin.ext ?_)
  match a with
  | ⟨0, _⟩ => show win0_1.index t (0 : Fin 2) * 128 + 1 * (j 0).val = (j 0).val; omega
  | ⟨1, _⟩ => show win0_1.index t (1 : Fin 2) * 64 + 1 * (j 1).val = (j 1).val; omega

theorem dense0_flushed (c : Dev nD) (t : Fin cfg0.N) :
    (dat0 (F := Ideal) V c).flushed 2 t
      = ((cfg0.win 2).blk t).view.read (Elt Ideal) (Cert.GcnSpec.dense (V c main_arg0) (V c main_arg3)) := by
  show (cfg0.win 2).cut (grid0.coords t) ((dat0 V c).after 2 t) = _
  rw [after0_2]
  unfold out0_2
  rw [dense0_weights]
  obtain ⟨e0, e1, -, -, e4, e5⟩ := dense0_index t
  funext y
  show k0_pay1 (F := Ideal) (iblk0 V c 0 t) (V c main_arg3) y
    = Cert.GcnSpec.dense (V c main_arg0) (V c main_arg3) (((cfg0.win 2).blk t).view.emb y)
  rw [pay0_apply]
  unfold Cert.GcnSpec.dense

  have hq : (((cfg0.win 2).blk t).view.emb y) 1 = y 1 := Fin.ext (by
    show win0_2.index t (1 : Fin 2) * 64 + 1 * (y 1).val = (y 1).val; omega)
  rw [hq]

  refine congrFun (prodRow_congr (a := 5000) (a' := 100000) (K := 128) (N := 64) (iblk0 V c 0 t) (V c main_arg0) (V c main_arg3)
    (y 0) ((((cfg0.win 2).blk t).view.emb y) 0) fun k => ?_) (y 1)
  show V c main_arg0 (((cfg0.win 0).blk t).view.emb (ix2 (y 0) k)) = V c main_arg0 (ix2 ((((cfg0.win 2).blk t).view.emb y) 0) k)
  refine congrArg _ (funext fun a => Fin.ext ?_)
  match a with
  | ⟨0, _⟩ => show win0_0.index t (0 : Fin 2) * 5000 + 1 * (y 0).val = win0_2.index t (0 : Fin 2) * 5000 + 1 * (y 0).val; omega
  | ⟨1, _⟩ => show win0_0.index t (1 : Fin 2) * 128 + 1 * k.val = k.val; omega

theorem dense0_mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v41).slice (win0_2.rect t)).set ↔ _
  rw [View.set_slice_whole, Rect.mem_set_unit]
  exact Iff.rfl

theorem dense0_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have ht : (i 0).val / 5000 < 20 := by omega
  obtain ⟨-, -, -, -, e4, e5⟩ := dense0_index ⟨(i 0).val / 5000, ht⟩
  refine ⟨⟨(i 0).val / 5000, ht⟩, flush0_2 _, ?_⟩
  rw [dense0_mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [e5]; omega

theorem dense0_final (c : Dev nD) :
    (dat0 (F := Ideal) V c).arrAt 2 cfg0.N = Cert.GcnSpec.dense (V c main_arg0) (V c main_arg3) :=
  (dat0 V c).arrAt_eq_of_cover 2 _ (fun t _ => dense0_flushed V c t) dense0_cover

theorem lhs_dense3_0 (i : S5000x16.Idx) (q : dot_S5000x64_S64x16_S5000x16_1_0_0_1_n_n.contr.Idx) :
    (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
theorem lhs_dense3_1 (i : S5000x16.Idx) (q : dot_S5000x64_S64x16_S5000x16_1_0_0_1_n_n.contr.Idx) :
    (dot_S5000x64_S64x16_S5000x16_1_0_0_1_n_n.lhsIdx i q 1).val = (q ⟨0, by decide⟩).val :=
  dot_S5000x64_S64x16_S5000x16_1_0_0_1_n_n.lhsIdx_val_of_single rfl i q
theorem rhs_dense3_0 (i : S5000x16.Idx) (q : dot_S5000x64_S64x16_S5000x16_1_0_0_1_n_n.contr.Idx) :
    (dot_S5000x64_S64x16_S5000x16_1_0_0_1_n_n.rhsIdx i q 0).val = (q ⟨0, by decide⟩).val :=
  dot_S5000x64_S64x16_S5000x16_1_0_0_1_n_n.rhsIdx_val_of_single rfl i q
theorem rhs_dense3_1 (i : S5000x16.Idx) (q : dot_S5000x64_S64x16_S5000x16_1_0_0_1_n_n.contr.Idx) :
    (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl

theorem plainDot3 : PlainDot (a := 5000) (K := 64) (N := 16) dot_S5000x64_S64x16_S5000x16_1_0_0_1_n_n where
  rank := rfl
  size := rfl
  lhs0 := lhs_dense3_0
  lhs1 := lhs_dense3_1
  rhs0 := rhs_dense3_0
  rhs1 := rhs_dense3_1

theorem pay3_apply (x0 : Vec Ideal S5000x64 .bf16) (x1 : Vec Ideal S64x16 .f32) (i : S5000x16.Idx) :
    k3_pay1 (F := Ideal) x0 x1 i = prodRow (a := 5000) (K := 64) (N := 16) x0 x1 (i 0) (i 1) := by
  unfold k3_pay1
  rw [shapeCast_self]
  exact matmul_zero_apply (φ₁ := .bf16) plainDot3 none x0 _ i

theorem dense3_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem dense3_weights (c : Dev nD) (t : Fin cfg3.N) : iblk3 V c 1 t = V c main_arg4 := by
  obtain ⟨-, -, e2, e3, -, -⟩ := dense3_index t
  funext j
  show V c main_arg4 (((cfg3.win 1).blk t).view.emb j) = V c main_arg4 j
  refine congrArg _ (funext fun a => Fin.ext ?_)
  match a with
  | ⟨0, _⟩ => show win3_1.index t (0 : Fin 2) * 64 + 1 * (j 0).val = (j 0).val; omega
  | ⟨1, _⟩ => show win3_1.index t (1 : Fin 2) * 16 + 1 * (j 1).val = (j 1).val; omega

theorem dense3_flushed (c : Dev nD) (t : Fin cfg3.N) :
    (dat3 (F := Ideal) V c).flushed 2 t
      = ((cfg3.win 2).blk t).view.read (Elt Ideal) (Cert.GcnSpec.dense (V c main_v43) (V c main_arg4)) := by
  show (cfg3.win 2).cut (grid3.coords t) ((dat3 V c).after 2 t) = _
  rw [after3_2]
  unfold out3_2
  rw [dense3_weights]
  obtain ⟨e0, e1, -, -, e4, e5⟩ := dense3_index t
  funext y
  show k3_pay1 (F := Ideal) (iblk3 V c 0 t) (V c main_arg4) y
    = Cert.GcnSpec.dense (V c main_v43) (V c main_arg4) (((cfg3.win 2).blk t).view.emb y)
  rw [pay3_apply]
  unfold Cert.GcnSpec.dense

  have hq : (((cfg3.win 2).blk t).view.emb y) 1 = y 1 := Fin.ext (by
    show win3_2.index t (1 : Fin 2) * 16 + 1 * (y 1).val = (y 1).val; omega)
  rw [hq]

  refine congrFun (prodRow_congr (a := 5000) (a' := 100000) (K := 64) (N := 16) (iblk3 V c 0 t) (V c main_v43) (V c main_arg4)
    (y 0) ((((cfg3.win 2).blk t).view.emb y) 0) fun k => ?_) (y 1)
  show V c main_v43 (((cfg3.win 0).blk t).view.emb (ix2 (y 0) k)) = V c main_v43 (ix2 ((((cfg3.win 2).blk t).view.emb y) 0) k)
  refine congrArg _ (funext fun a => Fin.ext ?_)
  match a with
  | ⟨0, _⟩ => show win3_0.index t (0 : Fin 2) * 5000 + 1 * (y 0).val = win3_2.index t (0 : Fin 2) * 5000 + 1 * (y 0).val; omega
  | ⟨1, _⟩ => show win3_0.index t (1 : Fin 2) * 64 + 1 * k.val = k.val; omega

theorem dense3_mem_blk (t : Fin cfg3.N) (i : S100000x16.Idx) :
    i ∈ ((cfg3.win 2).blk t).view.set ↔ ∀ a : Fin 2, win3_2.index t a * S5000x16.size a ≤ (i a).val ∧ (i a).val < win3_2.index t a * S5000x16.size a + S5000x16.size a := by
  show i ∈ ((View.whole main_v44).slice (win3_2.rect t)).set ↔ _
  rw [View.set_slice_whole, Rect.mem_set_unit]
  exact Iff.rfl

theorem dense3_cover (i : S100000x16.Idx) :
    ∃ t : Fin cfg3.N, (cfg3.win 2).flush t = true ∧ i ∈ ((cfg3.win 2).blk t).view.set := by
  have hi0 : (i 0).val < 100000 := (i 0).isLt
  have hi1 : (i 1).val < 16 := (i 1).isLt
  have ht : (i 0).val / 5000 < 20 := by omega
  obtain ⟨-, -, -, -, e4, e5⟩ := dense3_index ⟨(i 0).val / 5000, ht⟩
  refine ⟨⟨(i 0).val / 5000, ht⟩, flush3_2 _, ?_⟩
  rw [dense3_mem_blk]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 16 ≤ (i 1).val ∧ (i 1).val < win3_2.index ⟨(i 0).val / 5000, ht⟩ (1 : Fin 2) * 16 + 16
    rw [e5]; omega

theorem dense3_final (c : Dev nD) :
    (dat3 (F := Ideal) V c).arrAt 2 cfg3.N = Cert.GcnSpec.dense (V c main_v43) (V c main_arg4) :=
  (dat3 V c).arrAt_eq_of_cover 2 _ (fun t _ => dense3_flushed V c t) dense3_cover

end Cert.KernelIdeal.Hand

end
-- ==== Proof.ValGather.lean ====
import proofs.«128423_j81389630259984_1_alg».proof.Proof.IdealGather1
import proofs.«128423_j81389630259984_1_alg».proof.Proof.Spec
import proofs.«128423_j81389630259984_1_alg».proof.Proof.LibDenseLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.DenseLayer

def nodeWord (nb j : ℕ) : BitVec 32 := Scalar.muli (BitVec.ofNat 32 nb) 4000#32 + BitVec.ofNat 32 j

def hit (x y : BitVec 32) : EReal := (((IntOp.cmpi .eq x y).setWidth 32).toInt : ℝ)

theorem hit_eq (x y : BitVec 32) : hit x y = if x = y then 1 else 0 := by
  unfold hit IntOp.cmpi
  by_cases h : x = y
  · subst h; simp
  · have : (x == y) = false := by simpa using h
    simp [this, h]

theorem nodeWord_eq (nb j : ℕ) : nodeWord nb j = BitVec.ofNat 32 (4000 * nb + j) := by
  unfold nodeWord Scalar.muli IntOp.muli
  apply BitVec.eq_of_toNat_eq
  simp only [BitVec.toNat_add, BitVec.toNat_mul, BitVec.toNat_ofNat]
  omega

theorem hit_nodeWord (n0 nb j : ℕ) (hn0 : n0 < 100000) (hnb : nb < 25) (hj : j < 4000) :
    hit (BitVec.ofNat 32 n0) (nodeWord nb j) = if n0 = 4000 * nb + j then 1 else 0 := by
  rw [hit_eq, nodeWord_eq]
  by_cases h : n0 = 4000 * nb + j
  · rw [if_pos h, if_pos (by rw [h])]
  · rw [if_neg h, if_neg]
    intro hw
    have := congrArg BitVec.toNat hw
    simp only [BitVec.toNat_ofNat] at this
    omega

theorem sum_hits (T : ℕ → EReal) (n0 : ℕ) (hn0 : n0 < 100000) :
    ∑ s ∈ Finset.range 25, ∑ j : Fin 4000, hit (BitVec.ofNat 32 n0) (nodeWord s j.val) * T (4000 * s + j.val) = T n0 := by
  rw [Finset.sum_eq_single (n0 / 4000)]
  · rw [Finset.sum_eq_single (⟨n0 % 4000, Nat.mod_lt _ (by decide)⟩ : Fin 4000)]
    · rw [hit_nodeWord n0 _ _ hn0 (by omega) (Nat.mod_lt _ (by decide)),
        if_pos (by show n0 = 4000 * (n0 / 4000) + n0 % 4000; omega), one_mul]
      exact congrArg T (by show 4000 * (n0 / 4000) + n0 % 4000 = n0; omega)
    · intro j _ hj
      rw [hit_nodeWord n0 _ _ hn0 (by omega) j.isLt, if_neg, zero_mul]
      intro h
      exact hj (Fin.ext (by show j.val = n0 % 4000; omega))
    · intro h; exact absurd (Finset.mem_univ _) h
  · intro s hs hne
    refine Finset.sum_eq_zero fun j _ => ?_
    have hs' : s < 25 := Finset.mem_range.mp hs
    have hj := j.isLt
    rw [hit_nodeWord n0 _ _ hn0 hs' j.isLt, if_neg (by omega), zero_mul]
  · intro h
    exact absurd (Finset.mem_range.mpr (by omega)) h

theorem word_of_nonneg (w : BitVec 32) (h : 0 ≤ w.toInt) : w = BitVec.ofNat 32 w.toInt.toNat := by
  have hc := BitVec.toInt_eq_toNat_cond w
  have hlt := w.isLt
  have e : w.toInt.toNat = w.toNat := by
    split at hc <;> omega
  rw [e, BitVec.ofNat_toNat, BitVec.setWidth_eq]

theorem gather1_lhs_row (i : S4096x64.Idx) (q : dot_S4096x4000_S4000x64_S4096x64_1_0_0_1_n_n.contr.Idx) :
    (dot_S4096x4000_S4000x64_S4096x64_1_0_0_1_n_n.lhsIdx i q 0).val = (i 0).val := by
  unfold DotDims.lhsIdx
  rw [dif_neg (show ¬(0 : Fin S4096x4000.rank) ∈ dot_S4096x4000_S4000x64_S4096x64_1_0_0_1_n_n.lhsBatch by decide), dif_pos (show (0 : Fin S4096x4000.rank) ∈ dot_S4096x4000_S4000x64_S4096x64_1_0_0_1_n_n.lhsNonContracting by decide)]
  rfl
theorem gather1_lhs_node (i : S4096x64.Idx) (q : dot_S4096x4000_S4000x64_S4096x64_1_0_0_1_n_n.contr.Idx) :
    (dot_S4096x4000_S4000x64_S4096x64_1_0_0_1_n_n.lhsIdx i q 1).val = (q ⟨0, by decide⟩).val :=
  dot_S4096x4000_S4000x64_S4096x64_1_0_0_1_n_n.lhsIdx_val_of_single rfl i q
theorem gather1_rhs_node (i : S4096x64.Idx) (q : dot_S4096x4000_S4000x64_S4096x64_1_0_0_1_n_n.contr.Idx) :
    (dot_S4096x4000_S4000x64_S4096x64_1_0_0_1_n_n.rhsIdx i q 0).val = (q ⟨0, by decide⟩).val :=
  dot_S4096x4000_S4000x64_S4096x64_1_0_0_1_n_n.rhsIdx_val_of_single rfl i q
theorem gather1_rhs_col (i : S4096x64.Idx) (q : dot_S4096x4000_S4000x64_S4096x64_1_0_0_1_n_n.contr.Idx) :
    (dot_S4096x4000_S4000x64_S4096x64_1_0_0_1_n_n.rhsIdx i q 1).val = (i 1).val := by
  unfold DotDims.rhsIdx
  rw [dif_neg (show ¬(1 : Fin S4000x64.rank) ∈ dot_S4096x4000_S4000x64_S4096x64_1_0_0_1_n_n.rhsBatch by decide), dif_pos (show (1 : Fin S4000x64.rank) ∈ dot_S4096x4000_S4000x64_S4096x64_1_0_0_1_n_n.rhsNonContracting by decide)]
  rfl

theorem gather1_plainDot : PlainDot (a := 4096) (K := 4000) (N := 64) dot_S4096x4000_S4000x64_S4096x64_1_0_0_1_n_n where
  rank := rfl
  size := rfl
  lhs0 := gather1_lhs_row
  lhs1 := gather1_lhs_node
  rhs0 := gather1_rhs_node
  rhs1 := gather1_rhs_col

theorem pay1_1_apply (i : S4096x64.Idx) : k1_pay1 (F := Ideal) i = 0 := by
  unfold k1_pay1
  simp only [shapeCast_self]
  exact Ideal.ofBits_zero_f32

theorem pay2_1_apply (i : grid1.Coords) (v7 : Vec Ideal S4096x1 .i32) (v15 : Vec Ideal S4000x64 .bf16)
    (v17 : Vec Ideal S4096x64 .f32) (r : Fin 4096) (k : Fin 64) :
    k1_pay2 i v7 v15 v17 (ix2 r k)
      = v17 (ix2 r k) + ∑ j : Fin 4000, hit (v7 (ix2 r (0 : Fin 1))) (nodeWord (i 1).val j.val) * v15 (ix2 j k) := by
  unfold k1_pay2
  simp only [shapeCast_self]
  refine congrArg (v17 (ix2 r k) + ·) ?_
  refine (matmul_zero_apply gather1_plainDot none _ _ (ix2 r k)).trans ?_
  refine Finset.sum_congr rfl fun j _ => ?_
  refine congrArg (· * v15 (ix2 j k)) ?_
  show hit _ _ = _
  refine congrArg₂ hit ?_ ?_
  · exact Cert.ColumnLayout.broadcastTo_a1_ab_apply _ _ r j
  · refine (broadcastTo_1b_ab_apply _ _ r j).trans ?_
    show IntOp.addi _ (iota .tc S1x4000 32 [1] _ (ix2 (0 : Fin 1) j)) = _
    rw [iota_single_apply]
    rfl

theorem pay3_1_apply (v26 : Vec Ideal S4096x64 .f32) (v27 : Vec Ideal S4096x1 .f32) (r : Fin 4096) (k : Fin 64) :
    k1_pay3 v26 v27 (ix2 r k) = v26 (ix2 r k) * v27 (ix2 r (0 : Fin 1)) := by
  unfold k1_pay3
  simp only [shapeCast_self]
  refine congrArg (v26 (ix2 r k) * ·) ?_
  exact Cert.ColumnLayout.broadcastTo_a1_ab_apply _ _ r k

section Blocks

variable {F : FTy → Type} [FloatOps F]
variable (V : (c : Dev nD) → (b : Ref sig .tc) → Buf (Elt F) ((c : Thread nD τ).loc b))

abbrev rowArr (c : Dev nD) : Vec F S1703936x1 .i32 := V c main_v38
abbrev wgtArr (c : Dev nD) : Vec F S1703936x1 .f32 := V c main_v39
abbrev tabArr1 (c : Dev nD) : Vec F S100000x64 .bf16 := V c main_v41

theorem lt_N1 (t : Fin cfg1.N) : t.val < 10400 := Nat.lt_of_lt_of_eq t.isLt N_1

theorem coords1_edge (t : Fin cfg1.N) : (grid1.coords t 0).val = t.val / 25 := by
  have h := lt_N1 t
  show t.val / grid1.stride 0 % 416 = t.val / 25
  rw [show grid1.stride 0 = 25 from by decide]
  omega
theorem coords1_node (t : Fin cfg1.N) : (grid1.coords t 1).val = t.val % 25 := by
  show t.val / grid1.stride 1 % 25 = t.val % 25
  rw [show grid1.stride 1 = 1 from by decide, Nat.div_one]

theorem index1_rows (t : Fin cfg1.N) : win1_0.index t 0 = t.val / 25 ∧ win1_0.index t 1 = 0 := by
  have h := lt_N1 t
  refine ⟨?_, rfl⟩
  show (BitVec.ofNat 32 (grid1.coords t 0).val).toNat = t.val / 25
  rw [coords1_edge, BitVec.toNat_ofNat]
  omega
theorem index1_weights (t : Fin cfg1.N) : win1_1.index t 0 = t.val / 25 ∧ win1_1.index t 1 = 0 := by
  have h := lt_N1 t
  refine ⟨?_, rfl⟩
  show (BitVec.ofNat 32 (grid1.coords t 0).val).toNat = t.val / 25
  rw [coords1_edge, BitVec.toNat_ofNat]
  omega
theorem index1_table (t : Fin cfg1.N) : win1_2.index t 0 = t.val % 25 ∧ win1_2.index t 1 = 0 := by
  refine ⟨?_, rfl⟩
  show (BitVec.ofNat 32 (grid1.coords t 1).val).toNat = t.val % 25
  rw [coords1_node, BitVec.toNat_ofNat]
  omega
theorem index1_out (t : Fin cfg1.N) : win1_3.index t 0 = t.val / 25 ∧ win1_3.index t 1 = 0 := by
  have h := lt_N1 t
  refine ⟨?_, rfl⟩
  show (BitVec.ofNat 32 (grid1.coords t 0).val).toNat = t.val / 25
  rw [coords1_edge, BitVec.toNat_ofNat]
  omega

theorem rowBlk1_apply (c : Dev nD) (t : Fin cfg1.N) (q : ℕ) (hq : t.val / 25 = q) (r : Fin 4096) (hr : 4096 * q + r.val < 1703936) :
    (iblk1 V c 0 t : Vec F S4096x1 .i32) (ix2 r (0 : Fin 1))
      = rowArr V c (ix2 ⟨4096 * q + r.val, hr⟩ (0 : Fin 1)) := by
  unfold iblk1
  rw [View.read_apply]
  show V c main_v38 _ = V c main_v38 _
  refine congrArg (V c main_v38) ?_
  funext a; apply Fin.ext
  match a with
  | ⟨0, _⟩ => show win1_0.index t 0 * 4096 + 1 * r.val = 4096 * q + r.val; rw [(index1_rows t).1, hq]; omega
  | ⟨1, _⟩ => show win1_0.index t 1 * 1 + 1 * 0 = 0; rw [(index1_rows t).2]

theorem wgtBlk1_apply (c : Dev nD) (t : Fin cfg1.N) (q : ℕ) (hq : t.val / 25 = q) (r : Fin 4096) (hr : 4096 * q + r.val < 1703936) :
    (iblk1 V c 1 t : Vec F S4096x1 .f32) (ix2 r (0 : Fin 1))
      = wgtArr V c (ix2 ⟨4096 * q + r.val, hr⟩ (0 : Fin 1)) := by
  unfold iblk1
  rw [View.read_apply]
  show V c main_v39 _ = V c main_v39 _
  refine congrArg (V c main_v39) ?_
  funext a; apply Fin.ext
  match a with
  | ⟨0, _⟩ => show win1_1.index t 0 * 4096 + 1 * r.val = 4096 * q + r.val; rw [(index1_weights t).1, hq]; omega
  | ⟨1, _⟩ => show win1_1.index t 1 * 1 + 1 * 0 = 0; rw [(index1_weights t).2]

theorem tabBlk1_apply (c : Dev nD) (t : Fin cfg1.N) (s : ℕ) (hs : t.val % 25 = s) (j : Fin 4000) (k : Fin 64) (hj : 4000 * s + j.val < 100000) :
    (iblk1 V c 2 t : Vec F S4000x64 .bf16) (ix2 j k)
      = tabArr1 V c (ix2 ⟨4000 * s + j.val, hj⟩ k) := by
  unfold iblk1
  rw [View.read_apply]
  show V c main_v41 _ = V c main_v41 _
  refine congrArg (V c main_v41) ?_
  funext a; apply Fin.ext
  match a with
  | ⟨0, _⟩ => show win1_2.index t 0 * 4000 + 1 * j.val = 4000 * s + j.val; rw [(index1_table t).1, hs]; omega
  | ⟨1, _⟩ => show win1_2.index t 1 * 64 + 1 * k.val = k.val; rw [(index1_table t).2]; omega

theorem outBlk1_emb (t : Fin cfg1.N) (q : ℕ) (hq : t.val / 25 = q) (r : Fin 4096) (k : Fin 64) (hr : 4096 * q + r.val < 1703936) :
    ((cfg1.win 3).blk t).view.emb (ix2 r k) = (ix2 ⟨4096 * q + r.val, hr⟩ k : S1703936x64.Idx) := by
  funext a; apply Fin.ext
  match a with
  | ⟨0, _⟩ => show win1_3.index t 0 * 4096 + 1 * r.val = 4096 * q + r.val; rw [(index1_out t).1, hq]; omega
  | ⟨1, _⟩ => show win1_3.index t 1 * 64 + 1 * k.val = k.val; rw [(index1_out t).2]; omega

end Blocks

section AtIdeal

variable (V : (c : Dev nD) → (b : Ref sig .tc) → Buf (Elt Ideal) ((c : Thread nD τ).loc b))

theorem pay2_1_add (i : grid1.Coords) (v7 : Vec Ideal S4096x1 .i32) (v15 : Vec Ideal S4000x64 .bf16)
    (v17 : Vec Ideal S4096x64 .f32) (y : S4096x64.Idx) :
    k1_pay2 i v7 v15 v17 y = v17 y + k1_pay2 i v7 v15 (fun _ => (0 : EReal)) y := by
  obtain ⟨r, k, rfl⟩ : ∃ (r : Fin 4096) (k : Fin 64), y = ix2 r k := ⟨y 0, y 1, eq_ix2 y⟩
  rw [pay2_1_apply, pay2_1_apply, zero_add]

def reset1 (c : Dev nD) : (n : ℕ) → n < cfg1.N → S4096x64.Idx → EReal := fun n h =>
  k1_pay2 (grid1.coords ⟨n, h⟩) (iblk1 V c 0 ⟨n, h⟩) (iblk1 V c 2 ⟨n, h⟩) (k1_pay1 (F := Ideal))

def step1 (c : Dev nD) : (n : ℕ) → n < cfg1.N → (S4096x64.Idx → EReal) → S4096x64.Idx → EReal := fun n h acc =>
  k1_pay2 (grid1.coords ⟨n, h⟩) (iblk1 V c 0 ⟨n, h⟩) (iblk1 V c 2 ⟨n, h⟩) acc

def addend1 (c : Dev nD) (n : ℕ) : S4096x64.Idx → EReal := fun y =>
  if h : n < cfg1.N then k1_pay2 (grid1.coords ⟨n, h⟩) (iblk1 V c 0 ⟨n, h⟩) (iblk1 V c 2 ⟨n, h⟩) (fun _ => (0 : EReal)) y else 0

theorem acc1_last (c : Dev nD) (q : ℕ) (h : 25 * q + 24 < cfg1.N) (y : S4096x64.Idx) :
    acc1 V c (25 * q + 24) h y = ∑ s ∈ Finset.range 25, addend1 V c (25 * q + s) y := by
  have e := Pipeline.eq_accAt (N := cfg1.N) (acc1 V c) 25 (reset1 V c) (step1 V c)
    (fun n hn hm => acc1_reset V c ⟨n, hn⟩ hm) (fun n hn hne => acc1_step V c ⟨n + 1, hn⟩ hne) q 24 (by decide) h
  refine (congrFun e y).trans ?_
  refine (Pipeline.accAt_add_apply (reset1 V c) (step1 V c) (fun _ => (0 : EReal)) (addend1 V c) (25 * q) 24
    (fun hb i => ?_) (fun n hn acc i _ _ => ?_) 24 (Nat.le_refl _) h y).trans (zero_add _)
  · unfold reset1 addend1
    rw [dif_pos hb]
    refine (pay2_1_add _ _ _ _ i).trans ?_
    rw [pay1_1_apply]
  · unfold step1 addend1
    rw [dif_pos hn]
    exact pay2_1_add _ _ _ _ i

theorem addend1_apply (c : Dev nD) (q s : ℕ) (hq : q < 416) (hs : s < 25) (r : Fin 4096) (k : Fin 64)
    (W : BitVec 32) (T : ℕ → EReal) (he : 4096 * q + r.val < 1703936)
    (hW : rowArr V c (ix2 ⟨4096 * q + r.val, he⟩ (0 : Fin 1)) = W)
    (hT : ∀ (n : ℕ) (hn : n < 100000), tabArr1 V c (ix2 ⟨n, hn⟩ k) = T n) :
    addend1 V c (25 * q + s) (ix2 r k) = ∑ j : Fin 4000, hit W (nodeWord s j.val) * T (4000 * s + j.val) := by
  have hN : 25 * q + s < cfg1.N := Nat.lt_of_lt_of_eq (by omega) N_1.symm
  have hdiv : (⟨25 * q + s, hN⟩ : Fin cfg1.N).val / 25 = q := by show (25 * q + s) / 25 = q; omega
  have hmod : (⟨25 * q + s, hN⟩ : Fin cfg1.N).val % 25 = s := by show (25 * q + s) % 25 = s; omega
  unfold addend1
  rw [dif_pos hN]
  refine (pay2_1_apply _ _ _ _ r k).trans ?_
  refine (zero_add _).trans ?_
  refine Finset.sum_congr rfl fun j _ => ?_
  have hj := j.isLt
  rw [rowBlk1_apply V c ⟨25 * q + s, hN⟩ q hdiv r he, tabBlk1_apply V c ⟨25 * q + s, hN⟩ s hmod j k (by omega), hW, hT,
    coords1_node, hmod]

def tabCol1 (c : Dev nD) (k : Fin 64) : ℕ → EReal := fun n =>
  if hn : n < 100000 then tabArr1 V c (ix2 ⟨n, hn⟩ k) else 0

theorem tabCol1_of_lt (c : Dev nD) (k : Fin 64) (n : ℕ) (hn : n < 100000) :
    tabCol1 V c k n = tabArr1 V c (ix2 ⟨n, hn⟩ k) := dif_pos hn

theorem out1_apply (c : Dev nD) (t : Fin cfg1.N) (ht : t.val % 25 = 24) (r : Fin 4096) (k : Fin 64) (n0 : ℕ) (hn0 : n0 < 100000)
    (he : 4096 * (t.val / 25) + r.val < 1703936)
    (hW : rowArr V c (ix2 ⟨4096 * (t.val / 25) + r.val, he⟩ (0 : Fin 1)) = BitVec.ofNat 32 n0) :
    k1_pay3 (acc1 V c t.val t.isLt) (iblk1 V c 1 t) (ix2 r k)
      = tabArr1 V c (ix2 ⟨n0, hn0⟩ k)
        * wgtArr V c (ix2 ⟨4096 * (t.val / 25) + r.val, he⟩ (0 : Fin 1)) := by
  have hlt := lt_N1 t
  have hq : t.val / 25 < 416 := by omega
  have hval : 25 * (t.val / 25) + 24 = t.val := by omega
  have hN : 25 * (t.val / 25) + 24 < cfg1.N := by rw [hval]; exact t.isLt
  have same : ∀ (u : ℕ) (hu : u < cfg1.N), u = t.val → acc1 V c u hu = acc1 V c t.val t.isLt := fun u hu e => by
    subst e; rfl
  refine (pay3_1_apply _ _ r k).trans ?_
  rw [wgtBlk1_apply V c t _ rfl r he, ← same _ hN hval, acc1_last V c _ hN]
  refine congrArg (· * _) ?_
  rw [Finset.sum_congr rfl fun s hs =>
    addend1_apply V c (t.val / 25) s hq (Finset.mem_range.mp hs) r k _ (tabCol1 V c k) he hW
      (fun n hn => (tabCol1_of_lt V c k n hn).symm)]
  rw [sum_hits (tabCol1 V c k) n0 hn0]
  exact tabCol1_of_lt V c k n0 hn0

open Cert.GcnSpec in

def gathered1 (H : Mat NN 64) (rw : Fin ET → BitVec 32) (h : InRange rw) (nrm : Fin ET → EReal) : S1703936x64.Idx → EReal :=
  fun i => if h' : (i 0).val < ET then msg H rw h nrm (ix2 ⟨(i 0).val, h'⟩ (⟨(i 1).val, idx2_lt1 i⟩ : Fin 64)) else 0

open Cert.GcnSpec in
theorem gathered1_ix2 (H : Mat NN 64) (rw : Fin ET → BitVec 32) (h : InRange rw) (nrm : Fin ET → EReal)
    (e : Fin 1703936) (k : Fin 64) :
    gathered1 H rw h nrm (ix2 e k) = if h' : e.val < ET then msg H rw h nrm (ix2 ⟨e.val, h'⟩ k) else 0 := rfl

open Cert.GcnSpec in

theorem flushed1_eq (c : Dev nD) (rw : Fin ET → BitVec 32) (h : InRange rw) (nrm : Fin ET → EReal)
    (hrow : ∀ e : Fin 1703936, V c main_v38 (ix2 e 0) = if h' : e.val < ET then rw ⟨e.val, h'⟩ else 0#32)
    (hnrm : ∀ e : Fin 1703936, V c main_v39 (ix2 e 0) = if h' : e.val < ET then nrm ⟨e.val, h'⟩ else Ideal.ofBits .f32 0x00000000#32)
    (t : Fin cfg1.N) (hf : (cfg1.win 3).flush t = true) :
    (dat1 (F := Ideal) V c).flushed 3 t = ((cfg1.win 3).blk t).view.read (Elt Ideal) (gathered1 (V c main_v41) rw h nrm) := by
  have ht : t.val % 25 = 24 := (flush1_3 t).mp hf
  have hlt := lt_N1 t
  funext y
  obtain ⟨r, k, rfl⟩ : ∃ (r : Fin 4096) (k : Fin 64), y = ix2 r k := ⟨y 0, y 1, eq_ix2 (n0 := 4096) (n1 := 64) y⟩
  have hr := r.isLt
  have he : 4096 * (t.val / 25) + r.val < 1703936 := by omega
  rw [View.read_apply, outBlk1_emb t _ rfl r k he]
  show (dat1 V c).after 3 t (ix2 r k) = gathered1 (V c main_v41) rw h nrm (ix2 ⟨4096 * (t.val / 25) + r.val, he⟩ k)
  rw [after1_3, gathered1_ix2]
  have hR : rowArr V c (ix2 ⟨4096 * (t.val / 25) + r.val, he⟩ (0 : Fin 1)) = _ := hrow ⟨4096 * (t.val / 25) + r.val, he⟩
  have hM : wgtArr V c (ix2 ⟨4096 * (t.val / 25) + r.val, he⟩ (0 : Fin 1)) = _ := hnrm ⟨4096 * (t.val / 25) + r.val, he⟩
  split
  · next h' =>
    rw [dif_pos h'] at hR hM
    have hs := (src rw h ⟨_, h'⟩).isLt
    rw [out1_apply V c t ht r k (src rw h ⟨_, h'⟩).val hs he (hR.trans (word_of_nonneg _ (h _).1)), hM]
    rfl
  · next h' =>
    rw [dif_neg h'] at hR hM
    rw [out1_apply V c t ht r k 0 (by decide) he hR, hM, Ideal.ofBits_zero_f32, mul_zero]

theorem cover1 (i : S1703936x64.Idx) :
    ∃ t : Fin cfg1.N, (cfg1.win 3).flush t = true ∧ i ∈ ((cfg1.win 3).blk t).view.set := by
  have h0 : (i 0).val < 1703936 := (i 0).isLt
  have h1 : (i 1).val < 64 := (i 1).isLt
  have hN : 25 * ((i 0).val / 4096) + 24 < cfg1.N := Nat.lt_of_lt_of_eq (by omega) N_1.symm
  have hdiv : (⟨25 * ((i 0).val / 4096) + 24, hN⟩ : Fin cfg1.N).val / 25 = (i 0).val / 4096 := by
    show (25 * ((i 0).val / 4096) + 24) / 25 = _; omega
  refine ⟨⟨25 * ((i 0).val / 4096) + 24, hN⟩, (flush1_3 _).mpr (by show (25 * ((i 0).val / 4096) + 24) % 25 = 24; omega), ?_⟩
  show i ∈ ((View.whole main_v42).slice (win1_3.rect ⟨25 * ((i 0).val / 4096) + 24, hN⟩)).set
  rw [View.set_slice_whole, Rect.mem_set_unit]
  intro a
  match a with
  | ⟨0, _⟩ =>
    show win1_3.index ⟨_, hN⟩ 0 * 4096 ≤ (i 0).val ∧ (i 0).val < win1_3.index ⟨_, hN⟩ 0 * 4096 + 4096
    rw [(index1_out ⟨_, hN⟩).1, hdiv]; omega
  | ⟨1, _⟩ =>
    show win1_3.index ⟨_, hN⟩ 1 * 64 ≤ (i 1).val ∧ (i 1).val < win1_3.index ⟨_, hN⟩ 1 * 64 + 64
    rw [(index1_out ⟨_, hN⟩).2]; omega

open Cert.GcnSpec in

theorem arr1_eq (c : Dev nD) (rw : Fin ET → BitVec 32) (h : InRange rw) (nrm : Fin ET → EReal)
    (hrow : ∀ e : Fin 1703936, V c main_v38 (ix2 e 0) = if h' : e.val < ET then rw ⟨e.val, h'⟩ else 0#32)
    (hnrm : ∀ e : Fin 1703936, V c main_v39 (ix2 e 0) = if h' : e.val < ET then nrm ⟨e.val, h'⟩ else Ideal.ofBits .f32 0x00000000#32) :
    (dat1 (F := Ideal) V c).arrAt 3 cfg1.N = gathered1 (V c main_v41) rw h nrm :=
  (dat1 (F := Ideal) V c).arrAt_eq_of_cover 3 (gathered1 (V c main_v41) rw h nrm) (flushed1_eq V c rw h nrm hrow hnrm) cover1

end AtIdeal

theorem gather1_final (V : (c : Dev nD) → (b : Ref sig .tc) → Buf (Elt Ideal) ((c : Thread nD τ).loc b)) (c : Dev nD)
    (rw : Fin Cert.GcnSpec.ET → BitVec 32) (h : Cert.GcnSpec.InRange rw) (nrm : Fin Cert.GcnSpec.ET → EReal)
    (hrow : ∀ e : Fin 1703936, V c main_v38 (ValueIdx.ix2 e 0) = if h' : e.val < Cert.GcnSpec.ET then rw ⟨e.val, h'⟩ else 0#32)
    (hnrm : ∀ e : Fin 1703936, V c main_v39 (ValueIdx.ix2 e 0) = if h' : e.val < Cert.GcnSpec.ET then nrm ⟨e.val, h'⟩ else Ideal.ofBits .f32 0x00000000#32)
    (e : Fin 1703936) (k : Fin 64) :
    (dat1 (F := Ideal) V c).arrAt 3 cfg1.N (ValueIdx.ix2 e k) = if h' : e.val < Cert.GcnSpec.ET then Cert.GcnSpec.msg (V c main_v41) rw h nrm (ValueIdx.ix2 ⟨e.val, h'⟩ k) else 0 :=
  (congrFun (arr1_eq V c rw h nrm hrow hnrm) (ix2 e k)).trans (gathered1_ix2 _ rw h nrm e k)

end Cert.KernelIdeal.Hand

end
-- ==== Proof.ValGather4.lean ====
import proofs.«128423_j81389630259984_1_alg».proof.Proof.IdealGather4
import proofs.«128423_j81389630259984_1_alg».proof.Proof.ValGather
import proofs.«128423_j81389630259984_1_alg».proof.Proof.Spec
import proofs.«128423_j81389630259984_1_alg».proof.Proof.LibDenseLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.DenseLayer

theorem gather4_lhs_row (i : S4096x16.Idx) (q : dot_S4096x4000_S4000x16_S4096x16_1_0_0_1_n_n.contr.Idx) :
    (dot_S4096x4000_S4000x16_S4096x16_1_0_0_1_n_n.lhsIdx i q 0).val = (i 0).val := by
  unfold DotDims.lhsIdx
  rw [dif_neg (show ¬(0 : Fin S4096x4000.rank) ∈ dot_S4096x4000_S4000x16_S4096x16_1_0_0_1_n_n.lhsBatch by decide), dif_pos (show (0 : Fin S4096x4000.rank) ∈ dot_S4096x4000_S4000x16_S4096x16_1_0_0_1_n_n.lhsNonContracting by decide)]
  rfl
theorem gather4_lhs_node (i : S4096x16.Idx) (q : dot_S4096x4000_S4000x16_S4096x16_1_0_0_1_n_n.contr.Idx) :
    (dot_S4096x4000_S4000x16_S4096x16_1_0_0_1_n_n.lhsIdx i q 1).val = (q ⟨0, by decide⟩).val :=
  dot_S4096x4000_S4000x16_S4096x16_1_0_0_1_n_n.lhsIdx_val_of_single rfl i q
theorem gather4_rhs_node (i : S4096x16.Idx) (q : dot_S4096x4000_S4000x16_S4096x16_1_0_0_1_n_n.contr.Idx) :
    (dot_S4096x4000_S4000x16_S4096x16_1_0_0_1_n_n.rhsIdx i q 0).val = (q ⟨0, by decide⟩).val :=
  dot_S4096x4000_S4000x16_S4096x16_1_0_0_1_n_n.rhsIdx_val_of_single rfl i q
theorem gather4_rhs_col (i : S4096x16.Idx) (q : dot_S4096x4000_S4000x16_S4096x16_1_0_0_1_n_n.contr.Idx) :
    (dot_S4096x4000_S4000x16_S4096x16_1_0_0_1_n_n.rhsIdx i q 1).val = (i 1).val := by
  unfold DotDims.rhsIdx
  rw [dif_neg (show ¬(1 : Fin S4000x16.rank) ∈ dot_S4096x4000_S4000x16_S4096x16_1_0_0_1_n_n.rhsBatch by decide), dif_pos (show (1 : Fin S4000x16.rank) ∈ dot_S4096x4000_S4000x16_S4096x16_1_0_0_1_n_n.rhsNonContracting by decide)]
  rfl

theorem gather4_plainDot : PlainDot (a := 4096) (K := 4000) (N := 16) dot_S4096x4000_S4000x16_S4096x16_1_0_0_1_n_n where
  rank := rfl
  size := rfl
  lhs0 := gather4_lhs_row
  lhs1 := gather4_lhs_node
  rhs0 := gather4_rhs_node
  rhs1 := gather4_rhs_col

theorem pay1_4_apply (i : S4096x16.Idx) : k4_pay1 (F := Ideal) i = 0 := by
  unfold k4_pay1
  simp only [shapeCast_self]
  exact Ideal.ofBits_zero_f32

theorem pay2_4_apply (i : grid4.Coords) (v7 : Vec Ideal S4096x1 .i32) (v15 : Vec Ideal S4000x16 .bf16)
    (v17 : Vec Ideal S4096x16 .f32) (r : Fin 4096) (k : Fin 16) :
    k4_pay2 i v7 v15 v17 (ix2 r k)
      = v17 (ix2 r k) + ∑ j : Fin 4000, hit (v7 (ix2 r (0 : Fin 1))) (nodeWord (i 1).val j.val) * v15 (ix2 j k) := by
  unfold k4_pay2
  simp only [shapeCast_self]
  refine congrArg (v17 (ix2 r k) + ·) ?_
  refine (matmul_zero_apply gather4_plainDot none _ _ (ix2 r k)).trans ?_
  refine Finset.sum_congr rfl fun j _ => ?_
  refine congrArg (· * v15 (ix2 j k)) ?_
  show hit _ _ = _
  refine congrArg₂ hit ?_ ?_
  · exact Cert.ColumnLayout.broadcastTo_a1_ab_apply _ _ r j
  · refine (broadcastTo_1b_ab_apply _ _ r j).trans ?_
    show IntOp.addi _ (iota .tc S1x4000 32 [1] _ (ix2 (0 : Fin 1) j)) = _
    rw [iota_single_apply]
    rfl

theorem pay3_4_apply (v26 : Vec Ideal S4096x16 .f32) (v27 : Vec Ideal S4096x1 .f32) (r : Fin 4096) (k : Fin 16) :
    k4_pay3 v26 v27 (ix2 r k) = v26 (ix2 r k) * v27 (ix2 r (0 : Fin 1)) := by
  unfold k4_pay3
  simp only [shapeCast_self]
  refine congrArg (v26 (ix2 r k) * ·) ?_
  exact Cert.ColumnLayout.broadcastTo_a1_ab_apply _ _ r k

section Blocks

variable {F : FTy → Type} [FloatOps F]
variable (V : (c : Dev nD) → (b : Ref sig .tc) → Buf (Elt F) ((c : Thread nD τ).loc b))

abbrev tabArr4 (c : Dev nD) : Vec F S100000x16 .bf16 := V c main_v44

theorem lt_N4 (t : Fin cfg4.N) : t.val < 10400 := Nat.lt_of_lt_of_eq t.isLt N_4

theorem coords4_edge (t : Fin cfg4.N) : (grid4.coords t 0).val = t.val / 25 := by
  have h := lt_N4 t
  show t.val / grid4.stride 0 % 416 = t.val / 25
  rw [show grid4.stride 0 = 25 from by decide]
  omega
theorem coords4_node (t : Fin cfg4.N) : (grid4.coords t 1).val = t.val % 25 := by
  show t.val / grid4.stride 1 % 25 = t.val % 25
  rw [show grid4.stride 1 = 1 from by decide, Nat.div_one]

theorem index4_rows (t : Fin cfg4.N) : win4_0.index t 0 = t.val / 25 ∧ win4_0.index t 1 = 0 := by
  have h := lt_N4 t
  refine ⟨?_, rfl⟩
  show (BitVec.ofNat 32 (grid4.coords t 0).val).toNat = t.val / 25
  rw [coords4_edge, BitVec.toNat_ofNat]
  omega
theorem index4_weights (t : Fin cfg4.N) : win4_1.index t 0 = t.val / 25 ∧ win4_1.index t 1 = 0 := by
  have h := lt_N4 t
  refine ⟨?_, rfl⟩
  show (BitVec.ofNat 32 (grid4.coords t 0).val).toNat = t.val / 25
  rw [coords4_edge, BitVec.toNat_ofNat]
  omega
theorem index4_table (t : Fin cfg4.N) : win4_2.index t 0 = t.val % 25 ∧ win4_2.index t 1 = 0 := by
  refine ⟨?_, rfl⟩
  show (BitVec.ofNat 32 (grid4.coords t 1).val).toNat = t.val % 25
  rw [coords4_node, BitVec.toNat_ofNat]
  omega
theorem index4_out (t : Fin cfg4.N) : win4_3.index t 0 = t.val / 25 ∧ win4_3.index t 1 = 0 := by
  have h := lt_N4 t
  refine ⟨?_, rfl⟩
  show (BitVec.ofNat 32 (grid4.coords t 0).val).toNat = t.val / 25
  rw [coords4_edge, BitVec.toNat_ofNat]
  omega

theorem rowBlk4_apply (c : Dev nD) (t : Fin cfg4.N) (q : ℕ) (hq : t.val / 25 = q) (r : Fin 4096) (hr : 4096 * q + r.val < 1703936) :
    (iblk4 V c 0 t : Vec F S4096x1 .i32) (ix2 r (0 : Fin 1))
      = rowArr V c (ix2 ⟨4096 * q + r.val, hr⟩ (0 : Fin 1)) := by
  unfold iblk4
  rw [View.read_apply]
  show V c main_v38 _ = V c main_v38 _
  refine congrArg (V c main_v38) ?_
  funext a; apply Fin.ext
  match a with
  | ⟨0, _⟩ => show win4_0.index t 0 * 4096 + 1 * r.val = 4096 * q + r.val; rw [(index4_rows t).1, hq]; omega
  | ⟨1, _⟩ => show win4_0.index t 1 * 1 + 1 * 0 = 0; rw [(index4_rows t).2]

theorem wgtBlk4_apply (c : Dev nD) (t : Fin cfg4.N) (q : ℕ) (hq : t.val / 25 = q) (r : Fin 4096) (hr : 4096 * q + r.val < 1703936) :
    (iblk4 V c 1 t : Vec F S4096x1 .f32) (ix2 r (0 : Fin 1))
      = wgtArr V c (ix2 ⟨4096 * q + r.val, hr⟩ (0 : Fin 1)) := by
  unfold iblk4
  rw [View.read_apply]
  show V c main_v39 _ = V c main_v39 _
  refine congrArg (V c main_v39) ?_
  funext a; apply Fin.ext
  match a with
  | ⟨0, _⟩ => show win4_1.index t 0 * 4096 + 1 * r.val = 4096 * q + r.val; rw [(index4_weights t).1, hq]; omega
  | ⟨1, _⟩ => show win4_1.index t 1 * 1 + 1 * 0 = 0; rw [(index4_weights t).2]

theorem tabBlk4_apply (c : Dev nD) (t : Fin cfg4.N) (s : ℕ) (hs : t.val % 25 = s) (j : Fin 4000) (k : Fin 16) (hj : 4000 * s + j.val < 100000) :
    (iblk4 V c 2 t : Vec F S4000x16 .bf16) (ix2 j k)
      = tabArr4 V c (ix2 ⟨4000 * s + j.val, hj⟩ k) := by
  unfold iblk4
  rw [View.read_apply]
  show V c main_v44 _ = V c main_v44 _
  refine congrArg (V c main_v44) ?_
  funext a; apply Fin.ext
  match a with
  | ⟨0, _⟩ => show win4_2.index t 0 * 4000 + 1 * j.val = 4000 * s + j.val; rw [(index4_table t).1, hs]; omega
  | ⟨1, _⟩ => show win4_2.index t 1 * 16 + 1 * k.val = k.val; rw [(index4_table t).2]; omega

theorem outBlk4_emb (t : Fin cfg4.N) (q : ℕ) (hq : t.val / 25 = q) (r : Fin 4096) (k : Fin 16) (hr : 4096 * q + r.val < 1703936) :
    ((cfg4.win 3).blk t).view.emb (ix2 r k) = (ix2 ⟨4096 * q + r.val, hr⟩ k : S1703936x16.Idx) := by
  funext a; apply Fin.ext
  match a with
  | ⟨0, _⟩ => show win4_3.index t 0 * 4096 + 1 * r.val = 4096 * q + r.val; rw [(index4_out t).1, hq]; omega
  | ⟨1, _⟩ => show win4_3.index t 1 * 16 + 1 * k.val = k.val; rw [(index4_out t).2]; omega

end Blocks

section AtIdeal

variable (V : (c : Dev nD) → (b : Ref sig .tc) → Buf (Elt Ideal) ((c : Thread nD τ).loc b))

theorem pay2_4_add (i : grid4.Coords) (v7 : Vec Ideal S4096x1 .i32) (v15 : Vec Ideal S4000x16 .bf16)
    (v17 : Vec Ideal S4096x16 .f32) (y : S4096x16.Idx) :
    k4_pay2 i v7 v15 v17 y = v17 y + k4_pay2 i v7 v15 (fun _ => (0 : EReal)) y := by
  obtain ⟨r, k, rfl⟩ : ∃ (r : Fin 4096) (k : Fin 16), y = ix2 r k := ⟨y 0, y 1, eq_ix2 y⟩
  rw [pay2_4_apply, pay2_4_apply, zero_add]

def reset4 (c : Dev nD) : (n : ℕ) → n < cfg4.N → S4096x16.Idx → EReal := fun n h =>
  k4_pay2 (grid4.coords ⟨n, h⟩) (iblk4 V c 0 ⟨n, h⟩) (iblk4 V c 2 ⟨n, h⟩) (k4_pay1 (F := Ideal))

def step4 (c : Dev nD) : (n : ℕ) → n < cfg4.N → (S4096x16.Idx → EReal) → S4096x16.Idx → EReal := fun n h acc =>
  k4_pay2 (grid4.coords ⟨n, h⟩) (iblk4 V c 0 ⟨n, h⟩) (iblk4 V c 2 ⟨n, h⟩) acc

def addend4 (c : Dev nD) (n : ℕ) : S4096x16.Idx → EReal := fun y =>
  if h : n < cfg4.N then k4_pay2 (grid4.coords ⟨n, h⟩) (iblk4 V c 0 ⟨n, h⟩) (iblk4 V c 2 ⟨n, h⟩) (fun _ => (0 : EReal)) y else 0

theorem acc4_last (c : Dev nD) (q : ℕ) (h : 25 * q + 24 < cfg4.N) (y : S4096x16.Idx) :
    acc4 V c (25 * q + 24) h y = ∑ s ∈ Finset.range 25, addend4 V c (25 * q + s) y := by
  have e := Pipeline.eq_accAt (N := cfg4.N) (acc4 V c) 25 (reset4 V c) (step4 V c)
    (fun n hn hm => acc4_reset V c ⟨n, hn⟩ hm) (fun n hn hne => acc4_step V c ⟨n + 1, hn⟩ hne) q 24 (by decide) h
  refine (congrFun e y).trans ?_
  refine (Pipeline.accAt_add_apply (reset4 V c) (step4 V c) (fun _ => (0 : EReal)) (addend4 V c) (25 * q) 24
    (fun hb i => ?_) (fun n hn acc i _ _ => ?_) 24 (Nat.le_refl _) h y).trans (zero_add _)
  · unfold reset4 addend4
    rw [dif_pos hb]
    refine (pay2_4_add _ _ _ _ i).trans ?_
    rw [pay1_4_apply]
  · unfold step4 addend4
    rw [dif_pos hn]
    exact pay2_4_add _ _ _ _ i

theorem addend4_apply (c : Dev nD) (q s : ℕ) (hq : q < 416) (hs : s < 25) (r : Fin 4096) (k : Fin 16)
    (W : BitVec 32) (T : ℕ → EReal) (he : 4096 * q + r.val < 1703936)
    (hW : rowArr V c (ix2 ⟨4096 * q + r.val, he⟩ (0 : Fin 1)) = W)
    (hT : ∀ (n : ℕ) (hn : n < 100000), tabArr4 V c (ix2 ⟨n, hn⟩ k) = T n) :
    addend4 V c (25 * q + s) (ix2 r k) = ∑ j : Fin 4000, hit W (nodeWord s j.val) * T (4000 * s + j.val) := by
  have hN : 25 * q + s < cfg4.N := Nat.lt_of_lt_of_eq (by omega) N_4.symm
  have hdiv : (⟨25 * q + s, hN⟩ : Fin cfg4.N).val / 25 = q := by show (25 * q + s) / 25 = q; omega
  have hmod : (⟨25 * q + s, hN⟩ : Fin cfg4.N).val % 25 = s := by show (25 * q + s) % 25 = s; omega
  unfold addend4
  rw [dif_pos hN]
  refine (pay2_4_apply _ _ _ _ r k).trans ?_
  refine (zero_add _).trans ?_
  refine Finset.sum_congr rfl fun j _ => ?_
  have hj := j.isLt
  rw [rowBlk4_apply V c ⟨25 * q + s, hN⟩ q hdiv r he, tabBlk4_apply V c ⟨25 * q + s, hN⟩ s hmod j k (by omega), hW, hT,
    coords4_node, hmod]

def tabCol4 (c : Dev nD) (k : Fin 16) : ℕ → EReal := fun n =>
  if hn : n < 100000 then tabArr4 V c (ix2 ⟨n, hn⟩ k) else 0

theorem tabCol4_of_lt (c : Dev nD) (k : Fin 16) (n : ℕ) (hn : n < 100000) :
    tabCol4 V c k n = tabArr4 V c (ix2 ⟨n, hn⟩ k) := dif_pos hn

theorem out4_apply (c : Dev nD) (t : Fin cfg4.N) (ht : t.val % 25 = 24) (r : Fin 4096) (k : Fin 16) (n0 : ℕ) (hn0 : n0 < 100000)
    (he : 4096 * (t.val / 25) + r.val < 1703936)
    (hW : rowArr V c (ix2 ⟨4096 * (t.val / 25) + r.val, he⟩ (0 : Fin 1)) = BitVec.ofNat 32 n0) :
    k4_pay3 (acc4 V c t.val t.isLt) (iblk4 V c 1 t) (ix2 r k)
      = tabArr4 V c (ix2 ⟨n0, hn0⟩ k)
        * wgtArr V c (ix2 ⟨4096 * (t.val / 25) + r.val, he⟩ (0 : Fin 1)) := by
  have hlt := lt_N4 t
  have hq : t.val / 25 < 416 := by omega
  have hval : 25 * (t.val / 25) + 24 = t.val := by omega
  have hN : 25 * (t.val / 25) + 24 < cfg4.N := by rw [hval]; exact t.isLt
  have same : ∀ (u : ℕ) (hu : u < cfg4.N), u = t.val → acc4 V c u hu = acc4 V c t.val t.isLt := fun u hu e => by
    subst e; rfl
  refine (pay3_4_apply _ _ r k).trans ?_
  rw [wgtBlk4_apply V c t _ rfl r he, ← same _ hN hval, acc4_last V c _ hN]
  refine congrArg (· * _) ?_
  rw [Finset.sum_congr rfl fun s hs =>
    addend4_apply V c (t.val / 25) s hq (Finset.mem_range.mp hs) r k _ (tabCol4 V c k) he hW
      (fun n hn => (tabCol4_of_lt V c k n hn).symm)]
  rw [sum_hits (tabCol4 V c k) n0 hn0]
  exact tabCol4_of_lt V c k n0 hn0

open Cert.GcnSpec in

def gathered4 (H : Mat NN 16) (rw : Fin ET → BitVec 32) (h : InRange rw) (nrm : Fin ET → EReal) : S1703936x16.Idx → EReal :=
  fun i => if h' : (i 0).val < ET then msg H rw h nrm (ix2 ⟨(i 0).val, h'⟩ (⟨(i 1).val, idx2_lt1 i⟩ : Fin 16)) else 0

open Cert.GcnSpec in
theorem gathered4_ix2 (H : Mat NN 16) (rw : Fin ET → BitVec 32) (h : InRange rw) (nrm : Fin ET → EReal)
    (e : Fin 1703936) (k : Fin 16) :
    gathered4 H rw h nrm (ix2 e k) = if h' : e.val < ET then msg H rw h nrm (ix2 ⟨e.val, h'⟩ k) else 0 := rfl

open Cert.GcnSpec in

theorem flushed4_eq (c : Dev nD) (rw : Fin ET → BitVec 32) (h : InRange rw) (nrm : Fin ET → EReal)
    (hrow : ∀ e : Fin 1703936, V c main_v38 (ix2 e 0) = if h' : e.val < ET then rw ⟨e.val, h'⟩ else 0#32)
    (hnrm : ∀ e : Fin 1703936, V c main_v39 (ix2 e 0) = if h' : e.val < ET then nrm ⟨e.val, h'⟩ else Ideal.ofBits .f32 0x00000000#32)
    (t : Fin cfg4.N) (hf : (cfg4.win 3).flush t = true) :
    (dat4 (F := Ideal) V c).flushed 3 t = ((cfg4.win 3).blk t).view.read (Elt Ideal) (gathered4 (V c main_v44) rw h nrm) := by
  have ht : t.val % 25 = 24 := (flush4_3 t).mp hf
  have hlt := lt_N4 t
  funext y
  obtain ⟨r, k, rfl⟩ : ∃ (r : Fin 4096) (k : Fin 16), y = ix2 r k := ⟨y 0, y 1, eq_ix2 (n0 := 4096) (n1 := 16) y⟩
  have hr := r.isLt
  have he : 4096 * (t.val / 25) + r.val < 1703936 := by omega
  rw [View.read_apply, outBlk4_emb t _ rfl r k he]
  show (dat4 V c).after 3 t (ix2 r k) = gathered4 (V c main_v44) rw h nrm (ix2 ⟨4096 * (t.val / 25) + r.val, he⟩ k)
  rw [after4_3, gathered4_ix2]
  have hR : rowArr V c (ix2 ⟨4096 * (t.val / 25) + r.val, he⟩ (0 : Fin 1)) = _ := hrow ⟨4096 * (t.val / 25) + r.val, he⟩
  have hM : wgtArr V c (ix2 ⟨4096 * (t.val / 25) + r.val, he⟩ (0 : Fin 1)) = _ := hnrm ⟨4096 * (t.val / 25) + r.val, he⟩
  split
  · next h' =>
    rw [dif_pos h'] at hR hM
    have hs := (src rw h ⟨_, h'⟩).isLt
    rw [out4_apply V c t ht r k (src rw h ⟨_, h'⟩).val hs he (hR.trans (word_of_nonneg _ (h _).1)), hM]
    rfl
  · next h' =>
    rw [dif_neg h'] at hR hM
    rw [out4_apply V c t ht r k 0 (by decide) he hR, hM, Ideal.ofBits_zero_f32, mul_zero]

theorem cover4 (i : S1703936x16.Idx) :
    ∃ t : Fin cfg4.N, (cfg4.win 3).flush t = true ∧ i ∈ ((cfg4.win 3).blk t).view.set := by
  have h0 : (i 0).val < 1703936 := (i 0).isLt
  have h1 : (i 1).val < 16 := (i 1).isLt
  have hN : 25 * ((i 0).val / 4096) + 24 < cfg4.N := Nat.lt_of_lt_of_eq (by omega) N_4.symm
  have hdiv : (⟨25 * ((i 0).val / 4096) + 24, hN⟩ : Fin cfg4.N).val / 25 = (i 0).val / 4096 := by
    show (25 * ((i 0).val / 4096) + 24) / 25 = _; omega
  refine ⟨⟨25 * ((i 0).val / 4096) + 24, hN⟩, (flush4_3 _).mpr (by show (25 * ((i 0).val / 4096) + 24) % 25 = 24; omega), ?_⟩
  show i ∈ ((View.whole main_v45).slice (win4_3.rect ⟨25 * ((i 0).val / 4096) + 24, hN⟩)).set
  rw [View.set_slice_whole, Rect.mem_set_unit]
  intro a
  match a with
  | ⟨0, _⟩ =>
    show win4_3.index ⟨_, hN⟩ 0 * 4096 ≤ (i 0).val ∧ (i 0).val < win4_3.index ⟨_, hN⟩ 0 * 4096 + 4096
    rw [(index4_out ⟨_, hN⟩).1, hdiv]; omega
  | ⟨1, _⟩ =>
    show win4_3.index ⟨_, hN⟩ 1 * 16 ≤ (i 1).val ∧ (i 1).val < win4_3.index ⟨_, hN⟩ 1 * 16 + 16
    rw [(index4_out ⟨_, hN⟩).2]; omega

open Cert.GcnSpec in

theorem arr4_eq (c : Dev nD) (rw : Fin ET → BitVec 32) (h : InRange rw) (nrm : Fin ET → EReal)
    (hrow : ∀ e : Fin 1703936, V c main_v38 (ix2 e 0) = if h' : e.val < ET then rw ⟨e.val, h'⟩ else 0#32)
    (hnrm : ∀ e : Fin 1703936, V c main_v39 (ix2 e 0) = if h' : e.val < ET then nrm ⟨e.val, h'⟩ else Ideal.ofBits .f32 0x00000000#32) :
    (dat4 (F := Ideal) V c).arrAt 3 cfg4.N = gathered4 (V c main_v44) rw h nrm :=
  (dat4 (F := Ideal) V c).arrAt_eq_of_cover 3 (gathered4 (V c main_v44) rw h nrm) (flushed4_eq V c rw h nrm hrow hnrm) cover4

end AtIdeal

theorem gather4_final (V : (c : Dev nD) → (b : Ref sig .tc) → Buf (Elt Ideal) ((c : Thread nD τ).loc b)) (c : Dev nD)
    (rw : Fin Cert.GcnSpec.ET → BitVec 32) (h : Cert.GcnSpec.InRange rw) (nrm : Fin Cert.GcnSpec.ET → EReal)
    (hrow : ∀ e : Fin 1703936, V c main_v38 (ValueIdx.ix2 e 0) = if h' : e.val < Cert.GcnSpec.ET then rw ⟨e.val, h'⟩ else 0#32)
    (hnrm : ∀ e : Fin 1703936, V c main_v39 (ValueIdx.ix2 e 0) = if h' : e.val < Cert.GcnSpec.ET then nrm ⟨e.val, h'⟩ else Ideal.ofBits .f32 0x00000000#32)
    (e : Fin 1703936) (k : Fin 16) :
    (dat4 (F := Ideal) V c).arrAt 3 cfg4.N (ValueIdx.ix2 e k) = if h' : e.val < Cert.GcnSpec.ET then Cert.GcnSpec.msg (V c main_v44) rw h nrm (ValueIdx.ix2 ⟨e.val, h'⟩ k) else 0 :=
  (congrFun (arr4_eq V c rw h nrm hrow hnrm) (ix2 e k)).trans (gathered4_ix2 _ rw h nrm e k)

end Cert.KernelIdeal.Hand

end
-- ==== Proof.LibRowLogSoftmax.lean ====
import proofs.«128423_j81389630259984_1_alg».proof.Proof.LibPropagationChain

noncomputable section

namespace Cert.PropagationChain

open Idealize.ShloMosaic Idealize.ShloMosaic.ValueIdx Cert.DenseLayer Cert.ColumnLayout

section VectorLogSoftmax

variable {a b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

def topCol : FVec Ideal ⟨2, ![a, 1]⟩ .f32 :=
  shapeCast ⟨2, ![a, 1]⟩ (multiReduction .maximumf [1] ⟨1, ![a]⟩ z 0xFF800000#32 hr hφ hmax) hc

theorem topCol_apply (p : Fin a) (u : Fin 1) : topCol z hr hc hφ hmax (ix2 p u) = rowFold (fun k => z (ix2 p k)) :=
  (shapeCast_a_a1_apply _ hc p u).trans (multiReduction_max_rows_apply z _ hr hφ hmax p)

def shiftedExp : FVec Ideal ⟨2, ![a, b]⟩ .f32 :=
  exp (subf z (broadcastTo ⟨2, ![a, b]⟩ (topCol z hr hc hφ hmax) hb))

theorem shiftedExp_apply (p : Fin a) (q : Fin b) :
    shiftedExp z hr hc hb hφ hmax (ix2 p q) = Ideal.exp (z (ix2 p q) - rowFold (fun k => z (ix2 p k))) := by
  show Ideal.exp (z (ix2 p q) - broadcastTo ⟨2, ![a, b]⟩ (topCol z hr hc hφ hmax) hb (ix2 p q)) = _
  rw [broadcastTo_a1_ab_apply, topCol_apply]

end VectorLogSoftmax

end Cert.PropagationChain

end
-- ==== Proof.ValScatter.lean ====
import proofs.«128423_j81389630259984_1_alg».proof.Proof.IdealScatter2
import proofs.«128423_j81389630259984_1_alg».proof.Proof.IdealScatter5
import proofs.«128423_j81389630259984_1_alg».proof.Proof.Spec
import proofs.«128423_j81389630259984_1_alg».proof.Proof.LibDenseLayer
import proofs.«128423_j81389630259984_1_alg».proof.Proof.LibColumnLayout
import proofs.«128423_j81389630259984_1_alg».proof.Proof.LibPropagationChain
import proofs.«128423_j81389630259984_1_alg».proof.Proof.LibRowLogSoftmax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open Cert.DenseLayer Cert.ColumnLayout Cert.PropagationChain

namespace Scatter

theorem onehot_word (a b : BitVec 32) :
    (FloatOps.sitofp (F := Ideal) .f32 ((IntOp.cmpi .eq a b).setWidth 32) : EReal) = if a = b then 1 else 0 := by
  by_cases h : a = b
  · subst h
    simp [IntOp.cmpi, FloatOps.sitofp]
  · have hb : (a == b) = false := by simpa using h
    simp [IntOp.cmpi, FloatOps.sitofp, hb, h]

theorem toInt_ofNat_small (n : ℕ) (hn : n < 100000) : (BitVec.ofNat 32 n).toInt = (n : ℤ) := by
  have h1 : (BitVec.ofNat 32 n).toNat = n := by rw [BitVec.toNat_ofNat]; omega
  rw [BitVec.toInt_eq_toNat_of_lt (by rw [h1]; omega), h1]

theorem word_eq_iff (n : ℕ) (hn : n < 100000) (w : BitVec 32) : BitVec.ofNat 32 n = w ↔ w.toInt = (n : ℤ) :=
  ⟨fun h => h ▸ toInt_ofNat_small n hn, fun h => BitVec.eq_of_toInt_eq ((toInt_ofNat_small n hn).trans h.symm)⟩

theorem node_word (nb r : ℕ) :
    IntOp.addi (Scalar.muli (BitVec.ofNat 32 nb) 4000#32) (BitVec.ofNat 32 r) = BitVec.ofNat 32 (4000 * nb + r) := by
  show BitVec.ofNat 32 nb * BitVec.ofNat 32 4000 + BitVec.ofNat 32 r = _
  rw [BitVec.ofNat_mul_ofNat, BitVec.ofNat_add_ofNat, Nat.mul_comm]

theorem word_toNat (x : ℕ) (hx : x < 4294967296) : (BitVec.ofNat 32 x).toNat = x := by
  rw [BitVec.toNat_ofNat]; omega

theorem lhs2_0 (i : S4000x64.Idx) (q : dot_S4000x4096_S4096x64_S4000x64_1_0_0_1_n_n.contr.Idx) :
    (dot_S4000x4096_S4096x64_S4000x64_1_0_0_1_n_n.lhsIdx i q 0).val = (i 0).val := by
  unfold DotDims.lhsIdx
  rw [dif_neg (show ¬(0 : Fin S4000x4096.rank) ∈ dot_S4000x4096_S4096x64_S4000x64_1_0_0_1_n_n.lhsBatch by decide), dif_pos (show (0 : Fin S4000x4096.rank) ∈ dot_S4000x4096_S4096x64_S4000x64_1_0_0_1_n_n.lhsNonContracting by decide)]
  rfl
theorem lhs2_1 (i : S4000x64.Idx) (q : dot_S4000x4096_S4096x64_S4000x64_1_0_0_1_n_n.contr.Idx) :
    (dot_S4000x4096_S4096x64_S4000x64_1_0_0_1_n_n.lhsIdx i q 1).val = (q ⟨0, by decide⟩).val :=
  dot_S4000x4096_S4096x64_S4000x64_1_0_0_1_n_n.lhsIdx_val_of_single rfl i q
theorem rhs2_0 (i : S4000x64.Idx) (q : dot_S4000x4096_S4096x64_S4000x64_1_0_0_1_n_n.contr.Idx) :
    (dot_S4000x4096_S4096x64_S4000x64_1_0_0_1_n_n.rhsIdx i q 0).val = (q ⟨0, by decide⟩).val :=
  dot_S4000x4096_S4096x64_S4000x64_1_0_0_1_n_n.rhsIdx_val_of_single rfl i q
theorem rhs2_1 (i : S4000x64.Idx) (q : dot_S4000x4096_S4096x64_S4000x64_1_0_0_1_n_n.contr.Idx) :
    (dot_S4000x4096_S4096x64_S4000x64_1_0_0_1_n_n.rhsIdx i q 1).val = (i 1).val := by
  unfold DotDims.rhsIdx
  rw [dif_neg (show ¬(1 : Fin S4096x64.rank) ∈ dot_S4000x4096_S4096x64_S4000x64_1_0_0_1_n_n.rhsBatch by decide), dif_pos (show (1 : Fin S4096x64.rank) ∈ dot_S4000x4096_S4096x64_S4000x64_1_0_0_1_n_n.rhsNonContracting by decide)]
  rfl

theorem plainDot2 : PlainDot dot_S4000x4096_S4096x64_S4000x64_1_0_0_1_n_n where
  rank := rfl
  size := rfl
  lhs0 := lhs2_0
  lhs1 := lhs2_1
  rhs0 := rhs2_0
  rhs1 := rhs2_1

theorem lhs5_0 (i : S4000x16.Idx) (q : dot_S4000x4096_S4096x16_S4000x16_1_0_0_1_n_n.contr.Idx) :
    (dot_S4000x4096_S4096x16_S4000x16_1_0_0_1_n_n.lhsIdx i q 0).val = (i 0).val := by
  unfold DotDims.lhsIdx
  rw [dif_neg (show ¬(0 : Fin S4000x4096.rank) ∈ dot_S4000x4096_S4096x16_S4000x16_1_0_0_1_n_n.lhsBatch by decide), dif_pos (show (0 : Fin S4000x4096.rank) ∈ dot_S4000x4096_S4096x16_S4000x16_1_0_0_1_n_n.lhsNonContracting by decide)]
  rfl
theorem lhs5_1 (i : S4000x16.Idx) (q : dot_S4000x4096_S4096x16_S4000x16_1_0_0_1_n_n.contr.Idx) :
    (dot_S4000x4096_S4096x16_S4000x16_1_0_0_1_n_n.lhsIdx i q 1).val = (q ⟨0, by decide⟩).val :=
  dot_S4000x4096_S4096x16_S4000x16_1_0_0_1_n_n.lhsIdx_val_of_single rfl i q
theorem rhs5_0 (i : S4000x16.Idx) (q : dot_S4000x4096_S4096x16_S4000x16_1_0_0_1_n_n.contr.Idx) :
    (dot_S4000x4096_S4096x16_S4000x16_1_0_0_1_n_n.rhsIdx i q 0).val = (q ⟨0, by decide⟩).val :=
  dot_S4000x4096_S4096x16_S4000x16_1_0_0_1_n_n.rhsIdx_val_of_single rfl i q
theorem rhs5_1 (i : S4000x16.Idx) (q : dot_S4000x4096_S4096x16_S4000x16_1_0_0_1_n_n.contr.Idx) :
    (dot_S4000x4096_S4096x16_S4000x16_1_0_0_1_n_n.rhsIdx i q 1).val = (i 1).val := by
  unfold DotDims.rhsIdx
  rw [dif_neg (show ¬(1 : Fin S4096x16.rank) ∈ dot_S4000x4096_S4096x16_S4000x16_1_0_0_1_n_n.rhsBatch by decide), dif_pos (show (1 : Fin S4096x16.rank) ∈ dot_S4000x4096_S4096x16_S4000x16_1_0_0_1_n_n.rhsNonContracting by decide)]
  rfl

theorem plainDot5 : PlainDot dot_S4000x4096_S4096x16_S4000x16_1_0_0_1_n_n where
  rank := rfl
  size := rfl
  lhs0 := lhs5_0
  lhs1 := lhs5_1
  rhs0 := rhs5_0
  rhs1 := rhs5_1

def onehot (nb : ℕ) (v7 : IVec S1x4096 32) : FVec Ideal S4000x4096 .bf16 :=
  truncf .bf16 (sitofp .f32 (extui 32 (cmpi .eq
    (broadcastTo S4000x4096 (addi (broadcast S4000x1 (Scalar.muli (BitVec.ofNat 32 nb) 4000#32)) (iota .tc S4000x1 32 [0] iota_S4000x1_d0_w32)) broadcasts_S4000x1_S4000x4096)
    (broadcastTo S4000x4096 v7 broadcasts_S1x4096_S4000x4096)) natLt_1_32)) bitsLt_bf16_f32

theorem onehot_apply (nb : ℕ) (v7 : IVec S1x4096 32) (r : Fin 4000) (j : Fin 4096) :
    onehot nb v7 (ix2 r j) = if BitVec.ofNat 32 (4000 * nb + r.val) = v7 (ix2 (0 : Fin 1) j) then 1 else 0 := by
  have e9 : broadcastTo S4000x4096 (addi (broadcast S4000x1 (Scalar.muli (BitVec.ofNat 32 nb) 4000#32)) (iota .tc S4000x1 32 [0] iota_S4000x1_d0_w32)) broadcasts_S4000x1_S4000x4096 (ix2 r j)
      = BitVec.ofNat 32 (4000 * nb + r.val) := by
    refine (broadcastTo_a1_ab_apply _ broadcasts_S4000x1_S4000x4096 r j).trans ?_
    show IntOp.addi (Scalar.muli (BitVec.ofNat 32 nb) 4000#32) (iota .tc S4000x1 32 [0] iota_S4000x1_d0_w32 (ix2 r (0 : Fin 1))) = _
    rw [iota_single_apply]
    exact node_word nb r.val
  have e10 : broadcastTo S4000x4096 v7 broadcasts_S1x4096_S4000x4096 (ix2 r j) = v7 (ix2 (0 : Fin 1) j) :=
    broadcastTo_1b_ab_apply _ broadcasts_S1x4096_S4000x4096 r j
  exact (congrArg₂ (fun a b : BitVec 32 => (FloatOps.sitofp (F := Ideal) .f32 ((IntOp.cmpi .eq a b).setWidth 32) : EReal)) e9 e10).trans
    (onehot_word _ _)

theorem pay2_2_eq (i : grid2.Coords) (v7 : IVec S1x4096 32) (v15 : FVec Ideal S4096x64 .bf16) (v17 : FVec Ideal S4000x64 .f32) :
    k2_pay2 (F := Ideal) i v7 v15 v17
      = addf v17 (matmul dot_S4000x4096_S4096x64_S4000x64_1_0_0_1_n_n none (onehot (i 0).val v7) v15 (constant S4000x64 .f32 0x00000000#32)) := by
  unfold k2_pay2 onehot
  simp only [shapeCast_self]

theorem pay2_2_apply (i : grid2.Coords) (v7 : IVec S1x4096 32) (v15 : FVec Ideal S4096x64 .bf16) (v17 : FVec Ideal S4000x64 .f32)
    (r : Fin 4000) (k : Fin 64) :
    k2_pay2 (F := Ideal) i v7 v15 v17 (ix2 r k)
      = v17 (ix2 r k) + ∑ j : Fin 4096,
          (if BitVec.ofNat 32 (4000 * (i 0).val + r.val) = v7 (ix2 (0 : Fin 1) j) then (1 : EReal) else 0) * v15 (ix2 j k) := by
  rw [pay2_2_eq]
  show v17 (ix2 r k) + FloatOps.matmul dot_S4000x4096_S4096x64_S4000x64_1_0_0_1_n_n none (onehot (i 0).val v7) v15 (constant S4000x64 .f32 0x00000000#32) (ix2 r k) = _
  rw [matmul_zero_apply plainDot2]
  show v17 (ix2 r k) + ∑ j : Fin 4096, onehot (i 0).val v7 (ix2 r j) * v15 (ix2 j k) = _
  refine congrArg (v17 (ix2 r k) + ·) (Finset.sum_congr rfl fun j _ => ?_)
  rw [onehot_apply]

theorem pay2_1_apply (i : S4000x64.Idx) : k2_pay1 (F := Ideal) i = 0 := by
  show Ideal.ofBits .f32 0x00000000#32 = 0
  exact Ideal.ofBits_zero_f32

theorem pay5_2_eq (i : grid5.Coords) (v7 : IVec S1x4096 32) (v15 : FVec Ideal S4096x16 .bf16) (v17 : FVec Ideal S4000x16 .f32) :
    k5_pay2 (F := Ideal) i v7 v15 v17
      = addf v17 (matmul dot_S4000x4096_S4096x16_S4000x16_1_0_0_1_n_n none (onehot (i 0).val v7) v15 (constant S4000x16 .f32 0x00000000#32)) := by
  unfold k5_pay2 onehot
  simp only [shapeCast_self]

theorem pay5_2_apply (i : grid5.Coords) (v7 : IVec S1x4096 32) (v15 : FVec Ideal S4096x16 .bf16) (v17 : FVec Ideal S4000x16 .f32)
    (r : Fin 4000) (k : Fin 16) :
    k5_pay2 (F := Ideal) i v7 v15 v17 (ix2 r k)
      = v17 (ix2 r k) + ∑ j : Fin 4096,
          (if BitVec.ofNat 32 (4000 * (i 0).val + r.val) = v7 (ix2 (0 : Fin 1) j) then (1 : EReal) else 0) * v15 (ix2 j k) := by
  rw [pay5_2_eq]
  show v17 (ix2 r k) + FloatOps.matmul dot_S4000x4096_S4096x16_S4000x16_1_0_0_1_n_n none (onehot (i 0).val v7) v15 (constant S4000x16 .f32 0x00000000#32) (ix2 r k) = _
  rw [matmul_zero_apply plainDot5]
  show v17 (ix2 r k) + ∑ j : Fin 4096, onehot (i 0).val v7 (ix2 r j) * v15 (ix2 j k) = _
  refine congrArg (v17 (ix2 r k) + ·) (Finset.sum_congr rfl fun j _ => ?_)
  rw [onehot_apply]

theorem pay5_1_apply (i : S4000x16.Idx) : k5_pay1 (F := Ideal) i = 0 := by
  show Ideal.ofBits .f32 0x00000000#32 = 0
  exact Ideal.ofBits_zero_f32

theorem pay2_3_apply (acc : FVec Ideal S4000x64 .f32) (r : Fin 4000) (k : Fin 64) :
    k2_pay3 (F := Ideal) acc (ix2 r k) = max (acc (ix2 r k)) (Ideal.ofBits .f32 0x00000000#32) := rfl

theorem pay5_3_apply (acc : FVec Ideal S4000x16 .f32) (p : Fin 4000) (q : Fin 16) :
    k5_pay3 (F := Ideal) acc (ix2 p q)
      = (acc (ix2 p q) - rowFold (fun k => acc (ix2 p k)))
        - Ideal.log (∑ j : Fin 16, Ideal.exp (acc (ix2 p j) - rowFold (fun k => acc (ix2 p k)))) := by
  have hφ : FKind.Formats .f32 := .inl rfl
  have hmax : (0xFF800000#32 : BitVec 32) = FKind.maximumf.neutral .f32 hφ := rfl
  have hadd : (0x00000000#32 : BitVec 32) = FKind.add.neutral .f32 hφ := rfl
  have e : k5_pay3 (F := Ideal) acc
      = subf (subf acc (broadcastTo S4000x16 (topCol acc reduces_S4000x16_S4000 shapeCasts_S4000_S4000x1 hφ hmax) broadcasts_S4000x1_S4000x16))
          (broadcastTo S4000x16
            (log (shapeCast S4000x1
              (multiReduction (F := Ideal) .add [1] S4000
                (shiftedExp acc reduces_S4000x16_S4000 shapeCasts_S4000_S4000x1 broadcasts_S4000x1_S4000x16 hφ hmax)
                0x00000000#32 reduces_S4000x16_S4000 hφ hadd) shapeCasts_S4000_S4000x1))
            broadcasts_S4000x1_S4000x16) := rfl
  rw [e]
  show (acc (ix2 p q) - broadcastTo S4000x16 (topCol acc reduces_S4000x16_S4000 shapeCasts_S4000_S4000x1 hφ hmax) broadcasts_S4000x1_S4000x16 (ix2 p q))
      - broadcastTo S4000x16
          (log (shapeCast S4000x1
            (multiReduction (F := Ideal) .add [1] S4000
              (shiftedExp acc reduces_S4000x16_S4000 shapeCasts_S4000_S4000x1 broadcasts_S4000x1_S4000x16 hφ hmax)
              0x00000000#32 reduces_S4000x16_S4000 hφ hadd) shapeCasts_S4000_S4000x1))
          broadcasts_S4000x1_S4000x16 (ix2 p q) = _
  rw [broadcastTo_a1_ab_apply, broadcastTo_a1_ab_apply, topCol_apply]
  show _ - Ideal.log (shapeCast S4000x1
      (multiReduction (F := Ideal) .add [1] S4000
        (shiftedExp acc reduces_S4000x16_S4000 shapeCasts_S4000_S4000x1 broadcasts_S4000x1_S4000x16 hφ hmax)
        0x00000000#32 reduces_S4000x16_S4000 hφ hadd) shapeCasts_S4000_S4000x1 (ix2 p (0 : Fin 1))) = _
  rw [shapeCast_a_a1_apply, multiReduction_add_rows_apply]
  simp only [shiftedExp_apply]

section Sums

open Cert.GcnSpec

variable {C : ℕ}

def cwPad (cw : Fin ET → BitVec 32) (e : ℕ) : BitVec 32 := if h : e < ET then cw ⟨e, h⟩ else 0#32

def msgPad (M : Mat ET C) (e : ℕ) (k : Fin C) : EReal := if h : e < ET then M (ix2 ⟨e, h⟩ k) else 0

def addend (cw : Fin ET → BitVec 32) (M : Mat ET C) (n : ℕ) (i : (⟨2, ![4000, C]⟩ : Shape).Idx) : EReal :=
  ∑ j : Fin 4096,
    (if BitVec.ofNat 32 (4000 * (n / 416) + (i 0).val) = cwPad cw (4096 * (n % 416) + j.val) then (1 : EReal) else 0)
      * msgPad M (4096 * (n % 416) + j.val) (i 1)

theorem sum_blocks {β : Type} [AddCommMonoid β] (m n : ℕ) (f : ℕ → β) :
    ∑ s ∈ Finset.range m, ∑ j : Fin n, f (n * s + j.val) = ∑ e ∈ Finset.range (m * n), f e := by
  rw [Finset.sum_range, Finset.sum_range (fun e => f e), ← Equiv.sum_comp finProdFinEquiv (fun e : Fin (m * n) => f e.val),
    Fintype.sum_prod_type]
  refine Finset.sum_congr rfl fun s _ => Finset.sum_congr rfl fun j _ => ?_
  show f (n * s.val + j.val) = f (j.val + n * s.val)
  rw [Nat.add_comm]

theorem sum_addend (cw : Fin ET → BitVec 32) (M : Mat ET C) (nb : ℕ) (r : Fin 4000) (k : Fin C)
    (hnode : 4000 * nb + r.val < NN) :
    ∑ s ∈ Finset.range 416, addend cw M (416 * nb + s) (ix2 r k) = agg M cw (ix2 ⟨4000 * nb + r.val, hnode⟩ k) := by
  have hnode' : 4000 * nb + r.val < 100000 := hnode

  let term : ℕ → EReal := fun e =>
    (if BitVec.ofNat 32 (4000 * nb + r.val) = cwPad cw e then (1 : EReal) else 0) * msgPad M e k
  have h1 : ∀ s ∈ Finset.range 416, addend cw M (416 * nb + s) (ix2 r k) = ∑ j : Fin 4096, term (4096 * s + j.val) := by
    intro s hs
    have hs' : s < 416 := Finset.mem_range.mp hs
    have hd : (416 * nb + s) / 416 = nb := by omega
    have hm : (416 * nb + s) % 416 = s := by omega
    unfold addend
    rw [hd, hm]
    rfl
  rw [Finset.sum_congr rfl h1, sum_blocks 416 4096 term]

  have h2 : ∑ e ∈ Finset.range (416 * 4096), term e = ∑ e ∈ Finset.range ET, term e := by
    refine (Finset.sum_subset (Finset.range_subset_range.2 (by decide)) fun e _ he => ?_).symm
    have hge : ¬e < ET := fun h => he (Finset.mem_range.mpr h)
    show (if BitVec.ofNat 32 (4000 * nb + r.val) = cwPad cw e then (1 : EReal) else 0) * msgPad M e k = 0
    unfold msgPad
    rw [dif_neg hge, mul_zero]
  rw [h2, Finset.sum_range]
  unfold agg
  rw [Finset.sum_filter]
  refine Finset.sum_congr rfl fun e _ => ?_
  show (if BitVec.ofNat 32 (4000 * nb + r.val) = cwPad cw e.val then (1 : EReal) else 0) * msgPad M e.val k
    = if (cw e).toInt = ((4000 * nb + r.val : ℕ) : ℤ) then M (ix2 e k) else 0
  have hc : cwPad cw e.val = cw e := by unfold cwPad; rw [dif_pos e.isLt]
  have hM : msgPad M e.val k = M (ix2 e k) := by unfold msgPad; rw [dif_pos e.isLt]
  rw [hc, hM]
  by_cases h : (cw e).toInt = ((4000 * nb + r.val : ℕ) : ℤ)
  · rw [if_pos h, if_pos ((word_eq_iff _ hnode' _).2 h), one_mul]
  · rw [if_neg h, if_neg (fun h' => h ((word_eq_iff _ hnode' _).1 h')), zero_mul]

end Sums

theorem N2 : cfg2.N = 10400 := by decide

theorem coords2_0 (n : ℕ) (h : n < cfg2.N) : ((grid2.coords ⟨n, h⟩) 0).val = n / 416 := by
  have hN : cfg2.N = 10400 := N2
  show n / grid2.stride 0 % 25 = n / 416
  rw [show grid2.stride 0 = 416 from by decide]
  omega

theorem coords2_1 (n : ℕ) (h : n < cfg2.N) : ((grid2.coords ⟨n, h⟩) 1).val = n % 416 := by
  show n / grid2.stride 1 % 416 = n % 416
  rw [show grid2.stride 1 = 1 from by decide, Nat.div_one]

theorem idx2_0 (n : ℕ) (h : n < cfg2.N) : win2_0.index ⟨n, h⟩ 0 = n % 416 ∧ win2_0.index ⟨n, h⟩ 1 = 0 := by
  refine ⟨?_, rfl⟩
  show (BitVec.ofNat 32 ((grid2.coords ⟨n, h⟩) 1).val).toNat = n % 416
  rw [coords2_1, word_toNat _ (by omega)]

theorem idx2_1 (n : ℕ) (h : n < cfg2.N) : win2_1.index ⟨n, h⟩ 0 = 0 ∧ win2_1.index ⟨n, h⟩ 1 = n % 416 := by
  refine ⟨rfl, ?_⟩
  show (BitVec.ofNat 32 ((grid2.coords ⟨n, h⟩) 1).val).toNat = n % 416
  rw [coords2_1, word_toNat _ (by omega)]

theorem idx2_2 (n : ℕ) (h : n < cfg2.N) : win2_2.index ⟨n, h⟩ 0 = n / 416 ∧ win2_2.index ⟨n, h⟩ 1 = 0 := by
  have hN : cfg2.N = 10400 := N2
  refine ⟨?_, rfl⟩
  show (BitVec.ofNat 32 ((grid2.coords ⟨n, h⟩) 0).val).toNat = n / 416
  rw [coords2_0, word_toNat _ (by omega)]

theorem cblk2_apply (V : (c : Dev nD) → (b : Ref sig .tc) → Buf (Elt Ideal) ((c : Thread nD τ).loc b)) (c : Dev nD) (cw : Fin Cert.GcnSpec.ET → BitVec 32)
    (hcol : ∀ e : Fin 1703936, V c main_v40 (ix2 (0 : Fin 1) e) = if h' : e.val < Cert.GcnSpec.ET then cw ⟨e.val, h'⟩ else 0#32)
    (n : ℕ) (h : n < cfg2.N) (j : Fin 4096) :
    (iblk2 V c 1 ⟨n, h⟩ : IVec S1x4096 32) (ix2 (0 : Fin 1) j) = cwPad cw (4096 * (n % 416) + j.val) := by
  have hj := j.isLt
  have hlt : 4096 * (n % 416) + j.val < 1703936 := by omega
  have e : (iblk2 V c 1 ⟨n, h⟩ : IVec S1x4096 32) (ix2 (0 : Fin 1) j)
      = V c main_v40 (ix2 (0 : Fin 1) (⟨4096 * (n % 416) + j.val, hlt⟩ : Fin 1703936)) := by
    unfold iblk2
    rw [View.read_apply]
    show V c main_v40 _ = V c main_v40 _
    refine congrArg (V c main_v40) (funext fun a => Fin.ext ?_)
    match a with
    | ⟨0, _⟩ =>
      show win2_1.index ⟨n, h⟩ 0 * 1 + 1 * 0 = 0
      rw [(idx2_1 n h).1]
    | ⟨1, _⟩ =>
      show win2_1.index ⟨n, h⟩ 1 * 4096 + 1 * j.val = 4096 * (n % 416) + j.val
      rw [(idx2_1 n h).2]; omega
  rw [e, hcol]
  rfl

theorem mblk2_apply (V : (c : Dev nD) → (b : Ref sig .tc) → Buf (Elt Ideal) ((c : Thread nD τ).loc b)) (c : Dev nD) (M : Cert.DenseLayer.Mat Cert.GcnSpec.ET 64)
    (hmsg : ∀ (e : Fin 1703936) (k : Fin 64), V c main_v42 (ix2 e k) = if h' : e.val < Cert.GcnSpec.ET then M (ix2 ⟨e.val, h'⟩ k) else 0)
    (n : ℕ) (h : n < cfg2.N) (j : Fin 4096) (k : Fin 64) :
    (iblk2 V c 0 ⟨n, h⟩ : FVec Ideal S4096x64 .bf16) (ix2 j k) = msgPad M (4096 * (n % 416) + j.val) k := by
  have hj := j.isLt
  have hlt : 4096 * (n % 416) + j.val < 1703936 := by omega
  have e : (iblk2 V c 0 ⟨n, h⟩ : FVec Ideal S4096x64 .bf16) (ix2 j k)
      = V c main_v42 (ix2 (⟨4096 * (n % 416) + j.val, hlt⟩ : Fin 1703936) k) := by
    unfold iblk2
    rw [View.read_apply]
    show V c main_v42 _ = V c main_v42 _
    refine congrArg (V c main_v42) (funext fun a => Fin.ext ?_)
    match a with
    | ⟨0, _⟩ =>
      show win2_0.index ⟨n, h⟩ 0 * 4096 + 1 * j.val = 4096 * (n % 416) + j.val
      rw [(idx2_0 n h).1]; omega
    | ⟨1, _⟩ =>
      show win2_0.index ⟨n, h⟩ 1 * 64 + 1 * k.val = k.val
      rw [(idx2_0 n h).2]; omega
  rw [e, hmsg]
  rfl

theorem step2_apply (V : (c : Dev nD) → (b : Ref sig .tc) → Buf (Elt Ideal) ((c : Thread nD τ).loc b)) (c : Dev nD) (cw : Fin Cert.GcnSpec.ET → BitVec 32) (M : Cert.DenseLayer.Mat Cert.GcnSpec.ET 64)
    (hcol : ∀ e : Fin 1703936, V c main_v40 (ix2 (0 : Fin 1) e) = if h' : e.val < Cert.GcnSpec.ET then cw ⟨e.val, h'⟩ else 0#32)
    (hmsg : ∀ (e : Fin 1703936) (k : Fin 64), V c main_v42 (ix2 e k) = if h' : e.val < Cert.GcnSpec.ET then M (ix2 ⟨e.val, h'⟩ k) else 0)
    (n : ℕ) (h : n < cfg2.N) (acc : S4000x64.Idx → EReal) (i : S4000x64.Idx) :
    k2_pay2 (F := Ideal) (grid2.coords ⟨n, h⟩) (iblk2 V c 1 ⟨n, h⟩) (iblk2 V c 0 ⟨n, h⟩) acc i = acc i + addend cw M n i := by
  obtain ⟨r, k, rfl⟩ : ∃ (r : Fin 4000) (k : Fin 64), i = ix2 r k := ⟨i 0, i 1, eq_ix2 i⟩
  refine (pay2_2_apply (grid2.coords ⟨n, h⟩) (iblk2 V c 1 ⟨n, h⟩) (iblk2 V c 0 ⟨n, h⟩) acc r k).trans ?_
  refine congrArg (acc (ix2 r k) + ·) ?_
  unfold addend
  refine Finset.sum_congr rfl fun j _ => ?_
  rw [coords2_0 n h, cblk2_apply V c cw hcol n h j, mblk2_apply V c M hmsg n h j k]

def reset2 (V : (c : Dev nD) → (b : Ref sig .tc) → Buf (Elt Ideal) ((c : Thread nD τ).loc b)) (c : Dev nD) : (n : ℕ) → n < cfg2.N → S4000x64.Idx → EReal :=
  fun n h => k2_pay2 (F := Ideal) (grid2.coords ⟨n, h⟩) (iblk2 V c 1 ⟨n, h⟩) (iblk2 V c 0 ⟨n, h⟩) (k2_pay1 (F := Ideal))
def step2 (V : (c : Dev nD) → (b : Ref sig .tc) → Buf (Elt Ideal) ((c : Thread nD τ).loc b)) (c : Dev nD) : (n : ℕ) → n < cfg2.N → (S4000x64.Idx → EReal) → S4000x64.Idx → EReal :=
  fun n h acc => k2_pay2 (F := Ideal) (grid2.coords ⟨n, h⟩) (iblk2 V c 1 ⟨n, h⟩) (iblk2 V c 0 ⟨n, h⟩) acc

theorem acc2_at (V : (c : Dev nD) → (b : Ref sig .tc) → Buf (Elt Ideal) ((c : Thread nD τ).loc b)) (c : Dev nD) (cw : Fin Cert.GcnSpec.ET → BitVec 32) (M : Cert.DenseLayer.Mat Cert.GcnSpec.ET 64)
    (hcol : ∀ e : Fin 1703936, V c main_v40 (ix2 (0 : Fin 1) e) = if h' : e.val < Cert.GcnSpec.ET then cw ⟨e.val, h'⟩ else 0#32)
    (hmsg : ∀ (e : Fin 1703936) (k : Fin 64), V c main_v42 (ix2 e k) = if h' : e.val < Cert.GcnSpec.ET then M (ix2 ⟨e.val, h'⟩ k) else 0)
    (t : Fin cfg2.N) (h415 : t.val % 416 = 415) (r : Fin 4000) (k : Fin 64) (hnode : 4000 * (t.val / 416) + r.val < Cert.GcnSpec.NN) :
    (acc2 V c t.val t.isLt : S4000x64.Idx → EReal) (ix2 r k) = Cert.GcnSpec.agg M cw (ix2 ⟨4000 * (t.val / 416) + r.val, hnode⟩ k) := by
  have hb : 416 * (t.val / 416) + t.val % 416 < cfg2.N := by rw [Nat.div_add_mod]; exact t.isLt
  have key := Pipeline.eq_accAt_of_mod (acc2 V c) 416 (reset2 V c) (step2 V c)
    (fun n h hm => acc2_reset V c ⟨n, h⟩ hm) (fun n h hm => acc2_step V c ⟨n + 1, h⟩ hm) (by decide) t.val t.isLt hb
  have unroll := Pipeline.accAt_add_apply (ι := S4000x64.Idx) (β := EReal) (reset2 V c) (step2 V c) (k2_pay1 (F := Ideal)) (addend cw M)
    (416 * (t.val / 416)) 415
    (fun h i => step2_apply V c cw M hcol hmsg (416 * (t.val / 416)) h (k2_pay1 (F := Ideal)) i)
    (fun n h acc i _ _ => step2_apply V c cw M hcol hmsg n h acc i)
    (t.val % 416) (by omega) hb (ix2 r k)
  refine (congrFun key (ix2 r k)).trans (unroll.trans ?_)
  rw [h415, pay2_1_apply, zero_add]
  exact sum_addend cw M (t.val / 416) r k hnode

theorem out2_at (V : (c : Dev nD) → (b : Ref sig .tc) → Buf (Elt Ideal) ((c : Thread nD τ).loc b)) (c : Dev nD) (cw : Fin Cert.GcnSpec.ET → BitVec 32) (M : Cert.DenseLayer.Mat Cert.GcnSpec.ET 64)
    (hcol : ∀ e : Fin 1703936, V c main_v40 (ix2 (0 : Fin 1) e) = if h' : e.val < Cert.GcnSpec.ET then cw ⟨e.val, h'⟩ else 0#32)
    (hmsg : ∀ (e : Fin 1703936) (k : Fin 64), V c main_v42 (ix2 e k) = if h' : e.val < Cert.GcnSpec.ET then M (ix2 ⟨e.val, h'⟩ k) else 0)
    (t : Fin cfg2.N) (h415 : t.val % 416 = 415) (r : Fin 4000) (k : Fin 64) (hnode : 4000 * (t.val / 416) + r.val < Cert.GcnSpec.NN) :
    k2_pay3 (F := Ideal) (acc2 V c t.val t.isLt) (ix2 r k) = Cert.GcnSpec.clamp0 (Cert.GcnSpec.agg M cw) (ix2 ⟨4000 * (t.val / 416) + r.val, hnode⟩ k) := by
  rw [pay2_3_apply, acc2_at V c cw M hcol hmsg t h415 r k hnode]
  generalize Cert.GcnSpec.agg M cw = A
  rfl

theorem flushed2_eq (V : (c : Dev nD) → (b : Ref sig .tc) → Buf (Elt Ideal) ((c : Thread nD τ).loc b)) (c : Dev nD) (G : S100000x64.Idx → EReal)
    (hG : ∀ (t : Fin cfg2.N), t.val % 416 = 415 → ∀ (r : Fin 4000) (k : Fin 64) (hnode : 4000 * (t.val / 416) + r.val < Cert.GcnSpec.NN),
      k2_pay3 (F := Ideal) (acc2 V c t.val t.isLt) (ix2 r k) = G (ix2 ⟨4000 * (t.val / 416) + r.val, hnode⟩ k))
    (t : Fin cfg2.N) (hf : (cfg2.win 2).flush t = true) :
    (dat2 (F := Ideal) V c).flushed 2 t = ((cfg2.win 2).blk t).view.read (Elt Ideal) G := by
  have h415 : t.val % 416 = 415 := (flush2_2 t).mp hf
  have hN : cfg2.N = 10400 := N2
  have ht := t.isLt
  show (cfg2.win 2).cut (grid2.coords t) ((dat2 (F := Ideal) V c).after 2 t) = _
  rw [after2_2]
  funext y
  have hy0 : (y 0).val < 4000 := (y 0).isLt
  have hy1 : (y 1).val < 64 := (y 1).isLt
  have hnode : 4000 * (t.val / 416) + (y 0).val < Cert.GcnSpec.NN := by show _ < 100000; omega

  have hx : (cfg2.win 2).xinj (grid2.coords t) y = ix2 (⟨(y 0).val, hy0⟩ : Fin 4000) (⟨(y 1).val, hy1⟩ : Fin 64) :=
    funext fun a => match a with | ⟨0, _⟩ => rfl | ⟨1, _⟩ => rfl
  have hemb : ((cfg2.win 2).blk t).view.emb y
      = ix2 (⟨4000 * (t.val / 416) + (y 0).val, hnode⟩ : Fin Cert.GcnSpec.NN) (⟨(y 1).val, hy1⟩ : Fin 64) :=
    funext fun a => Fin.ext (by
      match a with
      | ⟨0, _⟩ =>
        show win2_2.index t 0 * 4000 + 1 * (y 0).val = 4000 * (t.val / 416) + (y 0).val
        rw [(idx2_2 t.val t.isLt).1]; omega
      | ⟨1, _⟩ =>
        show win2_2.index t 1 * 64 + 1 * (y 1).val = (y 1).val
        rw [(idx2_2 t.val t.isLt).2]; omega)
  rw [View.read_apply, hemb]
  show k2_pay3 (F := Ideal) (acc2 V c t.val t.isLt) ((cfg2.win 2).xinj (grid2.coords t) y) = G _
  rw [hx]
  exact hG t h415 _ _ hnode

theorem cover2 (i : S100000x64.Idx) :
    ∃ t : Fin cfg2.N, (cfg2.win 2).flush t = true ∧ i ∈ ((cfg2.win 2).blk t).view.set := by
  have h0 : (i 0).val < 100000 := (i 0).isLt
  have h1 : (i 1).val < 64 := (i 1).isLt
  have hN : cfg2.N = 10400 := N2
  have hlt : 416 * ((i 0).val / 4000) + 415 < cfg2.N := by rw [hN]; omega
  refine ⟨⟨416 * ((i 0).val / 4000) + 415, hlt⟩, (flush2_2 _).mpr (by show (416 * ((i 0).val / 4000) + 415) % 416 = 415; omega), ?_⟩
  show i ∈ ((View.whole main_v43).slice (win2_2.rect ⟨416 * ((i 0).val / 4000) + 415, hlt⟩)).set
  rw [View.set_slice_whole, Rect.mem_set_unit]
  intro a
  match a with
  | ⟨0, _⟩ =>
    show win2_2.index ⟨416 * ((i 0).val / 4000) + 415, hlt⟩ 0 * 4000 ≤ (i 0).val
      ∧ (i 0).val < win2_2.index ⟨416 * ((i 0).val / 4000) + 415, hlt⟩ 0 * 4000 + 4000
    rw [(idx2_2 _ hlt).1]; omega
  | ⟨1, _⟩ =>
    show win2_2.index ⟨416 * ((i 0).val / 4000) + 415, hlt⟩ 1 * 64 ≤ (i 1).val
      ∧ (i 1).val < win2_2.index ⟨416 * ((i 0).val / 4000) + 415, hlt⟩ 1 * 64 + 64
    rw [(idx2_2 _ hlt).2]; omega

theorem N5 : cfg5.N = 10400 := by decide

theorem coords5_0 (n : ℕ) (h : n < cfg5.N) : ((grid5.coords ⟨n, h⟩) 0).val = n / 416 := by
  have hN : cfg5.N = 10400 := N5
  show n / grid5.stride 0 % 25 = n / 416
  rw [show grid5.stride 0 = 416 from by decide]
  omega

theorem coords5_1 (n : ℕ) (h : n < cfg5.N) : ((grid5.coords ⟨n, h⟩) 1).val = n % 416 := by
  show n / grid5.stride 1 % 416 = n % 416
  rw [show grid5.stride 1 = 1 from by decide, Nat.div_one]

theorem idx5_0 (n : ℕ) (h : n < cfg5.N) : win5_0.index ⟨n, h⟩ 0 = n % 416 ∧ win5_0.index ⟨n, h⟩ 1 = 0 := by
  refine ⟨?_, rfl⟩
  show (BitVec.ofNat 32 ((grid5.coords ⟨n, h⟩) 1).val).toNat = n % 416
  rw [coords5_1, word_toNat _ (by omega)]

theorem idx5_1 (n : ℕ) (h : n < cfg5.N) : win5_1.index ⟨n, h⟩ 0 = 0 ∧ win5_1.index ⟨n, h⟩ 1 = n % 416 := by
  refine ⟨rfl, ?_⟩
  show (BitVec.ofNat 32 ((grid5.coords ⟨n, h⟩) 1).val).toNat = n % 416
  rw [coords5_1, word_toNat _ (by omega)]

theorem idx5_2 (n : ℕ) (h : n < cfg5.N) : win5_2.index ⟨n, h⟩ 0 = n / 416 ∧ win5_2.index ⟨n, h⟩ 1 = 0 := by
  have hN : cfg5.N = 10400 := N5
  refine ⟨?_, rfl⟩
  show (BitVec.ofNat 32 ((grid5.coords ⟨n, h⟩) 0).val).toNat = n / 416
  rw [coords5_0, word_toNat _ (by omega)]

theorem cblk5_apply (V : (c : Dev nD) → (b : Ref sig .tc) → Buf (Elt Ideal) ((c : Thread nD τ).loc b)) (c : Dev nD) (cw : Fin Cert.GcnSpec.ET → BitVec 32)
    (hcol : ∀ e : Fin 1703936, V c main_v40 (ix2 (0 : Fin 1) e) = if h' : e.val < Cert.GcnSpec.ET then cw ⟨e.val, h'⟩ else 0#32)
    (n : ℕ) (h : n < cfg5.N) (j : Fin 4096) :
    (iblk5 V c 1 ⟨n, h⟩ : IVec S1x4096 32) (ix2 (0 : Fin 1) j) = cwPad cw (4096 * (n % 416) + j.val) := by
  have hj := j.isLt
  have hlt : 4096 * (n % 416) + j.val < 1703936 := by omega
  have e : (iblk5 V c 1 ⟨n, h⟩ : IVec S1x4096 32) (ix2 (0 : Fin 1) j)
      = V c main_v40 (ix2 (0 : Fin 1) (⟨4096 * (n % 416) + j.val, hlt⟩ : Fin 1703936)) := by
    unfold iblk5
    rw [View.read_apply]
    show V c main_v40 _ = V c main_v40 _
    refine congrArg (V c main_v40) (funext fun a => Fin.ext ?_)
    match a with
    | ⟨0, _⟩ =>
      show win5_1.index ⟨n, h⟩ 0 * 1 + 1 * 0 = 0
      rw [(idx5_1 n h).1]
    | ⟨1, _⟩ =>
      show win5_1.index ⟨n, h⟩ 1 * 4096 + 1 * j.val = 4096 * (n % 416) + j.val
      rw [(idx5_1 n h).2]; omega
  rw [e, hcol]
  rfl

theorem mblk5_apply (V : (c : Dev nD) → (b : Ref sig .tc) → Buf (Elt Ideal) ((c : Thread nD τ).loc b)) (c : Dev nD) (M : Cert.DenseLayer.Mat Cert.GcnSpec.ET 16)
    (hmsg : ∀ (e : Fin 1703936) (k : Fin 16), V c main_v45 (ix2 e k) = if h' : e.val < Cert.GcnSpec.ET then M (ix2 ⟨e.val, h'⟩ k) else 0)
    (n : ℕ) (h : n < cfg5.N) (j : Fin 4096) (k : Fin 16) :
    (iblk5 V c 0 ⟨n, h⟩ : FVec Ideal S4096x16 .bf16) (ix2 j k) = msgPad M (4096 * (n % 416) + j.val) k := by
  have hj := j.isLt
  have hlt : 4096 * (n % 416) + j.val < 1703936 := by omega
  have e : (iblk5 V c 0 ⟨n, h⟩ : FVec Ideal S4096x16 .bf16) (ix2 j k)
      = V c main_v45 (ix2 (⟨4096 * (n % 416) + j.val, hlt⟩ : Fin 1703936) k) := by
    unfold iblk5
    rw [View.read_apply]
    show V c main_v45 _ = V c main_v45 _
    refine congrArg (V c main_v45) (funext fun a => Fin.ext ?_)
    match a with
    | ⟨0, _⟩ =>
      show win5_0.index ⟨n, h⟩ 0 * 4096 + 1 * j.val = 4096 * (n % 416) + j.val
      rw [(idx5_0 n h).1]; omega
    | ⟨1, _⟩ =>
      show win5_0.index ⟨n, h⟩ 1 * 16 + 1 * k.val = k.val
      rw [(idx5_0 n h).2]; omega
  rw [e, hmsg]
  rfl

theorem step5_apply (V : (c : Dev nD) → (b : Ref sig .tc) → Buf (Elt Ideal) ((c : Thread nD τ).loc b)) (c : Dev nD) (cw : Fin Cert.GcnSpec.ET → BitVec 32) (M : Cert.DenseLayer.Mat Cert.GcnSpec.ET 16)
    (hcol : ∀ e : Fin 1703936, V c main_v40 (ix2 (0 : Fin 1) e) = if h' : e.val < Cert.GcnSpec.ET then cw ⟨e.val, h'⟩ else 0#32)
    (hmsg : ∀ (e : Fin 1703936) (k : Fin 16), V c main_v45 (ix2 e k) = if h' : e.val < Cert.GcnSpec.ET then M (ix2 ⟨e.val, h'⟩ k) else 0)
    (n : ℕ) (h : n < cfg5.N) (acc : S4000x16.Idx → EReal) (i : S4000x16.Idx) :
    k5_pay2 (F := Ideal) (grid5.coords ⟨n, h⟩) (iblk5 V c 1 ⟨n, h⟩) (iblk5 V c 0 ⟨n, h⟩) acc i = acc i + addend cw M n i := by
  obtain ⟨r, k, rfl⟩ : ∃ (r : Fin 4000) (k : Fin 16), i = ix2 r k := ⟨i 0, i 1, eq_ix2 i⟩
  refine (pay5_2_apply (grid5.coords ⟨n, h⟩) (iblk5 V c 1 ⟨n, h⟩) (iblk5 V c 0 ⟨n, h⟩) acc r k).trans ?_
  refine congrArg (acc (ix2 r k) + ·) ?_
  unfold addend
  refine Finset.sum_congr rfl fun j _ => ?_
  rw [coords5_0 n h, cblk5_apply V c cw hcol n h j, mblk5_apply V c M hmsg n h j k]

def reset5 (V : (c : Dev nD) → (b : Ref sig .tc) → Buf (Elt Ideal) ((c : Thread nD τ).loc b)) (c : Dev nD) : (n : ℕ) → n < cfg5.N → S4000x16.Idx → EReal :=
  fun n h => k5_pay2 (F := Ideal) (grid5.coords ⟨n, h⟩) (iblk5 V c 1 ⟨n, h⟩) (iblk5 V c 0 ⟨n, h⟩) (k5_pay1 (F := Ideal))
def step5 (V : (c : Dev nD) → (b : Ref sig .tc) → Buf (Elt Ideal) ((c : Thread nD τ).loc b)) (c : Dev nD) : (n : ℕ) → n < cfg5.N → (S4000x16.Idx → EReal) → S4000x16.Idx → EReal :=
  fun n h acc => k5_pay2 (F := Ideal) (grid5.coords ⟨n, h⟩) (iblk5 V c 1 ⟨n, h⟩) (iblk5 V c 0 ⟨n, h⟩) acc

theorem acc5_at (V : (c : Dev nD) → (b : Ref sig .tc) → Buf (Elt Ideal) ((c : Thread nD τ).loc b)) (c : Dev nD) (cw : Fin Cert.GcnSpec.ET → BitVec 32) (M : Cert.DenseLayer.Mat Cert.GcnSpec.ET 16)
    (hcol : ∀ e : Fin 1703936, V c main_v40 (ix2 (0 : Fin 1) e) = if h' : e.val < Cert.GcnSpec.ET then cw ⟨e.val, h'⟩ else 0#32)
    (hmsg : ∀ (e : Fin 1703936) (k : Fin 16), V c main_v45 (ix2 e k) = if h' : e.val < Cert.GcnSpec.ET then M (ix2 ⟨e.val, h'⟩ k) else 0)
    (t : Fin cfg5.N) (h415 : t.val % 416 = 415) (r : Fin 4000) (k : Fin 16) (hnode : 4000 * (t.val / 416) + r.val < Cert.GcnSpec.NN) :
    (acc5 V c t.val t.isLt : S4000x16.Idx → EReal) (ix2 r k) = Cert.GcnSpec.agg M cw (ix2 ⟨4000 * (t.val / 416) + r.val, hnode⟩ k) := by
  have hb : 416 * (t.val / 416) + t.val % 416 < cfg5.N := by rw [Nat.div_add_mod]; exact t.isLt
  have key := Pipeline.eq_accAt_of_mod (acc5 V c) 416 (reset5 V c) (step5 V c)
    (fun n h hm => acc5_reset V c ⟨n, h⟩ hm) (fun n h hm => acc5_step V c ⟨n + 1, h⟩ hm) (by decide) t.val t.isLt hb
  have unroll := Pipeline.accAt_add_apply (ι := S4000x16.Idx) (β := EReal) (reset5 V c) (step5 V c) (k5_pay1 (F := Ideal)) (addend cw M)
    (416 * (t.val / 416)) 415
    (fun h i => step5_apply V c cw M hcol hmsg (416 * (t.val / 416)) h (k5_pay1 (F := Ideal)) i)
    (fun n h acc i _ _ => step5_apply V c cw M hcol hmsg n h acc i)
    (t.val % 416) (by omega) hb (ix2 r k)
  refine (congrFun key (ix2 r k)).trans (unroll.trans ?_)
  rw [h415, pay5_1_apply, zero_add]
  exact sum_addend cw M (t.val / 416) r k hnode

theorem out5_at (V : (c : Dev nD) → (b : Ref sig .tc) → Buf (Elt Ideal) ((c : Thread nD τ).loc b)) (c : Dev nD) (cw : Fin Cert.GcnSpec.ET → BitVec 32) (M : Cert.DenseLayer.Mat Cert.GcnSpec.ET 16)
    (hcol : ∀ e : Fin 1703936, V c main_v40 (ix2 (0 : Fin 1) e) = if h' : e.val < Cert.GcnSpec.ET then cw ⟨e.val, h'⟩ else 0#32)
    (hmsg : ∀ (e : Fin 1703936) (k : Fin 16), V c main_v45 (ix2 e k) = if h' : e.val < Cert.GcnSpec.ET then M (ix2 ⟨e.val, h'⟩ k) else 0)
    (t : Fin cfg5.N) (h415 : t.val % 416 = 415) (r : Fin 4000) (k : Fin 16) (hnode : 4000 * (t.val / 416) + r.val < Cert.GcnSpec.NN) :
    k5_pay3 (F := Ideal) (acc5 V c t.val t.isLt) (ix2 r k) = Cert.GcnSpec.rowLogSoftmax (Cert.GcnSpec.agg M cw) (ix2 ⟨4000 * (t.val / 416) + r.val, hnode⟩ k) := by
  rw [pay5_3_apply]
  have hrow : ∀ q : Fin 16, (acc5 V c t.val t.isLt : S4000x16.Idx → EReal) (ix2 r q)
      = Cert.GcnSpec.agg M cw (ix2 ⟨4000 * (t.val / 416) + r.val, hnode⟩ q) :=
    fun q => acc5_at V c cw M hcol hmsg t h415 r q hnode
  simp only [hrow]
  generalize Cert.GcnSpec.agg M cw = A
  rfl

theorem flushed5_eq (V : (c : Dev nD) → (b : Ref sig .tc) → Buf (Elt Ideal) ((c : Thread nD τ).loc b)) (c : Dev nD) (G : S100000x16.Idx → EReal)
    (hG : ∀ (t : Fin cfg5.N), t.val % 416 = 415 → ∀ (r : Fin 4000) (k : Fin 16) (hnode : 4000 * (t.val / 416) + r.val < Cert.GcnSpec.NN),
      k5_pay3 (F := Ideal) (acc5 V c t.val t.isLt) (ix2 r k) = G (ix2 ⟨4000 * (t.val / 416) + r.val, hnode⟩ k))
    (t : Fin cfg5.N) (hf : (cfg5.win 2).flush t = true) :
    (dat5 (F := Ideal) V c).flushed 2 t = ((cfg5.win 2).blk t).view.read (Elt Ideal) G := by
  have h415 : t.val % 416 = 415 := (flush5_2 t).mp hf
  have hN : cfg5.N = 10400 := N5
  have ht := t.isLt
  show (cfg5.win 2).cut (grid5.coords t) ((dat5 (F := Ideal) V c).after 2 t) = _
  rw [after5_2]
  funext y
  have hy0 : (y 0).val < 4000 := (y 0).isLt
  have hy1 : (y 1).val < 16 := (y 1).isLt
  have hnode : 4000 * (t.val / 416) + (y 0).val < Cert.GcnSpec.NN := by show _ < 100000; omega

  have hx : (cfg5.win 2).xinj (grid5.coords t) y = ix2 (⟨(y 0).val, hy0⟩ : Fin 4000) (⟨(y 1).val, hy1⟩ : Fin 16) :=
    funext fun a => match a with | ⟨0, _⟩ => rfl | ⟨1, _⟩ => rfl
  have hemb : ((cfg5.win 2).blk t).view.emb y
      = ix2 (⟨4000 * (t.val / 416) + (y 0).val, hnode⟩ : Fin Cert.GcnSpec.NN) (⟨(y 1).val, hy1⟩ : Fin 16) :=
    funext fun a => Fin.ext (by
      match a with
      | ⟨0, _⟩ =>
        show win5_2.index t 0 * 4000 + 1 * (y 0).val = 4000 * (t.val / 416) + (y 0).val
        rw [(idx5_2 t.val t.isLt).1]; omega
      | ⟨1, _⟩ =>
        show win5_2.index t 1 * 16 + 1 * (y 1).val = (y 1).val
        rw [(idx5_2 t.val t.isLt).2]; omega)
  rw [View.read_apply, hemb]
  show k5_pay3 (F := Ideal) (acc5 V c t.val t.isLt) ((cfg5.win 2).xinj (grid5.coords t) y) = G _
  rw [hx]
  exact hG t h415 _ _ hnode

theorem cover5 (i : S100000x16.Idx) :
    ∃ t : Fin cfg5.N, (cfg5.win 2).flush t = true ∧ i ∈ ((cfg5.win 2).blk t).view.set := by
  have h0 : (i 0).val < 100000 := (i 0).isLt
  have h1 : (i 1).val < 16 := (i 1).isLt
  have hN : cfg5.N = 10400 := N5
  have hlt : 416 * ((i 0).val / 4000) + 415 < cfg5.N := by rw [hN]; omega
  refine ⟨⟨416 * ((i 0).val / 4000) + 415, hlt⟩, (flush5_2 _).mpr (by show (416 * ((i 0).val / 4000) + 415) % 416 = 415; omega), ?_⟩
  show i ∈ ((View.whole main_v46).slice (win5_2.rect ⟨416 * ((i 0).val / 4000) + 415, hlt⟩)).set
  rw [View.set_slice_whole, Rect.mem_set_unit]
  intro a
  match a with
  | ⟨0, _⟩ =>
    show win5_2.index ⟨416 * ((i 0).val / 4000) + 415, hlt⟩ 0 * 4000 ≤ (i 0).val
      ∧ (i 0).val < win5_2.index ⟨416 * ((i 0).val / 4000) + 415, hlt⟩ 0 * 4000 + 4000
    rw [(idx5_2 _ hlt).1]; omega
  | ⟨1, _⟩ =>
    show win5_2.index ⟨416 * ((i 0).val / 4000) + 415, hlt⟩ 1 * 16 ≤ (i 1).val
      ∧ (i 1).val < win5_2.index ⟨416 * ((i 0).val / 4000) + 415, hlt⟩ 1 * 16 + 16
    rw [(idx5_2 _ hlt).2]; omega

end Scatter

open Scatter

theorem scatter2_final (V : (c : Dev nD) → (b : Ref sig .tc) → Buf (Elt Ideal) ((c : Thread nD τ).loc b)) (c : Dev nD)
    (cw : Fin Cert.GcnSpec.ET → BitVec 32) (M : Cert.DenseLayer.Mat Cert.GcnSpec.ET 64)
    (hcol : ∀ e : Fin 1703936, V c main_v40 (ValueIdx.ix2 0 e) = if h' : e.val < Cert.GcnSpec.ET then cw ⟨e.val, h'⟩ else 0#32)
    (hmsg : ∀ (e : Fin 1703936) (k : Fin 64), V c main_v42 (ValueIdx.ix2 e k) = if h' : e.val < Cert.GcnSpec.ET then M (ValueIdx.ix2 ⟨e.val, h'⟩ k) else 0) :
    (dat2 (F := Ideal) V c).arrAt 2 cfg2.N = Cert.GcnSpec.clamp0 (Cert.GcnSpec.agg M cw) :=
  (dat2 (F := Ideal) V c).arrAt_eq_of_cover 2 (Cert.GcnSpec.clamp0 (Cert.GcnSpec.agg M cw))
    (fun t hf => flushed2_eq V c (Cert.GcnSpec.clamp0 (Cert.GcnSpec.agg M cw)) (fun t h r k hn => out2_at V c cw M hcol hmsg t h r k hn) t hf) cover2

theorem scatter5_final (V : (c : Dev nD) → (b : Ref sig .tc) → Buf (Elt Ideal) ((c : Thread nD τ).loc b)) (c : Dev nD)
    (cw : Fin Cert.GcnSpec.ET → BitVec 32) (M : Cert.DenseLayer.Mat Cert.GcnSpec.ET 16)
    (hcol : ∀ e : Fin 1703936, V c main_v40 (ValueIdx.ix2 0 e) = if h' : e.val < Cert.GcnSpec.ET then cw ⟨e.val, h'⟩ else 0#32)
    (hmsg : ∀ (e : Fin 1703936) (k : Fin 16), V c main_v45 (ValueIdx.ix2 e k) = if h' : e.val < Cert.GcnSpec.ET then M (ValueIdx.ix2 ⟨e.val, h'⟩ k) else 0) :
    (dat5 (F := Ideal) V c).arrAt 2 cfg5.N = Cert.GcnSpec.rowLogSoftmax (Cert.GcnSpec.agg M cw) :=
  (dat5 (F := Ideal) V c).arrAt_eq_of_cover 2 (Cert.GcnSpec.rowLogSoftmax (Cert.GcnSpec.agg M cw))
    (fun t hf => flushed5_eq V c (Cert.GcnSpec.rowLogSoftmax (Cert.GcnSpec.agg M cw)) (fun t h r k hn => out5_at V c cw M hcol hmsg t h r k hn) t hf) cover5

end Cert.KernelIdeal.Hand

end
-- ==== Proof.RefPrefix.lean ====
import proofs.«128423_j81389630259984_1_alg».proof.Proof.Gen.ReferenceIdeal
import Idealize.ShloMosaic.PureOps

noncomputable section

namespace Cert.GcnRef

open Cert.ReferenceIdeal Idealize.ShloMosaic
open Cert.ReferenceIdeal.Facts₀ Cert.ReferenceIdeal.Facts

variable {F : FTy → Type} [FloatOps F]

def rowArr (a1 : IVec S2x1600000 32) : IVec S1700000 32 :=
  concatenate S1700000 0 [⟨S1600000, shapeCast S1600000 (extractStridedSlice S1x1600000 ![0, 0] a1 slices_S2x1600000_S1x1600000_0_0) shapeCasts_S1x1600000_S1600000⟩, ⟨S100000, iotaInDim S100000 32 0⟩] concatenates_S1600000_S100000_S1700000_d0

def colArr (a1 : IVec S2x1600000 32) : IVec S1700000 32 :=
  concatenate S1700000 0 [⟨S1600000, shapeCast S1600000 (extractStridedSlice S1x1600000 ![1, 0] a1 slices_S2x1600000_S1x1600000_1_0) shapeCasts_S1x1600000_S1600000⟩, ⟨S100000, iotaInDim S100000 32 0⟩] concatenates_S1600000_S100000_S1700000_d0

def wArr (a2 : FVec F S1600000 .f32) : FVec F S1700000 .f32 :=
  concatenate S1700000 0 [⟨S1600000, a2⟩, ⟨S100000, broadcastInDim S100000 ![] bcast_S_S100000 (constant S_ .f32 0x3F800000#32)⟩] concatenates_S1600000_S100000_S1700000_d0

def degArr (a1 : IVec S2x1600000 32) (a2 : FVec F S1600000 .f32) : FVec F S100000 .f32 :=
  Host.scatterAdd scatter_S100000_S1700000x1_S1700000_n_0_0_1 (broadcastInDim S100000 ![] bcast_S_S100000 (constant S_ .f32 0x00000000#32))
    (broadcastInDim S1700000x1 ![0] bcast_S1700000_S1700000x1_0 (colArr a1)) (wArr a2)

def dinvArr (a1 : IVec S2x1600000 32) (a2 : FVec F S1600000 .f32) : FVec F S100000 .f32 :=
  select (cmpf .ogt (degArr a1 a2) (broadcastInDim S100000 ![] bcast_S_S100000 (constant S_ .f32 0x00000000#32)))
    (Host.rsqrt (degArr a1 a2))
    (broadcastInDim S100000 ![] bcast_S_S100000 (id (constant S_ .f32 0x00000000#32)))

def wrapIdx (r : IVec S1700000 32) : IVec S1700000x1 32 :=
  broadcastInDim S1700000x1 ![0] bcast_S1700000_S1700000x1_0
    (select (cmpi .slt r (broadcastInDim S1700000 ![] bcast_S_S1700000 (constantI S_ 32 0#32)))
      (addi r (broadcastInDim S1700000 ![] bcast_S_S1700000 (constantI S_ 32 100000#32))) r)

def nrmArr (a1 : IVec S2x1600000 32) (a2 : FVec F S1600000 .f32) : FVec F S1700000 .f32 :=
  mulf (mulf (Host.gather gather_S100000_S1700000x1_S1700000_n_0_n_n_0_1_1 (dinvArr a1 a2) (wrapIdx (rowArr a1))) (wArr a2))
    (Host.gather gather_S100000_S1700000x1_S1700000_n_0_n_n_0_1_1 (dinvArr a1 a2) (wrapIdx (colArr a1)))

def layer1R (X : FVec F S100000x128 .f32) (W1 : FVec F S128x64 .f32) (rowA colA : IVec S1700000 32) (nrmA : FVec F S1700000 .f32) :
    FVec F S100000x64 .f32 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 colA)
    (mulf (Host.gather gather_S100000x64_S1700000x1_S1700000x64_1_0_n_n_0_1_164
        (Host.dotGeneral dot_S100000x128_S128x64_S100000x64_1_0_0_1_n_n none X W1) (wrapIdx rowA))
      (broadcastInDim S1700000x64 ![0, 1] bcast_S1700000x1_S1700000x64_0_1 (broadcastInDim S1700000x1 ![0] bcast_S1700000_S1700000x1_0 nrmA)))

def reluR (A : FVec F S100000x64 .f32) : FVec F S100000x64 .f32 :=
  maximumf A (broadcastInDim S100000x64 ![] bcast_S_S100000x64 (constant S_ .f32 0x00000000#32))

def layer2R (H : FVec F S100000x64 .f32) (W2 : FVec F S64x16 .f32) (rowA colA : IVec S1700000 32) (nrmA : FVec F S1700000 .f32) :
    FVec F S100000x16 .f32 :=
  Host.scatterAdd scatter_S100000x16_S1700000x1_S1700000x16_1_0_0_1
    (broadcastInDim S100000x16 ![] bcast_S_S100000x16 (constant S_ .f32 0x00000000#32))
    (broadcastInDim S1700000x1 ![0] bcast_S1700000_S1700000x1_0 colA)
    (mulf (Host.gather gather_S100000x16_S1700000x1_S1700000x16_1_0_n_n_0_1_116
        (Host.dotGeneral dot_S100000x64_S64x16_S100000x16_1_0_0_1_n_n none H W2) (wrapIdx rowA))
      (broadcastInDim S1700000x16 ![0, 1] bcast_S1700000x1_S1700000x16_0_1 (broadcastInDim S1700000x1 ![0] bcast_S1700000_S1700000x1_0 nrmA)))

def shiftR (Z : FVec F S100000x16 .f32) : FVec F S100000x16 .f32 :=
  subf Z (broadcastInDim S100000x16 ![0, 1] bcast_S100000x1_S100000x16_0_1 (broadcastInDim S100000x1 ![0] bcast_S100000_S100000x1_0
    (maximumf (broadcastInDim S100000 ![] bcast_S_S100000 (constant S_ .f32 0xFF800000#32))
      (Host.reduce FloatOps.maximumf Z (constant S_ .f32 0xFF800000#32) reducesTo_S100000x16_S100000_d1 h_S_))))

def lsmR (Z : FVec F S100000x16 .f32) : FVec F S100000x16 .f32 :=
  subf (shiftR Z) (broadcastInDim S100000x16 ![0, 1] bcast_S100000x1_S100000x16_0_1
    (Host.log (broadcastInDim S100000x1 ![0] bcast_S100000_S100000x1_0
      (Host.reduceAdd (Host.exp (shiftR Z)) (constant S_ .f32 0x00000000#32) reducesTo_S100000x16_S100000_d1 h_S_))))

def refOut (X : FVec F S100000x128 .f32) (a1 : IVec S2x1600000 32) (a2 : FVec F S1600000 .f32) (W1 : FVec F S128x64 .f32)
    (W2 : FVec F S64x16 .f32) : FVec F S100000x16 .f32 :=
  lsmR (layer2R (reluR (layer1R X W1 (rowArr a1) (colArr a1) (nrmArr a1 a2))) W2 (rowArr a1) (colArr a1) (nrmArr a1 a2))

end Cert.GcnRef

end
-- ==== Proof.KPrefix.lean ====
import proofs.«128423_j81389630259984_1_alg».proof.Proof.Gen.KernelIdeal.Regions
import proofs.«128423_j81389630259984_1_alg».proof.Proof.RefPrefix
import Idealize.ShloMosaic.Lib.StableHlo.Run
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

theorem v3_eq (c : Dev nD) :
    Gen.V3 m c main_v3 = Cert.GcnRef.rowArr (m ((c : Thread nD τ).loc main_arg1)) := by
  rw [V3_of m c main_v3 (by decide), V2_of m c main_v3 (by decide)]
  show StableHlo.after hostOps0 _ (Proc.devRef .tc main_v3) = _
  after_results
  rfl

theorem v6_eq (c : Dev nD) :
    Gen.V3 m c main_v6 = Cert.GcnRef.colArr (m ((c : Thread nD τ).loc main_arg1)) := by
  rw [V3_of m c main_v6 (by decide), V2_of m c main_v6 (by decide)]
  show StableHlo.after hostOps0 _ (Proc.devRef .tc main_v6) = _
  after_results
  rfl

theorem v31_eq (c : Dev nD) :
    Gen.V3 m c main_v31 = Cert.GcnRef.nrmArr (m ((c : Thread nD τ).loc main_arg1)) (m ((c : Thread nD τ).loc main_arg2)) := by
  dsimp only [Gen.V3, Gen.V2, Gen.V1, Gen.V0]
  show StableHlo.after hostOps0_2 _ (Proc.devRef .tc main_v31) = _
  after_results_simp
  rfl

section Index
variable {α : Type}

theorem pad_apply (x : S1700000.Idx → α) (y : S3936.Idx → α) (e : Fin 1703936) :
    concatenate S1703936 0 [⟨S1700000, x⟩, ⟨S3936, y⟩] concatenates_S1700000_S3936_S1703936_d0 (ValueIdx.ix1 e)
      = if h : e.val < 1700000 then x (ValueIdx.ix1 ⟨e.val, h⟩) else y (ValueIdx.ix1 ⟨e.val - 1700000, by omega⟩) := by
  by_cases h : e.val < 1700000
  · rw [dif_pos h]
    exact concatenate_pair_apply_left (0 : Fin S1703936.rank) x y _ (ValueIdx.ix1 e) rfl (ValueIdx.ix1 ⟨e.val, h⟩)
      (fun b => by match b with | ⟨0, _⟩ => rfl)
  · rw [dif_neg h]
    refine concatenate_pair_apply_right (0 : Fin S1703936.rank) x y _ (ValueIdx.ix1 e) rfl rfl
      (ValueIdx.ix1 ⟨e.val - 1700000, by omega⟩) (fun b hb => ?_) ?_
    · exact absurd (Fin.ext (by have hb1 : b.val < 1 := b.isLt; show b.val = 0; omega)) hb
    · show e.val - 1700000 + 1700000 = e.val
      omega

theorem col_apply (X : S1703936.Idx → α) (e : Fin 1703936) :
    shapeCast S1703936x1 X shapeCasts_S1703936_S1703936x1 (ValueIdx.ix2 e 0) = X (ValueIdx.ix1 e) :=
  shapeCast_apply X _ (ValueIdx.ix2 e 0) (ValueIdx.ix1 e) (by
    rw [Shape.rowMajor_val_one, Shape.rowMajor_val_two]
    show e.val = e.val * 1 + 0
    omega)

theorem row_apply (X : S1703936.Idx → α) (e : Fin 1703936) :
    shapeCast S1x1703936 X shapeCasts_S1703936_S1x1703936 (ValueIdx.ix2 0 e) = X (ValueIdx.ix1 e) :=
  shapeCast_apply X _ (ValueIdx.ix2 0 e) (ValueIdx.ix1 e) (by
    rw [Shape.rowMajor_val_one, Shape.rowMajor_val_two]
    show e.val = 0 * 1703936 + e.val
    omega)

end Index

theorem v38_arr (c : Dev nD) :
    Gen.V3 m c main_v38 = shapeCast S1703936x1 (concatenate S1703936 0 [⟨S1700000, Gen.V3 m c main_v3⟩,
      ⟨S3936, broadcastInDim S3936 ![] bcast_S_S3936 (constantI S_ 32 0#32)⟩] concatenates_S1700000_S3936_S1703936_d0)
      shapeCasts_S1703936_S1703936x1 := by
  rw [V3_of m c main_v3 (by decide)]
  show StableHlo.after hostOps0_2 (Gen.V2 m c) (Proc.devRef .tc main_v38) = _
  generalize Gen.V2 m c = W
  after_results
  rfl

theorem v40_arr (c : Dev nD) :
    Gen.V3 m c main_v40 = shapeCast S1x1703936 (concatenate S1703936 0 [⟨S1700000, Gen.V3 m c main_v6⟩,
      ⟨S3936, broadcastInDim S3936 ![] bcast_S_S3936 (constantI S_ 32 0#32)⟩] concatenates_S1700000_S3936_S1703936_d0)
      shapeCasts_S1703936_S1x1703936 := by
  rw [V3_of m c main_v6 (by decide)]
  show StableHlo.after hostOps0_2 (Gen.V2 m c) (Proc.devRef .tc main_v40) = _
  generalize Gen.V2 m c = W
  after_results
  rfl

theorem v38_eq (c : Dev nD) (e : Fin 1703936) :
    Gen.V3 m c main_v38 (ValueIdx.ix2 e 0)
      = if h : e.val < 1700000 then Gen.V3 m c main_v3 (ValueIdx.ix1 ⟨e.val, h⟩) else 0#32 := by
  refine (congrFun (v38_arr m c) _).trans ?_
  rw [col_apply, pad_apply]
  by_cases h : e.val < 1700000
  · rw [dif_pos h, dif_pos h]
  · rw [dif_neg h, dif_neg h]; rfl

theorem v40_eq (c : Dev nD) (e : Fin 1703936) :
    Gen.V3 m c main_v40 (ValueIdx.ix2 0 e)
      = if h : e.val < 1700000 then Gen.V3 m c main_v6 (ValueIdx.ix1 ⟨e.val, h⟩) else 0#32 := by
  refine (congrFun (v40_arr m c) _).trans ?_
  rw [row_apply, pad_apply]
  by_cases h : e.val < 1700000
  · rw [dif_pos h, dif_pos h]
  · rw [dif_neg h, dif_neg h]; rfl

theorem v39_arr (c : Dev nD) :
    Gen.V3 m c main_v39 = shapeCast S1703936x1 (concatenate S1703936 0 [⟨S1700000, Gen.V3 m c main_v31⟩,
      ⟨S3936, broadcastInDim S3936 ![] bcast_S_S3936 (constant S_ .f32 0x00000000#32)⟩] concatenates_S1700000_S3936_S1703936_d0)
      shapeCasts_S1703936_S1703936x1 := by
  show StableHlo.after hostOps0_2 (Gen.V2 m c) (Proc.devRef .tc main_v39)
    = shapeCast S1703936x1 (concatenate S1703936 0 [⟨S1700000, StableHlo.after hostOps0_2 (Gen.V2 m c) (Proc.devRef .tc main_v31)⟩,
      ⟨S3936, broadcastInDim S3936 ![] bcast_S_S3936 (constant S_ .f32 0x00000000#32)⟩] concatenates_S1700000_S3936_S1703936_d0)
      shapeCasts_S1703936_S1703936x1
  generalize Gen.V2 m c = W
  after_results_simp
  rfl

theorem v39_eqF (c : Dev nD) (e : Fin 1703936) :
    Gen.V3 m c main_v39 (ValueIdx.ix2 e 0)
      = if h : e.val < 1700000 then Gen.V3 m c main_v31 (ValueIdx.ix1 ⟨e.val, h⟩)
        else constant (F := F) S_ .f32 0x00000000#32 ValueIdx.ix0 := by
  refine (congrFun (v39_arr m c) _).trans ?_
  rw [col_apply, pad_apply]
  by_cases h : e.val < 1700000
  · rw [dif_pos h, dif_pos h]
  · rw [dif_neg h, dif_neg h]; rfl

theorem v39_eq (m : (ℓ : Loc nD τ sig) → Buf (Elt Ideal) ℓ) (c : Dev nD) (e : Fin 1703936) :
    Gen.V3 m c main_v39 (ValueIdx.ix2 e 0)
      = if h : e.val < 1700000 then Gen.V3 m c main_v31 (ValueIdx.ix1 ⟨e.val, h⟩)
        else Ideal.ofBits .f32 0x00000000#32 :=
  v39_eqF m c e

end Cert.KernelIdeal.Hand

end
-- ==== Proof.IdealValue.lean ====
import proofs.«128423_j81389630259984_1_alg».proof.Proof.IdealRun
import proofs.«128423_j81389630259984_1_alg».proof.Proof.ValDense
import proofs.«128423_j81389630259984_1_alg».proof.Proof.ValGather
import proofs.«128423_j81389630259984_1_alg».proof.Proof.ValGather4
import proofs.«128423_j81389630259984_1_alg».proof.Proof.ValScatter
import proofs.«128423_j81389630259984_1_alg».proof.Proof.KPrefix
import proofs.«128423_j81389630259984_1_alg».proof.Proof.Spec

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.DenseLayer Cert.GcnSpec

variable (m : (ℓ : Loc nD τ sig) → Buf (Elt Ideal) ℓ)

theorem src_at4 (c : Dev nD) : W4 m c (Proc.devRef .tc main_v38) = W3 m c (Proc.devRef .tc main_v38) :=
  W4_of_ne m c main_v38 (by decide)
theorem nrm_at4 (c : Dev nD) : W4 m c (Proc.devRef .tc main_v39) = W3 m c (Proc.devRef .tc main_v39) :=
  W4_of_ne m c main_v39 (by decide)
theorem dst_at5 (c : Dev nD) : W5 m c (Proc.devRef .tc main_v40) = W3 m c (Proc.devRef .tc main_v40) :=
  (W5_of_ne m c main_v40 (by decide)).trans (W4_of_ne m c main_v40 (by decide))

theorem src_at7 (c : Dev nD) : W7 m c (Proc.devRef .tc main_v38) = W3 m c (Proc.devRef .tc main_v38) :=
  (W7_of_ne m c main_v38 (by decide)).trans <| (W6_of_ne m c main_v38 (by decide)).trans <|
    ((W5_arr m c 0).trans (((dat1 (U4 m) c).arrAt_in 0 rfl _).trans (A_eq1 (U4 m) c 0))).trans (src_at4 m c)
theorem nrm_at7 (c : Dev nD) : W7 m c (Proc.devRef .tc main_v39) = W3 m c (Proc.devRef .tc main_v39) :=
  (W7_of_ne m c main_v39 (by decide)).trans <| (W6_of_ne m c main_v39 (by decide)).trans <|
    ((W5_arr m c 1).trans (((dat1 (U4 m) c).arrAt_in 1 rfl _).trans (A_eq1 (U4 m) c 1))).trans (nrm_at4 m c)
theorem dst_at8 (c : Dev nD) : W8 m c (Proc.devRef .tc main_v40) = W3 m c (Proc.devRef .tc main_v40) :=
  (W8_of_ne m c main_v40 (by decide)).trans <| (W7_of_ne m c main_v40 (by decide)).trans <|
    ((W6_arr m c 1).trans (((dat2 (U5 m) c).arrAt_in 1 rfl _).trans (A_eq2 (U5 m) c 1))).trans (dst_at5 m c)

theorem w2_at6 (c : Dev nD) : W6 m c (Proc.devRef .tc main_arg4) = m ((c : Thread nD τ).loc main_arg4) :=
  (W6_of_ne m c main_arg4 (by decide)).trans <| (W5_of_ne m c main_arg4 (by decide)).trans <|
    (W4_of_ne m c main_arg4 (by decide)).trans (V3_main_arg m main_arg4 (by decide) (by decide) (by decide) c)

section Chain
variable (c : Dev nD) (h : Cert.GcnSpec.InRange (fun e => Gen.V3 m c main_v3 (ix1 e)))

theorem product1 : U4 m c main_v41 = dense (m ((c : Thread nD τ).loc main_arg0)) (m ((c : Thread nD τ).loc main_arg3)) :=
  calc U4 m c main_v41
    _ = (dat0 (U3 m) c).arrAt 2 cfg0.N := W4_arr m c 2
    _ = dense (U3 m c main_arg0) (U3 m c main_arg3) := dense0_final (U3 m) c
    _ = dense (m ((c : Thread nD τ).loc main_arg0)) (m ((c : Thread nD τ).loc main_arg3)) := by
      rw [show U3 m c main_arg0 = m ((c : Thread nD τ).loc main_arg0) from V3_main_arg m main_arg0 (by decide) (by decide) (by decide) c,
        show U3 m c main_arg3 = m ((c : Thread nD τ).loc main_arg3) from V3_main_arg m main_arg3 (by decide) (by decide) (by decide) c]

theorem messages1 (e : Fin 1703936) (k : Fin 64) :
    U5 m c main_v42 (ix2 e k)
      = if h' : e.val < ET then
          msg (dense (m ((c : Thread nD τ).loc main_arg0)) (m ((c : Thread nD τ).loc main_arg3)))
            (fun e => Gen.V3 m c main_v3 (ix1 e)) h (fun e => Gen.V3 m c main_v31 (ix1 e)) (ix2 ⟨e.val, h'⟩ k)
        else 0 := by
  have g := gather1_final (U4 m) c (fun e => Gen.V3 m c main_v3 (ix1 e)) h (fun e => Gen.V3 m c main_v31 (ix1 e))
    (fun e => (congrFun (src_at4 m c) (ix2 e 0)).trans (v38_eq m c e))
    (fun e => (congrFun (nrm_at4 m c) (ix2 e 0)).trans (v39_eq m c e)) e k
  rw [product1] at g
  exact (congrFun (W5_arr m c 3) (ix2 e k)).trans g

theorem round1 :
    U6 m c main_v43
      = clamp0 (round (dense (m ((c : Thread nD τ).loc main_arg0)) (m ((c : Thread nD τ).loc main_arg3)))
          (fun e => Gen.V3 m c main_v3 (ix1 e)) (fun e => Gen.V3 m c main_v6 (ix1 e)) h (fun e => Gen.V3 m c main_v31 (ix1 e))) :=
  calc U6 m c main_v43
    _ = (dat2 (U5 m) c).arrAt 2 cfg2.N := W6_arr m c 2
    _ = _ := scatter2_final (U5 m) c (fun e => Gen.V3 m c main_v6 (ix1 e)) _
        (fun e => (congrFun (dst_at5 m c) (ix2 0 e)).trans (v40_eq m c e))
        (messages1 m c h)

theorem product2 :
    U7 m c main_v44
      = dense (clamp0 (round (dense (m ((c : Thread nD τ).loc main_arg0)) (m ((c : Thread nD τ).loc main_arg3)))
          (fun e => Gen.V3 m c main_v3 (ix1 e)) (fun e => Gen.V3 m c main_v6 (ix1 e)) h (fun e => Gen.V3 m c main_v31 (ix1 e))))
          (m ((c : Thread nD τ).loc main_arg4)) :=
  calc U7 m c main_v44
    _ = (dat3 (U6 m) c).arrAt 2 cfg3.N := W7_arr m c 2
    _ = dense (U6 m c main_v43) (U6 m c main_arg4) := dense3_final (U6 m) c
    _ = _ := by rw [round1 m c h, show U6 m c main_arg4 = m ((c : Thread nD τ).loc main_arg4) from w2_at6 m c]

theorem messages2 (e : Fin 1703936) (k : Fin 16) :
    U8 m c main_v45 (ix2 e k)
      = if h' : e.val < ET then
          msg (dense (clamp0 (round (dense (m ((c : Thread nD τ).loc main_arg0)) (m ((c : Thread nD τ).loc main_arg3)))
              (fun e => Gen.V3 m c main_v3 (ix1 e)) (fun e => Gen.V3 m c main_v6 (ix1 e)) h (fun e => Gen.V3 m c main_v31 (ix1 e))))
              (m ((c : Thread nD τ).loc main_arg4)))
            (fun e => Gen.V3 m c main_v3 (ix1 e)) h (fun e => Gen.V3 m c main_v31 (ix1 e)) (ix2 ⟨e.val, h'⟩ k)
        else 0 := by
  have g := gather4_final (U7 m) c (fun e => Gen.V3 m c main_v3 (ix1 e)) h (fun e => Gen.V3 m c main_v31 (ix1 e))
    (fun e => (congrFun (src_at7 m c) (ix2 e 0)).trans (v38_eq m c e))
    (fun e => (congrFun (nrm_at7 m c) (ix2 e 0)).trans (v39_eq m c e)) e k
  rw [product2 m c h] at g
  exact (congrFun (W8_arr m c 3) (ix2 e k)).trans g

end Chain

theorem kernel_value (c : Dev nD) (h : Cert.GcnSpec.InRange (fun e => Gen.V3 m c main_v3 (ValueIdx.ix1 e))) :
    W9 m c (Proc.devRef .tc main_v46)
      = Cert.GcnSpec.net (m ((c : Thread nD τ).loc main_arg0)) (m ((c : Thread nD τ).loc main_arg3)) (m ((c : Thread nD τ).loc main_arg4))
          (fun e => Gen.V3 m c main_v3 (ValueIdx.ix1 e)) (fun e => Gen.V3 m c main_v6 (ValueIdx.ix1 e)) h (fun e => Gen.V3 m c main_v31 (ValueIdx.ix1 e)) :=
  calc W9 m c (Proc.devRef .tc main_v46)
    _ = (dat5 (U8 m) c).arrAt 2 cfg5.N := W9_arr m c 2
    _ = _ := scatter5_final (U8 m) c (fun e => Gen.V3 m c main_v6 (ix1 e)) _
        (fun e => (congrFun (dst_at8 m c) (ix2 0 e)).trans (v40_eq m c e))
        (messages2 m c h)

end Cert.KernelIdeal.Hand

end
-- ==== Proof.PreRange.lean ====
import proofs.«128423_j81389630259984_1_alg».proof.Proof.RefPrefix
import proofs.«128423_j81389630259984_1_alg».proof.Proof.Spec
import proofs.«128423_j81389630259984_1_alg».proof.Pre_finite_inputs
import proofs.«128423_j81389630259984_1_alg».proof.Proof.Gen.Pre_finite_inputs
import Idealize.ShloMosaic.Lib.StableHlo.Predicate
import Idealize.ShloMosaic.Lib.ReduceAll
import Idealize.ShloMosaic.Lib.ValueIdx
import Idealize.ShloMosaic.Lib.Pipeline.Value

noncomputable section

namespace Cert.GcnRef

open Cert.ReferenceIdeal Idealize.ShloMosaic
open Cert.ReferenceIdeal.Facts₀ Cert.ReferenceIdeal.Facts

theorem given_inRange {F : FTy → Type} [FloatOps F]
    (x0 : FVec F Cert.Pre_finite_inputs.S100000x128 .f32) (a1 : IVec Cert.Pre_finite_inputs.S2x1600000 32)
    (a2 : FVec F Cert.Pre_finite_inputs.S1600000 .f32) (x3 : FVec F Cert.Pre_finite_inputs.S128x64 .f32)
    (x4 : FVec F Cert.Pre_finite_inputs.S64x16 .f32)
    (h : Cert.Pre_finite_inputs.fn (F := F) x0 a1 a2 x3 x4 = fun _ => 1#1) (i : S1600000.Idx) :
    0 ≤ (shapeCast S1600000 (extractStridedSlice S1x1600000 ![0, 0] a1 slices_S2x1600000_S1x1600000_0_0)
        shapeCasts_S1x1600000_S1600000 i).toInt
      ∧ (shapeCast S1600000 (extractStridedSlice S1x1600000 ![0, 0] a1 slices_S2x1600000_S1x1600000_0_0)
        shapeCasts_S1x1600000_S1600000 i).toInt < 100000 := by
  have h0 := congrFun h ValueIdx.ix0
  dsimp only [Cert.Pre_finite_inputs.fn, Cert.Pre_finite_inputs.fn_part1] at h0
  have h28 := (IntOp.andi_eq_one.1 h0).2
  have hi := Host.reduce_andi_eq_one _ _ _ _ _ h28 i (funext fun a => a.elim0)
  obtain ⟨hge, hlt⟩ := IntOp.andi_eq_one.1 hi
  have hge' := IntOp.cmpi_sge.1 hge
  have hlt' := IntOp.cmpi_slt.1 hlt
  have z0 : (0#32 : BitVec 32).toInt = 0 := by decide
  have z1 : (100000#32 : BitVec 32).toInt = 100000 := by decide
  exact ⟨z0 ▸ hge', z1 ▸ hlt'⟩

theorem inRange_of_pre {F : FTy → Type} [FloatOps F]
    (x0 : FVec F Cert.Pre_finite_inputs.S100000x128 .f32) (a1 : IVec Cert.Pre_finite_inputs.S2x1600000 32)
    (a2 : FVec F Cert.Pre_finite_inputs.S1600000 .f32) (x3 : FVec F Cert.Pre_finite_inputs.S128x64 .f32)
    (x4 : FVec F Cert.Pre_finite_inputs.S64x16 .f32)
    (h : Cert.Pre_finite_inputs.fn (F := F) x0 a1 a2 x3 x4 = fun _ => 1#1) :
    Cert.GcnSpec.InRange (fun e => rowArr a1 (ValueIdx.ix1 e)) := by
  intro e
  show 0 ≤ (rowArr a1 (ValueIdx.ix1 e)).toInt ∧ (rowArr a1 (ValueIdx.ix1 e)).toInt < ((100000 : ℕ) : ℤ)
  have hE : e.val < 1700000 := e.isLt
  by_cases he : e.val < 1600000
  · have hr : rowArr a1 (ValueIdx.ix1 e)
        = shapeCast S1600000 (extractStridedSlice S1x1600000 ![0, 0] a1 slices_S2x1600000_S1x1600000_0_0)
            shapeCasts_S1x1600000_S1600000 (ValueIdx.ix1 ⟨e.val, he⟩) :=
      concatenate_pair_apply_left (t := S1700000) (s₁ := S1600000) (s₂ := S100000) (0 : Fin S1700000.rank) _ _ _ (ValueIdx.ix1 e) rfl (ValueIdx.ix1 ⟨e.val, he⟩)
        (fun b => by match b with | ⟨0, _⟩ => rfl)
    rw [hr]
    have := given_inRange x0 a1 a2 x3 x4 h (ValueIdx.ix1 ⟨e.val, he⟩)
    omega
  · have hr : rowArr a1 (ValueIdx.ix1 e) = iotaInDim S100000 32 0 (ValueIdx.ix1 ⟨e.val - 1600000, by omega⟩) := by
      refine concatenate_pair_apply_right (t := S1700000) (s₁ := S1600000) (s₂ := S100000) (0 : Fin S1700000.rank) _ _ _ (ValueIdx.ix1 e) rfl rfl
        (ValueIdx.ix1 ⟨e.val - 1600000, by omega⟩) (fun b hb => ?_) ?_
      · exact absurd (Fin.ext (by have hb1 : b.val < 1 := b.isLt; show b.val = 0; omega)) hb
      · show e.val - 1600000 + 1600000 = e.val
        omega
    rw [hr]
    show 0 ≤ (BitVec.ofNat 32 (e.val - 1600000)).toInt ∧ (BitVec.ofNat 32 (e.val - 1600000)).toInt < ((100000 : ℕ) : ℤ)
    rw [StableHlo.Predicate.toInt_ofNat_small _ (by omega)]
    omega

end Cert.GcnRef

end
-- ==== Proof.RefRun.lean ====
import proofs.«128423_j81389630259984_1_alg».proof.Proof.RefRunP
import proofs.«128423_j81389630259984_1_alg».proof.Proof.RefPrefix
import Idealize.ShloMosaic.Lib.StableHlo.Run

noncomputable section

namespace Cert.GcnRef

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

abbrev ops1 : List (HloOp τ sig (Elt F)) := ops.take 42
abbrev ops2 : List (HloOp τ sig (Elt F)) := (ops.drop 42).take 20
abbrev ops3 : List (HloOp τ sig (Elt F)) := ((ops.drop 42).drop 20).take 17
abbrev ops4 : List (HloOp τ sig (Elt F)) :=
  [ nullary main_call2_cst ((constant S_ .f32 0xFF800000#32) : (⟨S_, .f32⟩ : BufTy).Contents (Elt F)),
    binary main_v60 main_call2_cst main_call2_v0 ((fun x v => Host.reduce FloatOps.maximumf x v reducesTo_S100000x16_S100000_d1 h_S_) : (⟨S100000x16, .f32⟩ : BufTy).Contents (Elt F) → (⟨S_, .f32⟩ : BufTy).Contents (Elt F) → (⟨S100000, .f32⟩ : BufTy).Contents (Elt F)),
    nullary main_call2_cst_0 ((constant S_ .f32 0xFF800000#32) : (⟨S_, .f32⟩ : BufTy).Contents (Elt F)),
    unary main_call2_cst_0 main_call2_v1 ((broadcastInDim S100000 ![] bcast_S_S100000) : (⟨S_, .f32⟩ : BufTy).Contents (Elt F) → (⟨S100000, .f32⟩ : BufTy).Contents (Elt F)),
    binary main_call2_v1 main_call2_v0 main_call2_v2 ((maximumf) : (⟨S100000, .f32⟩ : BufTy).Contents (Elt F) → (⟨S100000, .f32⟩ : BufTy).Contents (Elt F) → (⟨S100000, .f32⟩ : BufTy).Contents (Elt F)),
    unary main_call2_v2 main_call2_v3 ((broadcastInDim S100000x1 ![0] bcast_S100000_S100000x1_0) : (⟨S100000, .f32⟩ : BufTy).Contents (Elt F) → (⟨S100000x1, .f32⟩ : BufTy).Contents (Elt F)),
    unary main_call2_v3 main_call2_v4 ((broadcastInDim S100000x16 ![0, 1] bcast_S100000x1_S100000x16_0_1) : (⟨S100000x1, .f32⟩ : BufTy).Contents (Elt F) → (⟨S100000x16, .f32⟩ : BufTy).Contents (Elt F)),
    binary main_v60 main_call2_v4 main_call2_v5 ((subf) : (⟨S100000x16, .f32⟩ : BufTy).Contents (Elt F) → (⟨S100000x16, .f32⟩ : BufTy).Contents (Elt F) → (⟨S100000x16, .f32⟩ : BufTy).Contents (Elt F)),
    unary main_call2_v5 main_call2_v6 ((Host.exp) : (⟨S100000x16, .f32⟩ : BufTy).Contents (Elt F) → (⟨S100000x16, .f32⟩ : BufTy).Contents (Elt F)),
    nullary main_call2_cst_1 ((constant S_ .f32 0x00000000#32) : (⟨S_, .f32⟩ : BufTy).Contents (Elt F)),
    binary main_call2_v6 main_call2_cst_1 main_call2_v7 ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F)),
    unary main_call2_v7 main_call2_v8 ((broadcastInDim S100000x1 ![0] bcast_S100000_S100000x1_0) : (⟨S100000, .f32⟩ : BufTy).Contents (Elt F) → (⟨S100000x1, .f32⟩ : BufTy).Contents (Elt F)),
    unary main_call2_v8 main_call2_v9 ((Host.log) : (⟨S100000x1, .f32⟩ : BufTy).Contents (Elt F) → (⟨S100000x1, .f32⟩ : BufTy).Contents (Elt F)),
    unary main_call2_v9 main_call2_v10 ((broadcastInDim S100000x16 ![0, 1] bcast_S100000x1_S100000x16_0_1) : (⟨S100000x1, .f32⟩ : BufTy).Contents (Elt F) → (⟨S100000x16, .f32⟩ : BufTy).Contents (Elt F)),
    binary main_call2_v5 main_call2_v10 main_v61 ((subf) : (⟨S100000x16, .f32⟩ : BufTy).Contents (Elt F) → (⟨S100000x16, .f32⟩ : BufTy).Contents (Elt F) → (⟨S100000x16, .f32⟩ : BufTy).Contents (Elt F)) ]

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

section Split
attribute [local irreducible] Host.reduce
theorem ops4_eq : ((ops (F := F).drop 42).drop 20).drop 17 = ops4 := rfl
end Split

theorem ops_split : (ops : List (HloOp τ sig (Elt F))) = ops1 ++ ops2 ++ ops3 ++ ops4 := by
  rw [← ops4_eq]; simp only [List.append_assoc, List.take_append_drop]

theorem after_ops (V : Valuation τ sig (Elt F)) :
    after ops V = after ops4 (after ops3 (after ops2 (after ops1 V))) := by
  rw [ops_split, after_app, after_app, after_app]

local macro "writes_mem" : tactic =>
  `(tactic| (simp only [nullary_writes, unary_writes, binary_writes, ternary_writes, reshape_writes,
      Finset.singleton_subset_iff, List.mem_toFinset]; exact List.mem_map_of_mem (by decide)))

abbrev ops1_W : List (Ref sig .tc) := [main_v0, main_v1, main_v2, main_v3, main_v4, main_v5, main_v6, main_cst, main_v7, main_v8, main_cst_0, main_v9, main_v10, main_v11, main_cst_1, main_v12, main_v13, main_v14, main_cst_2, main_call0_v0, main_call0_v1, main_v15, main_c, main_v16, main_v17, main_c_3, main_v18, main_v19, main_v20, main_v21, main_v22, main_v23, main_c_4, main_v24, main_v25, main_c_5, main_v26, main_v27, main_v28, main_v29, main_v30, main_v31]
theorem ops1_writes : (ops1 : List (HloOp τ sig (Elt F))).Forall fun op => op.writes ⊆ (ops1_W.map (Proc.devRef (τ := τ) .tc)).toFinset := by
  simp only [ops1, List.take_succ_cons, List.drop_succ_cons, List.take_zero, List.drop_zero, List.Forall]
  repeat' apply And.intro
  all_goals writes_mem

theorem ops1_keeps (W : Valuation τ sig (Elt F)) {r : Ref sig .tc} (h : r ∉ ops1_W) :
    after ops1 W (Proc.devRef .tc r) = W (Proc.devRef .tc r) :=
  after_of_writes_sub ops1 W ops1_writes h

abbrev ops2_W : List (Ref sig .tc) := [main_v32, main_c_6, main_v33, main_v34, main_c_7, main_v35, main_v36, main_v37, main_v38, main_v39, main_v40, main_v41, main_v42, main_cst_8, main_v43, main_v44, main_v45, main_call1_cst, main_call1_v0, main_v46]
theorem ops2_writes : (ops2 : List (HloOp τ sig (Elt F))).Forall fun op => op.writes ⊆ (ops2_W.map (Proc.devRef (τ := τ) .tc)).toFinset := by
  simp only [ops2, List.take_succ_cons, List.drop_succ_cons, List.take_zero, List.drop_zero, List.Forall]
  repeat' apply And.intro
  all_goals writes_mem

theorem ops2_keeps (W : Valuation τ sig (Elt F)) {r : Ref sig .tc} (h : r ∉ ops2_W) :
    after ops2 W (Proc.devRef .tc r) = W (Proc.devRef .tc r) :=
  after_of_writes_sub ops2 W ops2_writes h

abbrev ops3_W : List (Ref sig .tc) := [main_v47, main_c_9, main_v48, main_v49, main_c_10, main_v50, main_v51, main_v52, main_v53, main_v54, main_v55, main_v56, main_v57, main_cst_11, main_v58, main_v59, main_v60]
theorem ops3_writes : (ops3 : List (HloOp τ sig (Elt F))).Forall fun op => op.writes ⊆ (ops3_W.map (Proc.devRef (τ := τ) .tc)).toFinset := by
  simp only [ops3, List.take_succ_cons, List.drop_succ_cons, List.take_zero, List.drop_zero, List.Forall]
  repeat' apply And.intro
  all_goals writes_mem

theorem ops3_keeps (W : Valuation τ sig (Elt F)) {r : Ref sig .tc} (h : r ∉ ops3_W) :
    after ops3 W (Proc.devRef .tc r) = W (Proc.devRef .tc r) :=
  after_of_writes_sub ops3 W ops3_writes h

abbrev ops4_W : List (Ref sig .tc) := [main_call2_cst, main_call2_v0, main_call2_cst_0, main_call2_v1, main_call2_v2, main_call2_v3, main_call2_v4, main_call2_v5, main_call2_v6, main_call2_cst_1, main_call2_v7, main_call2_v8, main_call2_v9, main_call2_v10, main_v61]
theorem ops4_writes : (ops4 : List (HloOp τ sig (Elt F))).Forall fun op => op.writes ⊆ (ops4_W.map (Proc.devRef (τ := τ) .tc)).toFinset := by
  simp only [List.Forall]
  repeat' apply And.intro
  all_goals writes_mem

theorem ops4_keeps (W : Valuation τ sig (Elt F)) {r : Ref sig .tc} (h : r ∉ ops4_W) :
    after ops4 W (Proc.devRef .tc r) = W (Proc.devRef .tc r) :=
  after_of_writes_sub ops4 W ops4_writes h

theorem ops1_row (W : Valuation τ sig (Elt F)) :
    after ops1 W (Proc.devRef .tc main_v3) = rowArr (W (Proc.devRef .tc main_arg1)) := by
  simp only [ops1, List.take_succ_cons, List.drop_succ_cons, List.take_zero, List.drop_zero]
  after_results_simp <;> rfl

theorem ops1_col (W : Valuation τ sig (Elt F)) :
    after ops1 W (Proc.devRef .tc main_v6) = colArr (W (Proc.devRef .tc main_arg1)) := by
  simp only [ops1, List.take_succ_cons, List.drop_succ_cons, List.take_zero, List.drop_zero]
  after_results_simp <;> rfl

theorem ops1_nrm (W : Valuation τ sig (Elt F)) :
    after ops1 W (Proc.devRef .tc main_v31) = nrmArr (W (Proc.devRef .tc main_arg1)) (W (Proc.devRef .tc main_arg2)) := by
  simp only [ops1, List.take_succ_cons, List.drop_succ_cons, List.take_zero, List.drop_zero]
  after_results_simp <;> rfl

theorem ops2_out (W : Valuation τ sig (Elt F)) :
    after ops2 W (Proc.devRef .tc main_v46)
      = reluR (layer1R (W (Proc.devRef .tc main_arg0)) (W (Proc.devRef .tc main_arg3)) (W (Proc.devRef .tc main_v3)) (W (Proc.devRef .tc main_v6)) (W (Proc.devRef .tc main_v31))) := by
  simp only [ops2, List.take_succ_cons, List.drop_succ_cons, List.take_zero, List.drop_zero]
  after_results_simp <;> rfl

theorem ops3_out (W : Valuation τ sig (Elt F)) :
    after ops3 W (Proc.devRef .tc main_v60)
      = layer2R (W (Proc.devRef .tc main_v46)) (W (Proc.devRef .tc main_arg4)) (W (Proc.devRef .tc main_v3)) (W (Proc.devRef .tc main_v6)) (W (Proc.devRef .tc main_v31)) := by
  simp only [ops3, List.take_succ_cons, List.drop_succ_cons, List.take_zero, List.drop_zero]
  after_results_simp <;> rfl

theorem ops4_out (W : Valuation τ sig (Elt F)) :
    after ops4 W (Proc.devRef .tc main_v61) = lsmR (W (Proc.devRef .tc main_v60)) := by
  after_results_simp <;> rfl

theorem ops_keeps (V : Valuation τ sig (Elt F)) {r : Ref sig .tc}
    (h1 : r ∉ ops1_W) (h2 : r ∉ ops2_W) (h3 : r ∉ ops3_W) (h4 : r ∉ ops4_W) :
    after ops V (Proc.devRef .tc r) = V (Proc.devRef .tc r) := by
  rw [after_ops, ops4_keeps _ h4, ops3_keeps _ h3, ops2_keeps _ h2, ops1_keeps _ h1]

theorem ops_out (V : Valuation τ sig (Elt F)) :
    after ops V (Proc.devRef .tc main_v61)
      = refOut (V (Proc.devRef .tc main_arg0)) (V (Proc.devRef .tc main_arg1)) (V (Proc.devRef .tc main_arg2)) (V (Proc.devRef .tc main_arg3)) (V (Proc.devRef .tc main_arg4)) := by
  rw [after_ops, ops4_out, ops3_out, ops2_out,
    ops2_keeps _ (r := main_arg4) (by decide), ops2_keeps _ (r := main_v3) (by decide),
    ops2_keeps _ (r := main_v6) (by decide), ops2_keeps _ (r := main_v31) (by decide),
    ops1_row, ops1_col, ops1_nrm,
    ops1_keeps _ (r := main_arg0) (by decide), ops1_keeps _ (r := main_arg3) (by decide),
    ops1_keeps _ (r := main_arg4) (by decide)]
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v61).trans (ops_out (launchContents m c)),
      (h c main_arg0).trans (ops_keeps (launchContents m c) (by decide) (by decide) (by decide) (by decide)),
      (h c main_arg1).trans (ops_keeps (launchContents m c) (by decide) (by decide) (by decide) (by decide)),
      (h c main_arg2).trans (ops_keeps (launchContents m c) (by decide) (by decide) (by decide) (by decide)),
      (h c main_arg3).trans (ops_keeps (launchContents m c) (by decide) (by decide) (by decide) (by decide)),
      (h c main_arg4).trans (ops_keeps (launchContents m c) (by decide) (by decide) (by decide) (by decide))⟩)
    (run_seq scopedRefs_eq scopedSems_eq defs main (fun _ => ops) main_eq (fun _ => ops_sub) m ρ)

end Cert.GcnRef

end
-- ==== Proof.RefLsm.lean ====
import proofs.«128423_j81389630259984_1_alg».proof.Proof.RefPrefix
import proofs.«128423_j81389630259984_1_alg».proof.Proof.Spec
import proofs.«128423_j81389630259984_1_alg».proof.Proof.LibDenseLayer
import proofs.«128423_j81389630259984_1_alg».proof.Proof.LibColumnLayout
import proofs.«128423_j81389630259984_1_alg».proof.Proof.LibPropagationChain
import Idealize.ShloMosaic.Lib.Pipeline.Value
import Idealize.ShloMosaic.Lib.ValueIdx
import Idealize.ShloMosaic.PureOps.Ideal.Laws

noncomputable section

namespace Cert.GcnRef

open Cert.ReferenceIdeal Idealize.ShloMosaic Idealize.ShloMosaic.ValueIdx
open Cert.ReferenceIdeal.Facts₀ Cert.ReferenceIdeal.Facts
open Cert.DenseLayer Cert.PropagationChain

theorem lsm_splat_apply {α : Type} (c : S_.Idx → α) (p : Fin 100000) :
    broadcastInDim S100000 ![] bcast_S_S100000 c (ix1 p) = c ix0 :=
  broadcastInDim_apply _ bcast_S_S100000 c (ix1 p) ix0 (fun a => a.elim0)

theorem lsm_column_apply {α : Type} (v : S100000.Idx → α) (p : Fin 100000) (u : Fin 1) :
    broadcastInDim S100000x1 ![0] bcast_S100000_S100000x1_0 v (ix2 p u) = v (ix1 p) :=
  broadcastInDim_apply _ bcast_S100000_S100000x1_0 v (ix2 p u) (ix1 p) (fun a => match a with
    | ⟨0, _⟩ => by show p.val = if (100000 : Nat) = 1 then 0 else p.val; rw [if_neg (by decide)])

theorem lsm_over_columns_apply {α : Type} (w : S100000x1.Idx → α) (p : Fin 100000) (q : Fin 16) :
    broadcastInDim S100000x16 ![0, 1] bcast_S100000x1_S100000x16_0_1 w (ix2 p q) = w (ix2 p (0 : Fin 1)) :=
  broadcastInDim_apply _ bcast_S100000x1_S100000x16_0_1 w (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])

theorem lsm_rowMax_apply (Z : FVec Ideal S100000x16 .f32) (p : Fin 100000) :
    maximumf (broadcastInDim S100000 ![] bcast_S_S100000 (constant (F := Ideal) S_ .f32 0xFF800000#32))
      (Host.reduce (FloatOps.maximumf (F := Ideal) (φ := .f32)) Z (constant (F := Ideal) S_ .f32 0xFF800000#32)
        reducesTo_S100000x16_S100000_d1 h_S_) (ix1 p)
      = rowFold (fun k => Z (ix2 p k)) := by
  rw [maximumf_apply, lsm_splat_apply, constant_apply]
  rw [hostReduce_max_rows_apply Z _ reducesTo_S100000x16_S100000_d1 (by decide) h_S_ p, constant_apply]
  exact rowTop_eq_rowFold (fun k => Z (ix2 p k))

theorem lsm_rowSum_apply (X : FVec Ideal S100000x16 .f32) (p : Fin 100000) :
    Host.reduceAdd (F := Ideal) X (constant (F := Ideal) S_ .f32 0x00000000#32) reducesTo_S100000x16_S100000_d1 h_S_ (ix1 p)
      = ∑ k : Fin 16, X (ix2 p k) := by
  simp only [Host.reduceAdd, Ideal.hostReduceAdd_def]
  rw [Ideal.hostReduceAdd_single reducesTo_S100000x16_S100000_d1 (by decide)]
  rw [show (constant (F := Ideal) S_ .f32 0x00000000#32) (Shape.Idx.first h_S_) = (0 : EReal) from Ideal.ofBits_zero_f32, zero_add]
  exact Finset.sum_congr rfl fun k _ => congrArg X (funext fun a => Fin.ext (by match a with | ⟨0, _⟩ => rfl | ⟨1, _⟩ => rfl))

theorem lsm_hostExp_apply {s : Shape} (X : FVec Ideal s .f32) (i : s.Idx) : Host.exp X i = Ideal.exp (X i) := rfl
theorem lsm_hostLog_apply {s : Shape} (X : FVec Ideal s .f32) (i : s.Idx) : Host.log X i = Ideal.log (X i) := rfl

theorem shiftR_apply (Z : FVec Ideal S100000x16 .f32) (p : Fin 100000) (q : Fin 16) :
    shiftR (F := Ideal) Z (ix2 p q) = Z (ix2 p q) - rowFold (fun k => Z (ix2 p k)) := by
  unfold shiftR
  rw [subf_apply, lsm_over_columns_apply, lsm_column_apply, lsm_rowMax_apply]

theorem lsmR_eq (Z : FVec Ideal Cert.ReferenceIdeal.S100000x16 .f32) : lsmR (F := Ideal) Z = Cert.GcnSpec.rowLogSoftmax Z := by
  funext i
  obtain ⟨p, q, rfl⟩ : ∃ (p : Fin 100000) (q : Fin 16), i = ix2 p q := ⟨i 0, i 1, eq_ix2 i⟩
  unfold lsmR Cert.GcnSpec.rowLogSoftmax
  rw [subf_apply, shiftR_apply, lsm_over_columns_apply, lsm_hostLog_apply, lsm_column_apply, lsm_rowSum_apply]
  simp only [lsm_hostExp_apply, shiftR_apply]

end Cert.GcnRef

end
-- ==== Proof.LibIndexOps.lean ====
import Idealize.ShloMosaic.PureOps.Ideal
import Idealize.ShloMosaic.Lib.ValueIdx
import Idealize.ShloMosaic.Lib.StableHlo.Predicate

noncomputable section

namespace Idealize.ShloMosaic.IndexOps

open Idealize.ShloMosaic Idealize.ShloMosaic.ValueIdx

private theorem getElem_of_eq_singleton {β : Type} (l : List β) (a : β) (hl : l = [a]) (i : Nat) (h : i < l.length) :
    l[i] = a := by
  subst hl
  have h0 : i = 0 := by simpa using h
  subst h0
  rfl

theorem gather_rows_apply {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C]) (hN : 0 < N)
    (x : (⟨2, ![N, C]⟩ : Shape).Idx → α) (idx : IVec ⟨2, ![n, 1]⟩ w) (e : Fin n) (k : Fin C) :
    Host.gather d x idx (ix2 e k) = x (ix2 ⟨min (idx (ix2 e 0)).toInt.toNat (N - 1), by omega⟩ k) := by
  unfold Host.gather
  congr 1
  funext a
  have hb : ∀ a : Fin 2, a ∉ d.operandBatchingDims := by intro a; rw [hob]; exact List.not_mem_nil
  match a with
  | ⟨0, _⟩ =>

    apply Fin.ext
    show d.start (ix2 e k) idx 0 + d.batchCoord (ix2 e k) 0 + d.offCoord (ix2 e k) 0 = min (idx (ix2 e 0)).toInt.toNat (N - 1)
    have hk : (0 : Fin 2) ∉ d.sKept := by rw [GatherDims.mem_sKept, hcoll]; simp
    have hm : (0 : Fin 2) ∈ d.startIndexMap := by rw [hsim]; exact List.mem_singleton.mpr rfl
    rw [d.batchCoord_eq_zero _ _ (hb 0), d.offCoord_eq_zero _ _ hk]
    simp only [Nat.add_zero]
    unfold GatherDims.start
    rw [dif_pos hm]
    have hsl : d.sliceSizes 0 = 1 := by rw [hss]; rfl
    have hbd : d.batchDims = [0] := by
      show (⟨2, ![n, C]⟩ : Shape).kept d.offsetDims = [0]
      rw [hoff]; rfl
    have hsi : d.siIdx (ix2 e k) ⟨d.startIndexMap.idxOf 0, List.idxOf_lt_length_iff.2 hm⟩ = ix2 e 0 := by
      funext b
      match b with
      | ⟨0, _⟩ =>

        unfold GatherDims.siIdx
        rw [dif_neg (by rw [hivd]; simp)]
        unfold GatherDims.siCoord
        apply Fin.ext
        simp only [Fin.val_cast]
        have key : ∀ X : Fin 2, X = 0 → ((ix2 e k : (⟨2, ![n, C]⟩ : Shape).Idx) X).val = e.val := by
          intro X hX; subst hX; rfl
        exact key _ (getElem_of_eq_singleton _ _ hbd _ _)
      | ⟨1, _⟩ =>
        unfold GatherDims.siIdx
        rw [dif_pos (by rw [hivd])]
        apply Fin.ext
        show List.idxOf (0 : Fin 2) d.startIndexMap = 0
        rw [hsim]; simp
    rw [hsi, hsl]
    rfl
  | ⟨1, _⟩ =>

    apply Fin.ext
    show d.start (ix2 e k) idx 1 + d.batchCoord (ix2 e k) 1 + d.offCoord (ix2 e k) 1 = k.val
    have hm : (1 : Fin 2) ∉ d.startIndexMap := by rw [hsim]; simp
    have hk : (1 : Fin 2) ∈ d.sKept := by rw [GatherDims.mem_sKept, hcoll, hob]; simp
    rw [d.batchCoord_eq_zero _ _ (hb 1)]
    unfold GatherDims.start
    rw [dif_neg hm]
    unfold GatherDims.offCoord
    rw [dif_pos hk]
    simp only [Nat.add_zero, Nat.zero_add]
    have key : ∀ X : Fin 2, X = 1 → ((ix2 e k : (⟨2, ![n, C]⟩ : Shape).Idx) X).val = k.val := by
      intro X hX; subst hX; rfl
    exact key _ (getElem_of_eq_singleton _ _ hoff _ _)

section Rows
variable {N C n w : Nat} (d : ScatterDims ⟨2, ![N, C]⟩ ⟨2, ![n, 1]⟩ ⟨2, ![n, C]⟩)

private theorem rows_siIdx (huw : d.updateWindowDims = [1]) (hivd : d.indexVectorDim = 1)
    (e : Fin n) (k' : Fin C) (c : Fin d.scatterDimsToOperandDims.length) (hc : c.val = 0) :
    d.siIdx (ix2 e k') c = ix2 e 0 := by
  have hus : d.uScatter = [0] := by
    show (⟨2, ![n, C]⟩ : Shape).kept d.updateWindowDims = [0]
    rw [huw]; rfl
  funext b
  match b with
  | ⟨0, _⟩ =>
    unfold ScatterDims.siIdx
    rw [dif_neg (by rw [hivd]; simp)]
    unfold ScatterDims.siCoord
    apply Fin.ext
    simp only [Fin.val_cast]
    have key : ∀ X : Fin 2, X = 0 → ((ix2 e k' : (⟨2, ![n, C]⟩ : Shape).Idx) X).val = e.val := by
      intro X hX; subst hX; rfl
    exact key _ (getElem_of_eq_singleton _ _ hus _ _)
  | ⟨1, _⟩ =>
    unfold ScatterDims.siIdx
    rw [dif_pos (by rw [hivd])]
    apply Fin.ext
    exact hc

private theorem rows_start0 (huw : d.updateWindowDims = [1]) (hsd : d.scatterDimsToOperandDims = [0])
    (hivd : d.indexVectorDim = 1) (idx : IVec ⟨2, ![n, 1]⟩ w) (e : Fin n) (k' : Fin C) :
    d.start (ix2 e k') idx 0 = (idx (ix2 e 0)).toInt := by
  have hm : (0 : Fin 2) ∈ d.scatterDimsToOperandDims := by rw [hsd]; exact List.mem_singleton.mpr rfl
  unfold ScatterDims.start
  rw [dif_pos hm, rows_siIdx d huw hivd e k' _ (by show List.idxOf (0 : Fin 2) d.scatterDimsToOperandDims = 0; rw [hsd]; simp)]

private theorem rows_start1 (hsd : d.scatterDimsToOperandDims = [0]) (idx : IVec ⟨2, ![n, 1]⟩ w)
    (j : (⟨2, ![n, C]⟩ : Shape).Idx) : d.start j idx 1 = 0 := by
  unfold ScatterDims.start
  rw [dif_neg (by rw [hsd]; simp)]

private theorem rows_window0 (hiw : d.insertedWindowDims = [0]) (j : (⟨2, ![n, C]⟩ : Shape).Idx) : d.window j 0 = 0 := by
  unfold ScatterDims.window
  rw [dif_neg (by simp [ScatterDims.sKept, Shape.kept, hiw])]

private theorem rows_window1 (huw : d.updateWindowDims = [1]) (hiw : d.insertedWindowDims = [0]) (e : Fin n) (k' : Fin C) :
    d.window (ix2 e k') 1 = k'.val := by
  unfold ScatterDims.window
  rw [dif_pos (by simp [ScatterDims.sKept, Shape.kept, hiw, List.mem_filter, List.mem_finRange])]
  have key : ∀ X : Fin 2, X = 1 → ((ix2 e k' : (⟨2, ![n, C]⟩ : Shape).Idx) X).val = k'.val := by
    intro X hX; subst hX; rfl
  exact key _ (getElem_of_eq_singleton _ _ huw _ _)

private theorem rows_resultIdx_iff (huw : d.updateWindowDims = [1]) (hiw : d.insertedWindowDims = [0])
    (hsd : d.scatterDimsToOperandDims = [0]) (hivd : d.indexVectorDim = 1) (idx : IVec ⟨2, ![n, 1]⟩ w)
    (e : Fin n) (k' : Fin C) (i : Fin N) (k : Fin C) :
    d.resultIdx? (ix2 e k') idx = some (ix2 i k) ↔ (idx (ix2 e 0)).toInt = (i.val : ℤ) ∧ k' = k := by
  have hs0 := rows_start0 d huw hsd hivd idx e k'
  have hs1 := rows_start1 d hsd idx (ix2 e k')
  have hw0 := rows_window0 d hiw (ix2 e k')
  have hw1 := rows_window1 d huw hiw e k'
  have hi := i.isLt
  have hk' := k'.isLt
  constructor
  · intro h
    unfold ScatterDims.resultIdx? at h
    split at h
    · next hr =>
      have hf := Option.some.inj h
      have h0 := congrArg Fin.val (congrFun hf 0)
      have h1 := congrArg Fin.val (congrFun hf 1)
      have hr0 := (hr 0).1
      change (d.start (ix2 e k') idx 0 + (d.window (ix2 e k') 0 : ℤ)).toNat = i.val at h0
      change (d.start (ix2 e k') idx 1 + (d.window (ix2 e k') 1 : ℤ)).toNat = k.val at h1
      rw [hs0, hw0] at h0 hr0
      rw [hs1, hw1] at h1
      refine ⟨by omega, Fin.ext (by omega)⟩
    · exact absurd h (by simp)
  · rintro ⟨hi', rfl⟩
    have hr : ∀ a, 0 ≤ d.start (ix2 e k') idx a + d.window (ix2 e k') a ∧
        d.start (ix2 e k') idx a + d.window (ix2 e k') a < (⟨2, ![N, C]⟩ : Shape).size a := by
      intro a
      match a with
      | ⟨0, _⟩ =>
        show 0 ≤ d.start (ix2 e k') idx 0 + (d.window (ix2 e k') 0 : ℤ) ∧ d.start (ix2 e k') idx 0 + (d.window (ix2 e k') 0 : ℤ) < (N : ℤ)
        rw [hs0, hw0, hi']; omega
      | ⟨1, _⟩ =>
        show 0 ≤ d.start (ix2 e k') idx 1 + (d.window (ix2 e k') 1 : ℤ) ∧ d.start (ix2 e k') idx 1 + (d.window (ix2 e k') 1 : ℤ) < (C : ℤ)
        rw [hs1, hw1]; omega
    unfold ScatterDims.resultIdx?
    rw [dif_pos hr]
    congr 1
    funext a
    match a with
    | ⟨0, _⟩ =>
      apply Fin.ext
      show (d.start (ix2 e k') idx 0 + (d.window (ix2 e k') 0 : ℤ)).toNat = i.val
      rw [hs0, hw0, hi']; omega
    | ⟨1, _⟩ =>
      apply Fin.ext
      show (d.start (ix2 e k') idx 1 + (d.window (ix2 e k') 1 : ℤ)).toNat = k'.val
      rw [hs1, hw1]; omega

end Rows

open Classical in

theorem scatterAdd_rows_apply {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![n, 1]⟩ w) (upd : (⟨2, ![n, C]⟩ : Shape).Idx → EReal)
    (i : Fin N) (k : Fin C) :
    Ideal.hostScatterAdd d x idx upd (ix2 i k)
      = x (ix2 i k) + ∑ e ∈ Finset.univ.filter (fun e : Fin n => (idx (ix2 e 0)).toInt = (i.val : ℤ)), upd (ix2 e k) := by
  unfold Ideal.hostScatterAdd
  congr 1
  symm

  refine Finset.sum_bij (fun e _ => ix2 e k) ?_ ?_ ?_ ?_
  · intro e he
    rw [Finset.mem_filter] at he ⊢
    exact ⟨Finset.mem_univ _, (rows_resultIdx_iff d huw hiw hsd hivd idx e k i k).2 ⟨he.2, rfl⟩⟩
  · intro e _ e' _ h
    exact congrFun h 0
  · intro j hj
    rw [Finset.mem_filter] at hj
    obtain ⟨e, k', rfl⟩ : ∃ e k', j = ix2 e k' := ⟨j 0, j 1, eq_ix2 j⟩
    obtain ⟨he, rfl⟩ := (rows_resultIdx_iff d huw hiw hsd hivd idx e k' i k).1 hj.2
    exact ⟨e, Finset.mem_filter.2 ⟨Finset.mem_univ _, he⟩, rfl⟩
  · intro e _
    rfl

end Idealize.ShloMosaic.IndexOps

end
-- ==== Proof.RefRead.lean ====
import proofs.«128423_j81389630259984_1_alg».proof.Proof.RefPrefix
import proofs.«128423_j81389630259984_1_alg».proof.Proof.RefLsm
import proofs.«128423_j81389630259984_1_alg».proof.Proof.Spec
import proofs.«128423_j81389630259984_1_alg».proof.Proof.LibIndexOps
import proofs.«128423_j81389630259984_1_alg».proof.Proof.LibDenseLayer
import proofs.«128423_j81389630259984_1_alg».proof.Proof.LibColumnLayout
import proofs.«128423_j81389630259984_1_alg».proof.Proof.LibPropagationChain
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Predicate
import Idealize.ShloMosaic.PureOps.Ideal.Laws

noncomputable section

namespace Cert.GcnRef

open Cert.ReferenceIdeal Idealize.ShloMosaic Idealize.ShloMosaic.ValueIdx Cert.DenseLayer Cert.PropagationChain

theorem lhs_dot1_0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide),
    dif_pos (show (0 : Fin S100000x128.rank) ∈ dot_S100000x128_S128x64_S100000x64_1_0_0_1_n_n.lhsNonContracting by decide)]
  rfl

theorem lhs_dot1_1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q

theorem rhs_dot1_0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q

theorem rhs_dot1_1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide),
    dif_pos (show (1 : Fin S128x64.rank) ∈ dot_S100000x128_S128x64_S100000x64_1_0_0_1_n_n.rhsNonContracting by decide)]
  rfl

theorem plainDot1 : PlainDot (a := 100000) (K := 128) (N := 64) dot_S100000x128_S128x64_S100000x64_1_0_0_1_n_n where
  rank := rfl
  size := rfl
  lhs0 := lhs_dot1_0
  lhs1 := lhs_dot1_1
  rhs0 := rhs_dot1_0
  rhs1 := rhs_dot1_1

theorem dense1_read (X : FVec Ideal S100000x128 .f32) (W1 : FVec Ideal S128x64 .f32) :
    Host.dotGeneral (F := Ideal) dot_S100000x128_S128x64_S100000x64_1_0_0_1_n_n none X W1 = GcnSpec.dense X W1 :=
  funext fun i => dotGeneral_apply plainDot1 none .single X W1 i

theorem lhs_dot2_0 (i : S100000x16.Idx) (q : dot_S100000x64_S64x16_S100000x16_1_0_0_1_n_n.contr.Idx) :
    (dot_S100000x64_S64x16_S100000x16_1_0_0_1_n_n.lhsIdx i q 0).val = (i 0).val := by
  unfold DotDims.lhsIdx
  rw [dif_neg (show ¬(0 : Fin S100000x64.rank) ∈ dot_S100000x64_S64x16_S100000x16_1_0_0_1_n_n.lhsBatch by decide),
    dif_pos (show (0 : Fin S100000x64.rank) ∈ dot_S100000x64_S64x16_S100000x16_1_0_0_1_n_n.lhsNonContracting by decide)]
  rfl

theorem lhs_dot2_1 (i : S100000x16.Idx) (q : dot_S100000x64_S64x16_S100000x16_1_0_0_1_n_n.contr.Idx) :
    (dot_S100000x64_S64x16_S100000x16_1_0_0_1_n_n.lhsIdx i q 1).val = (q ⟨0, by decide⟩).val :=
  dot_S100000x64_S64x16_S100000x16_1_0_0_1_n_n.lhsIdx_val_of_single rfl i q

theorem rhs_dot2_0 (i : S100000x16.Idx) (q : dot_S100000x64_S64x16_S100000x16_1_0_0_1_n_n.contr.Idx) :
    (dot_S100000x64_S64x16_S100000x16_1_0_0_1_n_n.rhsIdx i q 0).val = (q ⟨0, by decide⟩).val :=
  dot_S100000x64_S64x16_S100000x16_1_0_0_1_n_n.rhsIdx_val_of_single rfl i q

theorem rhs_dot2_1 (i : S100000x16.Idx) (q : dot_S100000x64_S64x16_S100000x16_1_0_0_1_n_n.contr.Idx) :
    (dot_S100000x64_S64x16_S100000x16_1_0_0_1_n_n.rhsIdx i q 1).val = (i 1).val := by
  unfold DotDims.rhsIdx
  rw [dif_neg (show ¬(1 : Fin S64x16.rank) ∈ dot_S100000x64_S64x16_S100000x16_1_0_0_1_n_n.rhsBatch by decide),
    dif_pos (show (1 : Fin S64x16.rank) ∈ dot_S100000x64_S64x16_S100000x16_1_0_0_1_n_n.rhsNonContracting by decide)]
  rfl

theorem plainDot2 : PlainDot (a := 100000) (K := 64) (N := 16) dot_S100000x64_S64x16_S100000x16_1_0_0_1_n_n where
  rank := rfl
  size := rfl
  lhs0 := lhs_dot2_0
  lhs1 := lhs_dot2_1
  rhs0 := rhs_dot2_0
  rhs1 := rhs_dot2_1

theorem dense2_read (H : FVec Ideal S100000x64 .f32) (W2 : FVec Ideal S64x16 .f32) :
    Host.dotGeneral (F := Ideal) dot_S100000x64_S64x16_S100000x16_1_0_0_1_n_n none H W2 = GcnSpec.dense H W2 :=
  funext fun i => dotGeneral_apply plainDot2 none .single H W2 i

private theorem splat_apply {α : Type} {T : Shape} (h : S_.BroadcastsInDim T ![]) (x : S_.Idx → α) (j : T.Idx) :
    broadcastInDim T ![] h x j = x ix0 :=
  broadcastInDim_scalar_apply h x j

private theorem column_apply {α : Type} {n : ℕ} (h : (⟨1, ![n]⟩ : Shape).BroadcastsInDim ⟨2, ![n, 1]⟩ ![0])
    (v : (⟨1, ![n]⟩ : Shape).Idx → α) (e : Fin n) (u : Fin 1) :
    broadcastInDim ⟨2, ![n, 1]⟩ ![0] h v (ix2 e u) = v (ix1 e) :=
  broadcastInDim_apply _ h v (ix2 e u) (ix1 e) (fun a => match a with
    | ⟨0, _⟩ => by
      show e.val = if n = 1 then 0 else e.val
      split
      · have := e.isLt; omega
      · rfl)

private theorem columns_apply {α : Type} {n m : ℕ} (h : (⟨2, ![n, 1]⟩ : Shape).BroadcastsInDim ⟨2, ![n, m]⟩ ![0, 1])
    (v : (⟨2, ![n, 1]⟩ : Shape).Idx → α) (e : Fin n) (k : Fin m) :
    broadcastInDim ⟨2, ![n, m]⟩ ![0, 1] h v (ix2 e k) = v (ix2 e (0 : Fin 1)) :=
  broadcastInDim_apply _ h v (ix2 e k) (ix2 e (0 : Fin 1)) (fun a => match a with
    | ⟨0, _⟩ => by
      show e.val = if n = 1 then 0 else e.val
      split
      · have := e.isLt; omega
      · rfl
    | ⟨1, _⟩ => by
      show 0 = if (1 : ℕ) = 1 then 0 else k.val
      rw [if_pos rfl])

private theorem cmpi_slt_zero_of_nonneg (w : BitVec 32) (h : 0 ≤ w.toInt) : IntOp.cmpi .slt w 0#32 = 0#1 := by
  have hs : w.slt 0#32 = false := by
    rw [BitVec.slt_eq_decide]
    simp only [BitVec.toInt_zero, decide_eq_false_iff_not, not_lt]
    exact h
  show BitVec.ofBool (w.slt 0#32) = 0#1
  rw [hs]
  rfl

theorem wrapIdx_apply (r : IVec S1700000 32) (e : Fin 1700000) (u : Fin 1) :
    wrapIdx r (ix2 e u)
      = Scalar.select (IntOp.cmpi .slt (r (ix1 e)) 0#32) (IntOp.addi (r (ix1 e)) 100000#32) (r (ix1 e)) := by
  unfold wrapIdx
  rw [column_apply]
  rfl

theorem wrapIdx_inRange (r : IVec S1700000 32) (h : GcnSpec.InRange (fun e => r (ix1 e))) (e : Fin 1700000) (u : Fin 1) :
    wrapIdx r (ix2 e u) = r (ix1 e) := by
  rw [wrapIdx_apply, cmpi_slt_zero_of_nonneg _ (h e).1, select_zero]

private theorem scatterAdd_ideal {s si u : Shape} {w : ℕ} (d : ScatterDims s si u) (x : FVec Ideal s .f32) (idx : IVec si w)
    (upd : FVec Ideal u .f32) : Host.scatterAdd (F := Ideal) d x idx upd = Ideal.hostScatterAdd d x idx upd := rfl

theorem round_apply {C : ℕ} (H : Mat 100000 C) (rw cw : Fin 1700000 → BitVec 32) (h : GcnSpec.InRange rw)
    (nrm : Fin 1700000 → EReal) (p : Fin 100000) (k : Fin C) :
    GcnSpec.round H rw cw h nrm (ix2 p k)
      = ∑ e ∈ Finset.univ.filter (fun e : Fin 1700000 => (cw e).toInt = (p.val : ℤ)), GcnSpec.msg H rw h nrm (ix2 e k) := rfl

section Round

variable {C : ℕ}
  (dg : GatherDims ⟨2, ![100000, C]⟩ ⟨2, ![1700000, 1]⟩ ⟨2, ![1700000, C]⟩)
  (hoff : dg.offsetDims = [1]) (hcoll : dg.collapsedSliceDims = [0]) (hob : dg.operandBatchingDims = [])
  (hsb : dg.startIndicesBatchingDims = []) (hsim : dg.startIndexMap = [0]) (hivd : dg.indexVectorDim = 1)
  (hss : dg.sliceSizes = ![1, C])
  (ds : ScatterDims ⟨2, ![100000, C]⟩ ⟨2, ![1700000, 1]⟩ ⟨2, ![1700000, C]⟩)
  (huw : ds.updateWindowDims = [1]) (hiw : ds.insertedWindowDims = [0]) (hsd : ds.scatterDimsToOperandDims = [0])
  (hsv : ds.indexVectorDim = 1)
  (hz : S_.BroadcastsInDim ⟨2, ![100000, C]⟩ (![] : Fin 0 → Fin 2))
  (hc : S1700000.BroadcastsInDim S1700000x1 (![0] : Fin 1 → Fin 2))
  (hcc : S1700000x1.BroadcastsInDim ⟨2, ![1700000, C]⟩ (![0, 1] : Fin 2 → Fin 2))
  (T : Mat 100000 C) (rowA colA : IVec S1700000 32) (nrmA : FVec Ideal S1700000 .f32)
  (h : GcnSpec.InRange (fun e => rowA (ix1 e)))

include hoff hcoll hob hsb hsim hivd hss in

theorem gather_src_apply (e : Fin 1700000) (k : Fin C) :
    Host.gather dg T (wrapIdx rowA) (ix2 e k) = T (ix2 (GcnSpec.src (fun e => rowA (ix1 e)) h e) k) := by
  have h1 : 0 ≤ (rowA (ix1 e)).toInt ∧ (rowA (ix1 e)).toInt < 100000 := h e
  have hN : 0 < 100000 := Nat.succ_pos _
  have hw := wrapIdx_inRange rowA h e 0
  refine (IndexOps.gather_rows_apply dg hoff hcoll hob hsb hsim hivd hss hN T (wrapIdx rowA) e k).trans
    (congrArg (fun p : Fin 100000 => T (ix2 p k)) (Fin.ext ?_))
  show min (wrapIdx rowA (ix2 e 0)).toInt.toNat (100000 - 1) = (rowA (ix1 e)).toInt.toNat
  rw [hw]
  omega

include hoff hcoll hob hsb hsim hivd hss in

theorem msg_read :
    mulf (Host.gather dg T (wrapIdx rowA))
        (broadcastInDim ⟨2, ![1700000, C]⟩ ![0, 1] hcc (broadcastInDim S1700000x1 ![0] hc nrmA))
      = GcnSpec.msg T (fun e => rowA (ix1 e)) h (fun e => nrmA (ix1 e)) := by
  funext j
  obtain ⟨e, k, rfl⟩ : ∃ (e : Fin 1700000) (k : Fin C), j = ix2 e k := ⟨j 0, j 1, eq_ix2 j⟩
  have hg := gather_src_apply dg hoff hcoll hob hsb hsim hivd hss T rowA h e k
  have hb : broadcastInDim ⟨2, ![1700000, C]⟩ ![0, 1] hcc (broadcastInDim S1700000x1 ![0] hc nrmA) (ix2 e k) = nrmA (ix1 e) :=
    (columns_apply hcc _ e k).trans (column_apply hc nrmA e 0)
  show Host.gather dg T (wrapIdx rowA) (ix2 e k)
      * broadcastInDim ⟨2, ![1700000, C]⟩ ![0, 1] hcc (broadcastInDim S1700000x1 ![0] hc nrmA) (ix2 e k)
    = T (ix2 (GcnSpec.src (fun e => rowA (ix1 e)) h e) k) * nrmA (ix1 e)
  rw [hg, hb]

include hoff hcoll hob hsb hsim hivd hss huw hiw hsd hsv in

theorem round_read :
    Host.scatterAdd (F := Ideal) ds
        (broadcastInDim ⟨2, ![100000, C]⟩ ![] hz (constant (F := Ideal) S_ .f32 0x00000000#32))
        (broadcastInDim S1700000x1 ![0] hc colA)
        (mulf (Host.gather dg T (wrapIdx rowA))
          (broadcastInDim ⟨2, ![1700000, C]⟩ ![0, 1] hcc (broadcastInDim S1700000x1 ![0] hc nrmA)))
      = GcnSpec.round T (fun e => rowA (ix1 e)) (fun e => colA (ix1 e)) h (fun e => nrmA (ix1 e)) := by
  rw [msg_read dg hoff hcoll hob hsb hsim hivd hss hc hcc T rowA nrmA h, scatterAdd_ideal]
  funext i
  obtain ⟨p, k, rfl⟩ : ∃ (p : Fin 100000) (k : Fin C), i = ix2 p k := ⟨i 0, i 1, eq_ix2 i⟩
  have key := IndexOps.scatterAdd_rows_apply ds huw hiw hsd hsv
    (broadcastInDim ⟨2, ![100000, C]⟩ ![] hz (constant (F := Ideal) S_ .f32 0x00000000#32))
    (broadcastInDim S1700000x1 ![0] hc colA)
    (GcnSpec.msg T (fun e => rowA (ix1 e)) h (fun e => nrmA (ix1 e))) p k
  rw [key, splat_apply, constant_apply, Ideal.ofBits_zero_f32, zero_add, round_apply]
  refine Finset.sum_congr (Finset.filter_congr fun e _ => ?_) (fun e _ => rfl)
  rw [column_apply]

end Round

theorem layer1R_eq (X : FVec Ideal S100000x128 .f32) (W1 : FVec Ideal S128x64 .f32) (rowA colA : IVec S1700000 32)
    (nrmA : FVec Ideal S1700000 .f32) (h : GcnSpec.InRange (fun e => rowA (ix1 e))) :
    layer1R (F := Ideal) X W1 rowA colA nrmA
      = GcnSpec.round (GcnSpec.dense X W1) (fun e => rowA (ix1 e)) (fun e => colA (ix1 e)) h (fun e => nrmA (ix1 e)) := by
  unfold layer1R
  rw [dense1_read]
  exact round_read (C := 64) gather_S100000x64_S1700000x1_S1700000x64_1_0_n_n_0_1_164 rfl rfl rfl rfl rfl rfl rfl
    scatter_S100000x64_S1700000x1_S1700000x64_1_0_0_1 rfl rfl rfl rfl _ _ _ (GcnSpec.dense X W1) rowA colA nrmA h

theorem layer2R_eq (H : FVec Ideal S100000x64 .f32) (W2 : FVec Ideal S64x16 .f32) (rowA colA : IVec S1700000 32)
    (nrmA : FVec Ideal S1700000 .f32) (h : GcnSpec.InRange (fun e => rowA (ix1 e))) :
    layer2R (F := Ideal) H W2 rowA colA nrmA
      = GcnSpec.round (GcnSpec.dense H W2) (fun e => rowA (ix1 e)) (fun e => colA (ix1 e)) h (fun e => nrmA (ix1 e)) := by
  unfold layer2R
  rw [dense2_read]
  exact round_read (C := 16) gather_S100000x16_S1700000x1_S1700000x16_1_0_n_n_0_1_116 rfl rfl rfl rfl rfl rfl rfl
    scatter_S100000x16_S1700000x1_S1700000x16_1_0_0_1 rfl rfl rfl rfl _ _ _ (GcnSpec.dense H W2) rowA colA nrmA h

theorem reluR_eq (A : FVec Ideal S100000x64 .f32) : reluR (F := Ideal) A = GcnSpec.clamp0 A := by
  funext i
  unfold reluR
  rw [maximumf_apply, splat_apply, constant_apply]
  rfl

theorem refOut_eq_net (X : FVec Ideal Cert.ReferenceIdeal.S100000x128 .f32) (a1 : IVec Cert.ReferenceIdeal.S2x1600000 32)
    (a2 : FVec Ideal Cert.ReferenceIdeal.S1600000 .f32) (W1 : FVec Ideal Cert.ReferenceIdeal.S128x64 .f32)
    (W2 : FVec Ideal Cert.ReferenceIdeal.S64x16 .f32)
    (h : Cert.GcnSpec.InRange (fun e => rowArr a1 (ValueIdx.ix1 e))) :
    refOut (F := Ideal) X a1 a2 W1 W2
      = Cert.GcnSpec.net X W1 W2 (fun e => rowArr a1 (ValueIdx.ix1 e)) (fun e => colArr a1 (ValueIdx.ix1 e)) h
          (fun e => nrmArr (F := Ideal) a1 a2 (ValueIdx.ix1 e)) := by
  unfold refOut GcnSpec.net
  rw [layer1R_eq X W1 (rowArr a1) (colArr a1) (nrmArr a1 a2) h, reluR_eq,
    layer2R_eq _ W2 (rowArr a1) (colArr a1) (nrmArr a1 a2) h, lsmR_eq]

end Cert.GcnRef

end
-- ==== Proof.lean ====
import proofs.«128423_j81389630259984_1_alg».proof.Defs
import proofs.«128423_j81389630259984_1_alg».proof.Proof.Gen.Kernel
import proofs.«128423_j81389630259984_1_alg».proof.Proof.Gen.KernelIdeal
import proofs.«128423_j81389630259984_1_alg».proof.Proof.Gen.ReferenceIdeal
import proofs.«128423_j81389630259984_1_alg».proof.Proof.Gen.Pre_finite_inputs
import proofs.«128423_j81389630259984_1_alg».proof.Proof.BitsRun
import proofs.«128423_j81389630259984_1_alg».proof.Proof.IdealRun
import proofs.«128423_j81389630259984_1_alg».proof.Proof.IdealValue
import proofs.«128423_j81389630259984_1_alg».proof.Proof.KPrefix
import proofs.«128423_j81389630259984_1_alg».proof.Proof.PreRange
import proofs.«128423_j81389630259984_1_alg».proof.Proof.RefRun
import proofs.«128423_j81389630259984_1_alg».proof.Proof.RefRead

noncomputable section

namespace Cert.Proof

open Idealize.ShloMosaic Idealize.ShloMosaic.TcCoe Idealize.SL.Sem

theorem frame_k : Cert.frame_Kernel := fun m ρ _ =>
  (θ_run Cert.Kernel.defs _ _).mono (fun _ h c => (h c).2) (Cert.Kernel.Hand.run_result (F := Bits) m ρ)

theorem frame_ki : Cert.frame_KernelIdeal := fun m ρ _ =>
  (θ_run Cert.KernelIdeal.defs _ _).mono (fun _ h c => (h c).2) (Cert.KernelIdeal.Hand.run_result (F := Ideal) m ρ)

theorem frame_ri : Cert.frame_ReferenceIdeal := fun m ρ _ =>
  (θ_run Cert.ReferenceIdeal.defs _ _).mono (fun _ h c => (h c).2) (Cert.GcnRef.run (F := Ideal) m ρ)

theorem net_congr {X : Cert.DenseLayer.Mat Cert.GcnSpec.NN 128} {W1 : Cert.DenseLayer.Mat 128 64} {W2 : Cert.DenseLayer.Mat 64 16}
    {rw rw' cw cw' : Fin Cert.GcnSpec.ET → BitVec 32} {nrm nrm' : Fin Cert.GcnSpec.ET → EReal}
    (h : Cert.GcnSpec.InRange rw) (h' : Cert.GcnSpec.InRange rw') (e1 : rw = rw') (e2 : cw = cw') (e3 : nrm = nrm') :
    Cert.GcnSpec.net X W1 W2 rw cw h nrm = Cert.GcnSpec.net X W1 W2 rw' cw' h' nrm' := by
  subst e1 e2 e3; rfl

theorem algebraic : Cert.algebraic_KernelIdeal_ReferenceIdeal := by
  intro m ρ m' ρ' hpre hagree
  refine ⟨fun c => Cert.KernelIdeal.Hand.W9 m c (Proc.devRef .tc Cert.KernelIdeal.main_v46),
    Cert.KernelIdeal.Hand.run_result (F := Ideal) m ρ, ?_⟩
  refine (θ_run Cert.ReferenceIdeal.defs _ _).mono (fun _ h c => ⟨(h c).1.trans ?_, (h c).2⟩)
    (Cert.GcnRef.run (F := Ideal) m' ρ')
  rw [(hagree c).1, (hagree c).2.1, (hagree c).2.2.1, (hagree c).2.2.2.1, (hagree c).2.2.2.2]
  have hR := Cert.GcnRef.inRange_of_pre _ _ _ _ _ (hpre c)
  rw [Cert.GcnRef.refOut_eq_net _ _ _ _ _ hR]
  have hK : Cert.GcnSpec.InRange (fun e => Cert.KernelIdeal.Gen.V3 m c Cert.KernelIdeal.main_v3 (ValueIdx.ix1 e)) := by
    rw [Cert.KernelIdeal.Hand.v3_eq]; exact hR
  show _ = Cert.KernelIdeal.Hand.W9 m c (Proc.devRef .tc Cert.KernelIdeal.main_v46)
  rw [Cert.KernelIdeal.Hand.kernel_value m c hK]
  exact net_congr hR hK
    (funext fun e => (congrFun (Cert.KernelIdeal.Hand.v3_eq m c) (ValueIdx.ix1 e)).symm)
    (funext fun e => (congrFun (Cert.KernelIdeal.Hand.v6_eq m c) (ValueIdx.ix1 e)).symm)
    (funext fun e => (congrFun (Cert.KernelIdeal.Hand.v31_eq m c) (ValueIdx.ix1 e)).symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
